-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v227_0)) (v1 : (c : Dev Cert.KernelIdeal.nD) → Buf (Elt Ideal) ((c.tc : Thread Cert.KernelIdeal.nD Cert.KernelIdeal.τ).loc Cert.KernelIdeal.main_v227_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v227_0) = v0 c
          ∧ r.2.mem ((c.tc : Thread Cert.KernelIdeal.nD Cert.KernelIdeal.τ).loc Cert.KernelIdeal.main_v227_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v295) = v0 c
          ∧ r.2.mem ((c.tc : Thread Cert.ReferenceIdeal.nD Cert.ReferenceIdeal.τ).loc Cert.ReferenceIdeal.main_v291) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S50000 : Shape := ⟨1, ![50000]⟩
abbrev S5x64x64 : Shape := ⟨3, ![5, 64, 64]⟩
abbrev S64 : Shape := ⟨1, ![64]⟩
abbrev S5x64x128 : Shape := ⟨3, ![5, 64, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S5x64x64 : S_.BroadcastsInDim S5x64x64 (![] : Fin 0 → Fin S5x64x64.rank)
  reducesTo_S5x64x64_S_d0_1_2 : S5x64x64.ReducesTo [0, 1, 2] S_
  bcast_S_S64 : S_.BroadcastsInDim S64 (![] : Fin 0 → Fin S64.rank)
  reducesTo_S64_S_d0 : S64.ReducesTo [0] S_
  bcast_S_S5x64x128 : S_.BroadcastsInDim S5x64x128 (![] : Fin 0 → Fin S5x64x128.rank)
  reducesTo_S5x64x128_S_d0_1_2 : S5x64x128.ReducesTo [0, 1, 2] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128 .f32) (main_arg10 : FVec F S128x2 .f32) (main_arg11 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x2 .f32 := Host.absf main_arg10
  let main_cst_14 : FVec F S_ .f32 := constant S_ .f32 0x7F800000#32
  let main_v40 : FVec F S128x2 .f32 := broadcastInDim S128x2 ![] bcast_S_S128x2 main_cst_14
  let main_v41 : IVec S128x2 1 := cmpf .olt main_v39 main_v40
  let main_c_15 : IVec S_ 1 := constantI S_ 1 1#1
  let main_v42 : IVec S_ 1 := (fun x v => Host.reduce IntOp.andi x v reducesTo_S128x2_S_d0_1 h_S_) main_v41 main_c_15
  let main_v43 : IVec S_ 1 := andi main_v38 main_v42
  let main_v44 : FVec F S2 .f32 := Host.absf main_arg11
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg6 : FVec F S5x64x64 .f32) (main_arg7 : FVec F S64 .f32) (main_arg8 : FVec F S5x64x128 .f32) (main_arg9 : FVec F S128 .f32) (main_arg10 : FVec F S128x2 .f32) (main_arg11 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S5x64x64 .f32 := Host.absf main_arg6
  let main_cst_6 : FVec F S_ .f32 := constant S_ .f32 0x7F800000#32
  let main_v20 : FVec F S5x64x64 .f32 := broadcastInDim S5x64x64 ![] bcast_S_S5x64x64 main_cst_6
  let main_v21 : IVec S5x64x64 1 := cmpf .olt main_v19 main_v20
  let main_c_7 : IVec S_ 1 := constantI S_ 1 1#1
  let main_v22 : IVec S_ 1 := (fun x v => Host.reduce IntOp.andi x v reducesTo_S5x64x64_S_d0_1_2 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S5x64x128 .f32 := Host.absf main_arg8
  let main_cst_10 : FVec F S_ .f32 := constant S_ .f32 0x7F800000#32
  let main_v30 : FVec F S5x64x128 .f32 := broadcastInDim S5x64x128 ![] bcast_S_S5x64x128 main_cst_10
  let main_v31 : IVec S5x64x128 1 := cmpf .olt main_v29 main_v30
  let main_c_11 : IVec S_ 1 := constantI S_ 1 1#1
  let main_v32 : IVec S_ 1 := (fun x v => Host.reduce IntOp.andi x v reducesTo_S5x64x128_S_d0_1_2 h_S_) main_v31 main_c_11
  let main_v33 : IVec S_ 1 := andi main_v28 main_v32
  fn_part2 (F := F) main_arg9 main_arg10 main_arg11 main_v33

def fn {F : FTy → Type} [FloatOps F] (main_arg0 : FVec F S50000x64 .f32) (main_arg1 : IVec S2x800000 32) (main_arg2 : FVec F S800000 .f32) (main_arg3 : IVec S50000 32) (main_arg4 : FVec F S5x64x64 .f32) (main_arg5 : FVec F S64 .f32) (main_arg6 : FVec F S5x64x64 .f32) (main_arg7 : FVec F S64 .f32) (main_arg8 : FVec F S5x64x128 .f32) (main_arg9 : FVec F S128 .f32) (main_arg10 : FVec F S128x2 .f32) (main_arg11 : FVec F S2 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S5x64x64 .f32 := Host.absf main_arg4
  let main_cst_2 : FVec F S_ .f32 := constant S_ .f32 0x7F800000#32
  let main_v10 : FVec F S5x64x64 .f32 := broadcastInDim S5x64x64 ![] bcast_S_S5x64x64 main_cst_2
  let main_v11 : IVec S5x64x64 1 := cmpf .olt main_v9 main_v10
  let main_c_3 : IVec S_ 1 := constantI S_ 1 1#1
  let main_v12 : IVec S_ 1 := (fun x v => Host.reduce IntOp.andi x v reducesTo_S5x64x64_S_d0_1_2 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S50000 : Shape := ⟨1, ![50000]⟩
abbrev S5x64x64 : Shape := ⟨3, ![5, 64, 64]⟩
abbrev S64 : Shape := ⟨1, ![64]⟩
abbrev S5x64x128 : Shape := ⟨3, ![5, 64, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S2000x64 : Shape := ⟨2, ![2000, 64]⟩
abbrev S1x64x64 : Shape := ⟨3, ![1, 64, 64]⟩
abbrev S64x64 : Shape := ⟨2, ![64, 64]⟩
abbrev S1x128 : Shape := ⟨2, ![1, 128]⟩
abbrev S50000x128 : Shape := ⟨2, ![50000, 128]⟩
abbrev S2000x128 : Shape := ⟨2, ![2000, 128]⟩
abbrev S1x64x128 : Shape := ⟨3, ![1, 64, 128]⟩
abbrev S64x128 : Shape := ⟨2, ![64, 128]⟩
abbrev S50000x1 : Shape := ⟨2, ![50000, 1]⟩
abbrev S64x1 : Shape := ⟨2, ![64, 1]⟩
abbrev S1x2 : Shape := ⟨2, ![1, 2]⟩
abbrev S64x2 : Shape := ⟨2, ![64, 2]⟩

abbrev nBuf : Space → Nat
  | .hbm => 296
  | .vmem => 52
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S50000, .i32⟩
  | 4 => ⟨S5x64x64, .f32⟩
  | 5 => ⟨S64, .f32⟩
  | 6 => ⟨S5x64x64, .f32⟩
  | 7 => ⟨S64, .f32⟩
  | 8 => ⟨S5x64x128, .f32⟩
  | 9 => ⟨S128, .f32⟩
  | 10 => ⟨S128x2, .f32⟩
  | 11 => ⟨S2, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S800000, .f32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S800000x1, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x64, .f32⟩
  | 59 => ⟨S800000x64, .f32⟩
  | 60 => ⟨S800000x64, .f32⟩
  | 61 => ⟨S_, .f32⟩
  | 62 => ⟨S50000x64, .f32⟩
  | 63 => ⟨S800000x1, .i32⟩
  | 64 => ⟨S50000x64, .f32⟩
  | 65 => ⟨S800000x1, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x64, .f32⟩
  | 75 => ⟨S800000x64, .f32⟩
  | 76 => ⟨S800000x64, .f32⟩
  | 77 => ⟨S_, .f32⟩
  | 78 => ⟨S50000x64, .f32⟩
  | 79 => ⟨S800000x1, .i32⟩
  | 80 => ⟨S50000x64, .f32⟩
  | 81 => ⟨S_, .f32⟩
  | 82 => ⟨S50000x64, .f32⟩
  | 83 => ⟨S50000x64, .f32⟩
  | 84 => ⟨S50000x64, .f32⟩
  | 85 => ⟨S800000x1, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x64, .f32⟩
  | 95 => ⟨S800000x64, .f32⟩
  | 96 => ⟨S800000x64, .f32⟩
  | 97 => ⟨S_, .f32⟩
  | 98 => ⟨S50000x64, .f32⟩
  | 99 => ⟨S800000x1, .i32⟩
  | 100 => ⟨S50000x64, .f32⟩
  | 101 => ⟨S_, .f32⟩
  | 102 => ⟨S50000x64, .f32⟩
  | 103 => ⟨S50000x64, .f32⟩
  | 104 => ⟨S50000x64, .f32⟩
  | 105 => ⟨S800000x1, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x64, .f32⟩
  | 115 => ⟨S800000x64, .f32⟩
  | 116 => ⟨S800000x64, .f32⟩
  | 117 => ⟨S_, .f32⟩
  | 118 => ⟨S50000x64, .f32⟩
  | 119 => ⟨S800000x1, .i32⟩
  | 120 => ⟨S50000x64, .f32⟩
  | 121 => ⟨S_, .f32⟩
  | 122 => ⟨S50000x64, .f32⟩
  | 123 => ⟨S50000x64, .f32⟩
  | 124 => ⟨S50000x64, .f32⟩
  | 125 => ⟨S1x64, .f32⟩
  | 126 => ⟨S50000x64, .f32⟩
  | 127 => ⟨S800000x1, .f32⟩
  | _ => ⟨S50000x64, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x64, .f32⟩
  | 9 => ⟨S800000x64, .f32⟩
  | 10 => ⟨S800000x64, .f32⟩
  | 11 => ⟨S_, .f32⟩
  | 12 => ⟨S50000x64, .f32⟩
  | 13 => ⟨S800000x1, .i32⟩
  | 14 => ⟨S50000x64, .f32⟩
  | 15 => ⟨S800000x1, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x64, .f32⟩
  | 25 => ⟨S800000x64, .f32⟩
  | 26 => ⟨S800000x64, .f32⟩
  | 27 => ⟨S_, .f32⟩
  | 28 => ⟨S50000x64, .f32⟩
  | 29 => ⟨S800000x1, .i32⟩
  | 30 => ⟨S50000x64, .f32⟩
  | 31 => ⟨S_, .f32⟩
  | 32 => ⟨S50000x64, .f32⟩
  | 33 => ⟨S50000x64, .f32⟩
  | 34 => ⟨S50000x64, .f32⟩
  | 35 => ⟨S800000x1, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x64, .f32⟩
  | 45 => ⟨S800000x64, .f32⟩
  | 46 => ⟨S800000x64, .f32⟩
  | 47 => ⟨S_, .f32⟩
  | 48 => ⟨S50000x64, .f32⟩
  | 49 => ⟨S800000x1, .i32⟩
  | 50 => ⟨S50000x64, .f32⟩
  | 51 => ⟨S_, .f32⟩
  | 52 => ⟨S50000x64, .f32⟩
  | 53 => ⟨S50000x64, .f32⟩
  | 54 => ⟨S50000x64, .f32⟩
  | 55 => ⟨S800000x1, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x64, .f32⟩
  | 65 => ⟨S800000x64, .f32⟩
  | 66 => ⟨S800000x64, .f32⟩
  | 67 => ⟨S_, .f32⟩
  | 68 => ⟨S50000x64, .f32⟩
  | 69 => ⟨S800000x1, .i32⟩
  | 70 => ⟨S50000x64, .f32⟩
  | 71 => ⟨S_, .f32⟩
  | 72 => ⟨S50000x64, .f32⟩
  | 73 => ⟨S50000x64, .f32⟩
  | 74 => ⟨S50000x64, .f32⟩
  | 75 => ⟨S1x64, .f32⟩
  | 76 => ⟨S50000x64, .f32⟩
  | 77 => ⟨S800000x1, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x64, .f32⟩
  | 87 => ⟨S800000x64, .f32⟩
  | 88 => ⟨S800000x64, .f32⟩
  | 89 => ⟨S_, .f32⟩
  | 90 => ⟨S50000x64, .f32⟩
  | 91 => ⟨S800000x1, .i32⟩
  | 92 => ⟨S50000x64, .f32⟩
  | 93 => ⟨S800000x1, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x64, .f32⟩
  | 103 => ⟨S800000x64, .f32⟩
  | 104 => ⟨S800000x64, .f32⟩
  | 105 => ⟨S_, .f32⟩
  | 106 => ⟨S50000x64, .f32⟩
  | 107 => ⟨S800000x1, .i32⟩
  | 108 => ⟨S50000x64, .f32⟩
  | 109 => ⟨S_, .f32⟩
  | 110 => ⟨S50000x64, .f32⟩
  | 111 => ⟨S50000x64, .f32⟩
  | 112 => ⟨S50000x64, .f32⟩
  | 113 => ⟨S800000x1, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x64, .f32⟩
  | 123 => ⟨S800000x64, .f32⟩
  | 124 => ⟨S800000x64, .f32⟩
  | 125 => ⟨S_, .f32⟩
  | 126 => ⟨S50000x64, .f32⟩
  | 127 => ⟨S800000x1, .i32⟩
  | _ => ⟨S50000x64, .f32⟩

abbrev hbmTy0_2 (i : Nat) : BufTy := match i % 128 with
  | 0 => ⟨S50000x64, .f32⟩
  | 1 => ⟨S_, .f32⟩
  | 2 => ⟨S50000x64, .f32⟩
  | 3 => ⟨S50000x64, .f32⟩
  | 4 => ⟨S50000x64, .f32⟩
  | 5 => ⟨S800000x1, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S800000x64, .f32⟩
  | 15 => ⟨S800000x64, .f32⟩
  | 16 => ⟨S800000x64, .f32⟩
  | 17 => ⟨S_, .f32⟩
  | 18 => ⟨S50000x64, .f32⟩
  | 19 => ⟨S800000x1, .i32⟩
  | 20 => ⟨S50000x64, .f32⟩
  | 21 => ⟨S_, .f32⟩
  | 22 => ⟨S50000x64, .f32⟩
  | 23 => ⟨S50000x64, .f32⟩
  | 24 => ⟨S50000x64, .f32⟩
  | 25 => ⟨S1x128, .f32⟩
  | 26 => ⟨S50000x128, .f32⟩
  | 27 => ⟨S50000x1, .i32⟩
  | 28 => ⟨S64, .i32⟩
  | 29 => ⟨S1x64, .i32⟩
  | 30 => ⟨S50000x64, .i32⟩
  | 31 => ⟨S50000x64, .i32⟩
  | 32 => ⟨S50000x64, .i1⟩
  | 33 => ⟨S50000x64, .f32⟩
  | 34 => ⟨S_, .f32⟩
  | 35 => ⟨S64, .f32⟩
  | 36 => ⟨S64x1, .f32⟩
  | 37 => ⟨S1x2, .f32⟩
  | 38 => ⟨S64x2, .f32⟩
  | 39 => ⟨S64x128, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S5x64x64, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S5x64x64, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S2000x64, .f32⟩
  | .local _ .vmem, ⟨37, _⟩ => ⟨S2000x64, .f32⟩
  | .local _ .vmem, ⟨38, _⟩ => ⟨S5x64x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S2000x64, .f32⟩
  | .local _ .vmem, ⟨43, _⟩ => ⟨S2000x64, .f32⟩
  | .local _ .vmem, ⟨44, _⟩ => ⟨S2000x128, .f32⟩
  | .local _ .vmem, ⟨45, _⟩ => ⟨S2000x128, .f32⟩
  | .local _ .vmem, ⟨46, _⟩ => ⟨S128x2, .f32⟩
  | .local _ .vmem, ⟨47, _⟩ => ⟨S1x2, .f32⟩
  | .local _ .vmem, ⟨48, _⟩ => ⟨S64x1, .f32⟩
  | .local _ .vmem, ⟨49, _⟩ => ⟨S64x2, .f32⟩
  | .local _ .vmem, ⟨50, _⟩ => ⟨S64x128, .f32⟩
  | .local _ .vmem, ⟨51, _⟩ => ⟨S64x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_c_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_14 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_15 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_16 : Ref sig .tc := ⟨.hbm, 106, rfl⟩
abbrev main_v74 : Ref sig .tc := ⟨.hbm, 107, rfl⟩
abbrev main_v75 : Ref sig .tc := ⟨.hbm, 108, rfl⟩
abbrev main_c_17 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_18 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_19 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_c_20 : Ref sig .tc := ⟨.hbm, 128, rfl⟩
abbrev main_v92 : Ref sig .tc := ⟨.hbm, 129, rfl⟩
abbrev main_v93 : Ref sig .tc := ⟨.hbm, 130, rfl⟩
abbrev main_c_21 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_22 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_c_23 : Ref sig .tc := ⟨.hbm, 144, rfl⟩
abbrev main_v105 : Ref sig .tc := ⟨.hbm, 145, rfl⟩
abbrev main_v106 : Ref sig .tc := ⟨.hbm, 146, rfl⟩
abbrev main_c_24 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_25 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_26 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_c_27 : Ref sig .tc := ⟨.hbm, 164, rfl⟩
abbrev main_v121 : Ref sig .tc := ⟨.hbm, 165, rfl⟩
abbrev main_v122 : Ref sig .tc := ⟨.hbm, 166, rfl⟩
abbrev main_c_28 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_cst_29 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_cst_30 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_c_31 : Ref sig .tc := ⟨.hbm, 184, rfl⟩
abbrev main_v137 : Ref sig .tc := ⟨.hbm, 185, rfl⟩
abbrev main_v138 : Ref sig .tc := ⟨.hbm, 186, rfl⟩
abbrev main_c_32 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_cst_33 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_cst_34 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_c_35 : Ref sig .tc := ⟨.hbm, 206, rfl⟩
abbrev main_v155 : Ref sig .tc := ⟨.hbm, 207, rfl⟩
abbrev main_v156 : Ref sig .tc := ⟨.hbm, 208, rfl⟩
abbrev main_c_36 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_cst_37 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_c_38 : Ref sig .tc := ⟨.hbm, 222, rfl⟩
abbrev main_v168 : Ref sig .tc := ⟨.hbm, 223, rfl⟩
abbrev main_v169 : Ref sig .tc := ⟨.hbm, 224, rfl⟩
abbrev main_c_39 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_cst_40 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_cst_41 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_c_42 : Ref sig .tc := ⟨.hbm, 242, rfl⟩
abbrev main_v184 : Ref sig .tc := ⟨.hbm, 243, rfl⟩
abbrev main_v185 : Ref sig .tc := ⟨.hbm, 244, rfl⟩
abbrev main_c_43 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_cst_44 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_cst_45 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_c_46 : Ref sig .tc := ⟨.hbm, 262, rfl⟩
abbrev main_v200 : Ref sig .tc := ⟨.hbm, 263, rfl⟩
abbrev main_v201 : Ref sig .tc := ⟨.hbm, 264, rfl⟩
abbrev main_c_47 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_cst_48 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_cst_49 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_v222 : Ref sig .tc := ⟨.hbm, 288, rfl⟩
abbrev main_v223 : Ref sig .tc := ⟨.hbm, 289, rfl⟩
abbrev main_cst_50 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227_0 : Ref sig .tc := ⟨.hbm, 294, rfl⟩
abbrev main_v227_1 : Ref sig .tc := ⟨.hbm, 295, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg7_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg3_0 : Ref sig .tc := ⟨.vmem, 47, rfl⟩
abbrev cc3_stg4_0 : Ref sig .tc := ⟨.vmem, 48, rfl⟩
abbrev cc3_stg5_0 : Ref sig .tc := ⟨.vmem, 49, rfl⟩
abbrev cc3_stg6_0 : Ref sig .tc := ⟨.vmem, 50, rfl⟩
abbrev cc3_scratch0 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem7_0 : DmaSem sig := 26
abbrev cc1_sem7_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem6_0 : DmaSem sig := 39
abbrev cc2_sem7_0 : DmaSem sig := 40
abbrev cc2_sem7_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem3_0 : DmaSem sig := 47
abbrev cc3_sem4_0 : DmaSem sig := 48
abbrev cc3_sem5_0 : DmaSem sig := 49
abbrev cc3_sem6_0 : DmaSem sig := 50

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S5x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S5x64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S5x64x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v13 : BitVec 1 := Scalar.cmpi .eq arg0 c24_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  inb_S5x64x64_S1x64x64_0_0_0 : ∀ a, (![0, 0, 0] : Fin 3 → Nat) a + S1x64x64.size a ≤ S5x64x64.size a
  h_S1x64x64 : 0 < S1x64x64.numel
  shapeCasts_S1x64x64_S64x64 : S1x64x64.ShapeCasts S64x64
  shapeCasts_S2000x64_S2000x64 : S2000x64.ShapeCasts S2000x64
  inb_S5x64x64_S1x64x64_1_0_0 : ∀ a, (![1, 0, 0] : Fin 3 → Nat) a + S1x64x64.size a ≤ S5x64x64.size a
  inb_S5x64x64_S1x64x64_2_0_0 : ∀ a, (![2, 0, 0] : Fin 3 → Nat) a + S1x64x64.size a ≤ S5x64x64.size a
  inb_S5x64x64_S1x64x64_3_0_0 : ∀ a, (![3, 0, 0] : Fin 3 → Nat) a + S1x64x64.size a ≤ S5x64x64.size a
  inb_S5x64x64_S1x64x64_4_0_0 : ∀ a, (![4, 0, 0] : Fin 3 → Nat) a + S1x64x64.size a ≤ S5x64x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S128_S1x128 : S128.ShapeCasts S1x128
  inb_S5x64x128_S1x64x128_0_0_0 : ∀ a, (![0, 0, 0] : Fin 3 → Nat) a + S1x64x128.size a ≤ S5x64x128.size a
  h_S1x64x128 : 0 < S1x64x128.numel
  shapeCasts_S1x64x128_S64x128 : S1x64x128.ShapeCasts S64x128
  inb_S5x64x128_S1x64x128_1_0_0 : ∀ a, (![1, 0, 0] : Fin 3 → Nat) a + S1x64x128.size a ≤ S5x64x128.size a
  inb_S5x64x128_S1x64x128_2_0_0 : ∀ a, (![2, 0, 0] : Fin 3 → Nat) a + S1x64x128.size a ≤ S5x64x128.size a
  inb_S5x64x128_S1x64x128_3_0_0 : ∀ a, (![3, 0, 0] : Fin 3 → Nat) a + S1x64x128.size a ≤ S5x64x128.size a
  inb_S5x64x128_S1x64x128_4_0_0 : ∀ a, (![4, 0, 0] : Fin 3 → Nat) a + S1x64x128.size a ≤ S5x64x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  shapeCasts_S64_S64x1 : S64.ShapeCasts S64x1
  shapeCasts_S2_S1x2 : S2.ShapeCasts S1x2
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S2000x128_S2000x128 : S2000x128.ShapeCasts S2000x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x128 : S64x1.Broadcasts S64x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  dot_S2000x64_S64x128_S2000x128_1_0_0_1_n_n_wf : DotDims.WF S2000x64 S64x128 S2000x128 [1] [0] [0] [1] [] []
  dot_S2000x64_S2000x128_S64x128_0_0_1_1_n_n_wf : DotDims.WF S2000x64 S2000x128 S64x128 [0] [0] [1] [1] [] []
  dot_S64x128_S128x2_S64x2_1_0_0_1_n_n_wf : DotDims.WF S64x128 S128x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S50000x64.size a
  hwx0_4 : ∀ i : grid0.Coords, EltTy.bits .f32 = 32 ∨ (Rect.block (s := S50000x64) S2000x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x64x64.size a ≤ S5x64x64.size a
  hwx0_5 : ∀ i : grid0.Coords, EltTy.bits .f32 = 32 ∨ (Rect.block (s := S5x64x64) S5x64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x64.size a ≤ S50000x64.size a
  hwx0_7 : ∀ i : grid0.Coords, EltTy.bits .f32 = 32 ∨ (Rect.block (s := S50000x64) S2000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .f32 = 32 ∨ (Rect.block (s := S50000x64) S2000x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S5x64x64.size a ≤ S5x64x64.size a
  hwx1_5 : ∀ i : grid1.Coords, EltTy.bits .f32 = 32 ∨ (Rect.block (s := S5x64x64) S5x64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S50000x64.size a
  hwx1_7 : ∀ i : grid1.Coords, EltTy.bits .f32 = 32 ∨ (Rect.block (s := S50000x64) S2000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S50000x64.size a
  hwx2_4 : ∀ i : grid2.Coords, EltTy.bits .f32 = 32 ∨ (Rect.block (s := S50000x64) S2000x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S5x64x128.size a ≤ S5x64x128.size a
  hwx2_5 : ∀ i : grid2.Coords, EltTy.bits .f32 = 32 ∨ (Rect.block (s := S5x64x128) S5x64x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .f32 = 32 ∨ (Rect.block (s := S50000x128) S2000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x2.size a ≤ S128x2.size a
  hwx3_2 : ∀ i : grid3.Coords, EltTy.bits .f32 = 32 ∨ (Rect.block (s := S128x2) S128x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2.size a ≤ S1x2.size a
  hwx3_3 : ∀ i : grid3.Coords, EltTy.bits .f32 = 32 ∨ (Rect.block (s := S1x2) S1x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x1.size a ≤ S64x1.size a
  hwx3_4 : ∀ i : grid3.Coords, EltTy.bits .f32 = 32 ∨ (Rect.block (s := S64x1) S64x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x2.size a ≤ S64x2.size a
  hwx3_5 : ∀ i : grid3.Coords, EltTy.bits .f32 = 32 ∨ (Rect.block (s := S64x2) S64x2.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x128.size a ≤ S64x128.size a
  hwx3_6 : ∀ i : grid3.Coords, EltTy.bits .f32 = 32 ∨ (Rect.block (s := S64x128) S64x128.size (cc3_transform_6 i) (hinb3_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x64_S2000x128_S64x128_0_0_1_1_n_n : DotDims S2000x64 S2000x128 S64x128 where
  lhsContracting := [0]
  rhsContracting := [0]
  lhsNonContracting := [1]
  rhsNonContracting := [1]
  lhsBatch := []
  rhsBatch := []
  wf := dot_S2000x64_S2000x128_S64x128_0_0_1_1_n_n_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v72) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v88) S2000x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S5x64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v89) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v90) S2000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v90) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v103) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v119) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v135) S2000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v151) S2000x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S5x64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v152) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v153) S2000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v153) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v166) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v182) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v198) S2000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v214) S2000x64.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S5x64x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v215) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v216) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v223) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v216) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S128x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v226) S1x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v225) S64x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v227_0) S64x2.size cc3_transform_5 reads3_5 true true 1 stage3_5 sem3_5
    hrank3 hreads3_5 hinb3_5 nbuf3_5 (Memref.isWhole_whole _) hwx3_5 hstage3_5

abbrev win3_6 : Pipeline.Window sig grid3 :=
  Pipeline.Window.ofSpec (Memref.whole main_v227_1) S64x128.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun i => !(k3_cond2 i == 1#1) | 6 => fun i => !(k3_cond2 i == 1#1) | ⟨_ + 7, h⟩ => absurd h (Nat.not_lt.2 (Nat.le_add_left _ _))

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S50000 : Shape := ⟨1, ![50000]⟩
abbrev S5x64x64 : Shape := ⟨3, ![5, 64, 64]⟩
abbrev S64 : Shape := ⟨1, ![64]⟩
abbrev S5x64x128 : Shape := ⟨3, ![5, 64, 128]⟩
abbrev S128 : Shape := ⟨1, ![128]⟩
abbrev S128x2 : Shape := ⟨2, ![128, 2]⟩
abbrev S2 : Shape := ⟨1, ![2]⟩
abbrev S1x800000 : Shape := ⟨2, ![1, 800000]⟩
abbrev S_ : Shape := ⟨0, ![]⟩
abbrev S800000x1 : Shape := ⟨2, ![800000, 1]⟩
abbrev S1x64x64 : Shape := ⟨3, ![1, 64, 64]⟩
abbrev S64x64 : Shape := ⟨2, ![64, 64]⟩
abbrev S800000x64 : Shape := ⟨2, ![800000, 64]⟩
abbrev S1x64 : Shape := ⟨2, ![1, 64]⟩
abbrev S1x64x128 : Shape := ⟨3, ![1, 64, 128]⟩
abbrev S64x128 : Shape := ⟨2, ![64, 128]⟩
abbrev S50000x128 : Shape := ⟨2, ![50000, 128]⟩
abbrev S1x128 : Shape := ⟨2, ![1, 128]⟩
abbrev S50000x1 : Shape := ⟨2, ![50000, 1]⟩
abbrev S64x1 : Shape := ⟨2, ![64, 1]⟩
abbrev S64x2 : Shape := ⟨2, ![64, 2]⟩
abbrev S1x2 : Shape := ⟨2, ![1, 2]⟩

abbrev nBuf : Space → Nat
  | .hbm => 372
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S50000, .i32⟩
  | 4 => ⟨S5x64x64, .f32⟩
  | 5 => ⟨S64, .f32⟩
  | 6 => ⟨S5x64x64, .f32⟩
  | 7 => ⟨S64, .f32⟩
  | 8 => ⟨S5x64x128, .f32⟩
  | 9 => ⟨S128, .f32⟩
  | 10 => ⟨S128x2, .f32⟩
  | 11 => ⟨S2, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S800000, .f32⟩
  | 38 => ⟨S800000, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000, .f32⟩
  | 48 => ⟨S800000, .f32⟩
  | 49 => ⟨S1x64x64, .f32⟩
  | 50 => ⟨S64x64, .f32⟩
  | 51 => ⟨S50000x64, .f32⟩
  | 52 => ⟨S800000x1, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x64, .f32⟩
  | 62 => ⟨S800000x64, .f32⟩
  | 63 => ⟨S800000x64, .f32⟩
  | 64 => ⟨S_, .f32⟩
  | 65 => ⟨S50000x64, .f32⟩
  | 66 => ⟨S800000x1, .i32⟩
  | 67 => ⟨S50000x64, .f32⟩
  | 68 => ⟨S1x64x64, .f32⟩
  | 69 => ⟨S64x64, .f32⟩
  | 70 => ⟨S50000x64, .f32⟩
  | 71 => ⟨S50000x64, .f32⟩
  | 72 => ⟨S800000x1, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x64, .f32⟩
  | 82 => ⟨S800000x64, .f32⟩
  | 83 => ⟨S800000x64, .f32⟩
  | 84 => ⟨S_, .f32⟩
  | 85 => ⟨S50000x64, .f32⟩
  | 86 => ⟨S800000x1, .i32⟩
  | 87 => ⟨S50000x64, .f32⟩
  | 88 => ⟨S_, .f32⟩
  | 89 => ⟨S50000x64, .f32⟩
  | 90 => ⟨S50000x64, .f32⟩
  | 91 => ⟨S50000x64, .f32⟩
  | 92 => ⟨S1x64x64, .f32⟩
  | 93 => ⟨S64x64, .f32⟩
  | 94 => ⟨S50000x64, .f32⟩
  | 95 => ⟨S50000x64, .f32⟩
  | 96 => ⟨S800000x1, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x64, .f32⟩
  | 106 => ⟨S800000x64, .f32⟩
  | 107 => ⟨S800000x64, .f32⟩
  | 108 => ⟨S_, .f32⟩
  | 109 => ⟨S50000x64, .f32⟩
  | 110 => ⟨S800000x1, .i32⟩
  | 111 => ⟨S50000x64, .f32⟩
  | 112 => ⟨S_, .f32⟩
  | 113 => ⟨S50000x64, .f32⟩
  | 114 => ⟨S50000x64, .f32⟩
  | 115 => ⟨S50000x64, .f32⟩
  | 116 => ⟨S1x64x64, .f32⟩
  | 117 => ⟨S64x64, .f32⟩
  | 118 => ⟨S50000x64, .f32⟩
  | 119 => ⟨S50000x64, .f32⟩
  | 120 => ⟨S800000x1, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x64, .f32⟩

abbrev hbmTy0_1 (i : Nat) : BufTy := match i % 128 with
  | 0 => ⟨S800000x1, .i32⟩
  | 1 => ⟨S800000x64, .f32⟩
  | 2 => ⟨S800000x64, .f32⟩
  | 3 => ⟨S800000x64, .f32⟩
  | 4 => ⟨S_, .f32⟩
  | 5 => ⟨S50000x64, .f32⟩
  | 6 => ⟨S800000x1, .i32⟩
  | 7 => ⟨S50000x64, .f32⟩
  | 8 => ⟨S_, .f32⟩
  | 9 => ⟨S50000x64, .f32⟩
  | 10 => ⟨S50000x64, .f32⟩
  | 11 => ⟨S50000x64, .f32⟩
  | 12 => ⟨S1x64x64, .f32⟩
  | 13 => ⟨S64x64, .f32⟩
  | 14 => ⟨S50000x64, .f32⟩
  | 15 => ⟨S50000x64, .f32⟩
  | 16 => ⟨S1x64, .f32⟩
  | 17 => ⟨S50000x64, .f32⟩
  | 18 => ⟨S50000x64, .f32⟩
  | 19 => ⟨S_, .f32⟩
  | 20 => ⟨S50000x64, .f32⟩
  | 21 => ⟨S50000x64, .f32⟩
  | 22 => ⟨S1x64x64, .f32⟩
  | 23 => ⟨S64x64, .f32⟩
  | 24 => ⟨S50000x64, .f32⟩
  | 25 => ⟨S800000x1, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x64, .f32⟩
  | 35 => ⟨S800000x64, .f32⟩
  | 36 => ⟨S800000x64, .f32⟩
  | 37 => ⟨S_, .f32⟩
  | 38 => ⟨S50000x64, .f32⟩
  | 39 => ⟨S800000x1, .i32⟩
  | 40 => ⟨S50000x64, .f32⟩
  | 41 => ⟨S1x64x64, .f32⟩
  | 42 => ⟨S64x64, .f32⟩
  | 43 => ⟨S50000x64, .f32⟩
  | 44 => ⟨S50000x64, .f32⟩
  | 45 => ⟨S800000x1, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x64, .f32⟩
  | 55 => ⟨S800000x64, .f32⟩
  | 56 => ⟨S800000x64, .f32⟩
  | 57 => ⟨S_, .f32⟩
  | 58 => ⟨S50000x64, .f32⟩
  | 59 => ⟨S800000x1, .i32⟩
  | 60 => ⟨S50000x64, .f32⟩
  | 61 => ⟨S_, .f32⟩
  | 62 => ⟨S50000x64, .f32⟩
  | 63 => ⟨S50000x64, .f32⟩
  | 64 => ⟨S50000x64, .f32⟩
  | 65 => ⟨S1x64x64, .f32⟩
  | 66 => ⟨S64x64, .f32⟩
  | 67 => ⟨S50000x64, .f32⟩
  | 68 => ⟨S50000x64, .f32⟩
  | 69 => ⟨S800000x1, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x64, .f32⟩
  | 79 => ⟨S800000x64, .f32⟩
  | 80 => ⟨S800000x64, .f32⟩
  | 81 => ⟨S_, .f32⟩
  | 82 => ⟨S50000x64, .f32⟩
  | 83 => ⟨S800000x1, .i32⟩
  | 84 => ⟨S50000x64, .f32⟩
  | 85 => ⟨S_, .f32⟩
  | 86 => ⟨S50000x64, .f32⟩
  | 87 => ⟨S50000x64, .f32⟩
  | 88 => ⟨S50000x64, .f32⟩
  | 89 => ⟨S1x64x64, .f32⟩
  | 90 => ⟨S64x64, .f32⟩
  | 91 => ⟨S50000x64, .f32⟩
  | 92 => ⟨S50000x64, .f32⟩
  | 93 => ⟨S800000x1, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x64, .f32⟩
  | 103 => ⟨S800000x64, .f32⟩
  | 104 => ⟨S800000x64, .f32⟩
  | 105 => ⟨S_, .f32⟩
  | 106 => ⟨S50000x64, .f32⟩
  | 107 => ⟨S800000x1, .i32⟩
  | 108 => ⟨S50000x64, .f32⟩
  | 109 => ⟨S_, .f32⟩
  | 110 => ⟨S50000x64, .f32⟩
  | 111 => ⟨S50000x64, .f32⟩
  | 112 => ⟨S50000x64, .f32⟩
  | 113 => ⟨S1x64x64, .f32⟩
  | 114 => ⟨S64x64, .f32⟩
  | 115 => ⟨S50000x64, .f32⟩
  | 116 => ⟨S50000x64, .f32⟩
  | 117 => ⟨S1x64, .f32⟩
  | 118 => ⟨S50000x64, .f32⟩
  | 119 => ⟨S50000x64, .f32⟩
  | 120 => ⟨S_, .f32⟩
  | 121 => ⟨S50000x64, .f32⟩
  | 122 => ⟨S50000x64, .f32⟩
  | 123 => ⟨S1x64x128, .f32⟩
  | 124 => ⟨S64x128, .f32⟩
  | 125 => ⟨S50000x128, .f32⟩
  | 126 => ⟨S800000x1, .f32⟩
  | 127 => ⟨S_, .i32⟩
  | _ => ⟨S50000x64, .f32⟩

abbrev hbmTy0_2 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x64, .f32⟩
  | 8 => ⟨S800000x64, .f32⟩
  | 9 => ⟨S800000x64, .f32⟩
  | 10 => ⟨S_, .f32⟩
  | 11 => ⟨S50000x64, .f32⟩
  | 12 => ⟨S800000x1, .i32⟩
  | 13 => ⟨S50000x64, .f32⟩
  | 14 => ⟨S1x64x128, .f32⟩
  | 15 => ⟨S64x128, .f32⟩
  | 16 => ⟨S50000x128, .f32⟩
  | 17 => ⟨S50000x128, .f32⟩
  | 18 => ⟨S800000x1, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x64, .f32⟩
  | 28 => ⟨S800000x64, .f32⟩
  | 29 => ⟨S800000x64, .f32⟩
  | 30 => ⟨S_, .f32⟩
  | 31 => ⟨S50000x64, .f32⟩
  | 32 => ⟨S800000x1, .i32⟩
  | 33 => ⟨S50000x64, .f32⟩
  | 34 => ⟨S_, .f32⟩
  | 35 => ⟨S50000x64, .f32⟩
  | 36 => ⟨S50000x64, .f32⟩
  | 37 => ⟨S50000x64, .f32⟩
  | 38 => ⟨S1x64x128, .f32⟩
  | 39 => ⟨S64x128, .f32⟩
  | 40 => ⟨S50000x128, .f32⟩
  | 41 => ⟨S50000x128, .f32⟩
  | 42 => ⟨S800000x1, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x64, .f32⟩
  | 52 => ⟨S800000x64, .f32⟩
  | 53 => ⟨S800000x64, .f32⟩
  | 54 => ⟨S_, .f32⟩
  | 55 => ⟨S50000x64, .f32⟩
  | 56 => ⟨S800000x1, .i32⟩
  | 57 => ⟨S50000x64, .f32⟩
  | 58 => ⟨S_, .f32⟩
  | 59 => ⟨S50000x64, .f32⟩
  | 60 => ⟨S50000x64, .f32⟩
  | 61 => ⟨S50000x64, .f32⟩
  | 62 => ⟨S1x64x128, .f32⟩
  | 63 => ⟨S64x128, .f32⟩
  | 64 => ⟨S50000x128, .f32⟩
  | 65 => ⟨S50000x128, .f32⟩
  | 66 => ⟨S800000x1, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x64, .f32⟩
  | 76 => ⟨S800000x64, .f32⟩
  | 77 => ⟨S800000x64, .f32⟩
  | 78 => ⟨S_, .f32⟩
  | 79 => ⟨S50000x64, .f32⟩
  | 80 => ⟨S800000x1, .i32⟩
  | 81 => ⟨S50000x64, .f32⟩
  | 82 => ⟨S_, .f32⟩
  | 83 => ⟨S50000x64, .f32⟩
  | 84 => ⟨S50000x64, .f32⟩
  | 85 => ⟨S50000x64, .f32⟩
  | 86 => ⟨S1x64x128, .f32⟩
  | 87 => ⟨S64x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S_, .f32⟩
  | 97 => ⟨S64x128, .f32⟩
  | 98 => ⟨S50000x1, .i32⟩
  | 99 => ⟨S64x128, .f32⟩
  | 100 => ⟨S_, .f32⟩
  | 101 => ⟨S50000, .f32⟩
  | 102 => ⟨S_, .f32⟩
  | 103 => ⟨S64, .f32⟩
  | 104 => ⟨S50000x1, .i32⟩
  | 105 => ⟨S64, .f32⟩
  | 106 => ⟨S_, .f32⟩
  | 107 => ⟨S64, .f32⟩
  | 108 => ⟨S64, .f32⟩
  | 109 => ⟨S64x1, .f32⟩
  | 110 => ⟨S64x128, .f32⟩
  | 111 => ⟨S64x128, .f32⟩
  | 112 => ⟨S64x2, .f32⟩
  | 113 => ⟨S1x2, .f32⟩
  | 114 => ⟨S64x2, .f32⟩
  | 115 => ⟨S64x2, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_8 : Ref sig .tc := ⟨.hbm, 73, rfl⟩
abbrev main_v49 : Ref sig .tc := ⟨.hbm, 74, rfl⟩
abbrev main_v50 : Ref sig .tc := ⟨.hbm, 75, rfl⟩
abbrev main_c_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_12 : Ref sig .tc := ⟨.hbm, 97, rfl⟩
abbrev main_v69 : Ref sig .tc := ⟨.hbm, 98, rfl⟩
abbrev main_v70 : Ref sig .tc := ⟨.hbm, 99, rfl⟩
abbrev main_c_13 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_14 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_15 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_16 : Ref sig .tc := ⟨.hbm, 121, rfl⟩
abbrev main_v89 : Ref sig .tc := ⟨.hbm, 122, rfl⟩
abbrev main_v90 : Ref sig .tc := ⟨.hbm, 123, rfl⟩
abbrev main_c_17 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_18 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_19 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_call1_cst : Ref sig .tc := ⟨.hbm, 147, rfl⟩
abbrev main_call1_v0 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_c_20 : Ref sig .tc := ⟨.hbm, 154, rfl⟩
abbrev main_v116 : Ref sig .tc := ⟨.hbm, 155, rfl⟩
abbrev main_v117 : Ref sig .tc := ⟨.hbm, 156, rfl⟩
abbrev main_c_21 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_22 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_c_23 : Ref sig .tc := ⟨.hbm, 174, rfl⟩
abbrev main_v133 : Ref sig .tc := ⟨.hbm, 175, rfl⟩
abbrev main_v134 : Ref sig .tc := ⟨.hbm, 176, rfl⟩
abbrev main_c_24 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_cst_25 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_cst_26 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_c_27 : Ref sig .tc := ⟨.hbm, 198, rfl⟩
abbrev main_v153 : Ref sig .tc := ⟨.hbm, 199, rfl⟩
abbrev main_v154 : Ref sig .tc := ⟨.hbm, 200, rfl⟩
abbrev main_c_28 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_cst_29 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_cst_30 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_c_31 : Ref sig .tc := ⟨.hbm, 222, rfl⟩
abbrev main_v173 : Ref sig .tc := ⟨.hbm, 223, rfl⟩
abbrev main_v174 : Ref sig .tc := ⟨.hbm, 224, rfl⟩
abbrev main_c_32 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_cst_33 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_cst_34 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_call2_cst : Ref sig .tc := ⟨.hbm, 248, rfl⟩
abbrev main_call2_v0 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_c_35 : Ref sig .tc := ⟨.hbm, 255, rfl⟩
abbrev main_v200 : Ref sig .tc := ⟨.hbm, 256, rfl⟩
abbrev main_v201 : Ref sig .tc := ⟨.hbm, 257, rfl⟩
abbrev main_c_36 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_cst_37 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_c_38 : Ref sig .tc := ⟨.hbm, 275, rfl⟩
abbrev main_v217 : Ref sig .tc := ⟨.hbm, 276, rfl⟩
abbrev main_v218 : Ref sig .tc := ⟨.hbm, 277, rfl⟩
abbrev main_c_39 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_cst_40 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_cst_41 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_c_42 : Ref sig .tc := ⟨.hbm, 299, rfl⟩
abbrev main_v237 : Ref sig .tc := ⟨.hbm, 300, rfl⟩
abbrev main_v238 : Ref sig .tc := ⟨.hbm, 301, rfl⟩
abbrev main_c_43 : Ref sig .tc := ⟨.hbm, 302, rfl⟩
abbrev main_v239 : Ref sig .tc := ⟨.hbm, 303, rfl⟩
abbrev main_v240 : Ref sig .tc := ⟨.hbm, 304, rfl⟩
abbrev main_v241 : Ref sig .tc := ⟨.hbm, 305, rfl⟩
abbrev main_v242 : Ref sig .tc := ⟨.hbm, 306, rfl⟩
abbrev main_v243 : Ref sig .tc := ⟨.hbm, 307, rfl⟩
abbrev main_v244 : Ref sig .tc := ⟨.hbm, 308, rfl⟩
abbrev main_v245 : Ref sig .tc := ⟨.hbm, 309, rfl⟩
abbrev main_cst_44 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_cst_45 : Ref sig .tc := ⟨.hbm, 314, rfl⟩
abbrev main_v249 : Ref sig .tc := ⟨.hbm, 315, rfl⟩
abbrev main_v250 : Ref sig .tc := ⟨.hbm, 316, rfl⟩
abbrev main_v251 : Ref sig .tc := ⟨.hbm, 317, rfl⟩
abbrev main_v252 : Ref sig .tc := ⟨.hbm, 318, rfl⟩
abbrev main_v253 : Ref sig .tc := ⟨.hbm, 319, rfl⟩
abbrev main_v254 : Ref sig .tc := ⟨.hbm, 320, rfl⟩
abbrev main_v255 : Ref sig .tc := ⟨.hbm, 321, rfl⟩
abbrev main_v256 : Ref sig .tc := ⟨.hbm, 322, rfl⟩
abbrev main_c_46 : Ref sig .tc := ⟨.hbm, 323, rfl⟩
abbrev main_v257 : Ref sig .tc := ⟨.hbm, 324, rfl⟩
abbrev main_v258 : Ref sig .tc := ⟨.hbm, 325, rfl⟩
abbrev main_c_47 : Ref sig .tc := ⟨.hbm, 326, rfl⟩
abbrev main_v259 : Ref sig .tc := ⟨.hbm, 327, rfl⟩
abbrev main_v260 : Ref sig .tc := ⟨.hbm, 328, rfl⟩
abbrev main_v261 : Ref sig .tc := ⟨.hbm, 329, rfl⟩
abbrev main_v262 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_cst_48 : Ref sig .tc := ⟨.hbm, 334, rfl⟩
abbrev main_v266 : Ref sig .tc := ⟨.hbm, 335, rfl⟩
abbrev main_v267 : Ref sig .tc := ⟨.hbm, 336, rfl⟩
abbrev main_v268 : Ref sig .tc := ⟨.hbm, 337, rfl⟩
abbrev main_cst_49 : Ref sig .tc := ⟨.hbm, 338, rfl⟩
abbrev main_v269 : Ref sig .tc := ⟨.hbm, 339, rfl⟩
abbrev main_v270 : Ref sig .tc := ⟨.hbm, 340, rfl⟩
abbrev main_v271 : Ref sig .tc := ⟨.hbm, 341, rfl⟩
abbrev main_v272 : Ref sig .tc := ⟨.hbm, 342, rfl⟩
abbrev main_v273 : Ref sig .tc := ⟨.hbm, 343, rfl⟩
abbrev main_v274 : Ref sig .tc := ⟨.hbm, 344, rfl⟩
abbrev main_v275 : Ref sig .tc := ⟨.hbm, 345, rfl⟩
abbrev main_v276 : Ref sig .tc := ⟨.hbm, 346, rfl⟩
abbrev main_v277 : Ref sig .tc := ⟨.hbm, 347, rfl⟩
abbrev main_v278 : Ref sig .tc := ⟨.hbm, 348, rfl⟩
abbrev main_call3_cst : Ref sig .tc := ⟨.hbm, 349, rfl⟩
abbrev main_call3_v0 : Ref sig .tc := ⟨.hbm, 350, rfl⟩
abbrev main_v279 : Ref sig .tc := ⟨.hbm, 351, rfl⟩
abbrev main_cst_50 : Ref sig .tc := ⟨.hbm, 352, rfl⟩
abbrev main_v280 : Ref sig .tc := ⟨.hbm, 353, rfl⟩
abbrev main_v281 : Ref sig .tc := ⟨.hbm, 354, rfl⟩
abbrev main_v282 : Ref sig .tc := ⟨.hbm, 355, rfl⟩
abbrev main_cst_51 : Ref sig .tc := ⟨.hbm, 356, rfl⟩
abbrev main_v283 : Ref sig .tc := ⟨.hbm, 357, rfl⟩
abbrev main_cst_52 : Ref sig .tc := ⟨.hbm, 358, rfl⟩
abbrev main_v284 : Ref sig .tc := ⟨.hbm, 359, rfl⟩
abbrev main_v285 : Ref sig .tc := ⟨.hbm, 360, rfl⟩
abbrev main_v286 : Ref sig .tc := ⟨.hbm, 361, rfl⟩
abbrev main_cst_53 : Ref sig .tc := ⟨.hbm, 362, rfl⟩
abbrev main_v287 : Ref sig .tc := ⟨.hbm, 363, rfl⟩
abbrev main_v288 : Ref sig .tc := ⟨.hbm, 364, rfl⟩
abbrev main_v289 : Ref sig .tc := ⟨.hbm, 365, rfl⟩
abbrev main_v290 : Ref sig .tc := ⟨.hbm, 366, rfl⟩
abbrev main_v291 : Ref sig .tc := ⟨.hbm, 367, rfl⟩
abbrev main_v292 : Ref sig .tc := ⟨.hbm, 368, rfl⟩
abbrev main_v293 : Ref sig .tc := ⟨.hbm, 369, rfl⟩
abbrev main_v294 : Ref sig .tc := ⟨.hbm, 370, rfl⟩
abbrev main_v295 : Ref sig .tc := ⟨.hbm, 371, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  slices_S5x64x64_S1x64x64_0_0_0 : S5x64x64.Slices ![0, 0, 0] S1x64x64
  shapeCasts_S1x64x64_S64x64 : S1x64x64.ShapeCasts S64x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S5x64x64_S1x64x64_1_0_0 : S5x64x64.Slices ![1, 0, 0] S1x64x64
  slices_S5x64x64_S1x64x64_2_0_0 : S5x64x64.Slices ![2, 0, 0] S1x64x64
  slices_S5x64x64_S1x64x64_3_0_0 : S5x64x64.Slices ![3, 0, 0] S1x64x64
  slices_S5x64x64_S1x64x64_4_0_0 : S5x64x64.Slices ![4, 0, 0] S1x64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S5x64x128_S1x64x128_0_0_0 : S5x64x128.Slices ![0, 0, 0] S1x64x128
  shapeCasts_S1x64x128_S64x128 : S1x64x128.ShapeCasts S64x128
  slices_S5x64x128_S1x64x128_1_0_0 : S5x64x128.Slices ![1, 0, 0] S1x64x128
  slices_S5x64x128_S1x64x128_2_0_0 : S5x64x128.Slices ![2, 0, 0] S1x64x128
  slices_S5x64x128_S1x64x128_3_0_0 : S5x64x128.Slices ![3, 0, 0] S1x64x128
  slices_S5x64x128_S1x64x128_4_0_0 : S5x64x128.Slices ![4, 0, 0] S1x64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x2_S64x2_1_0_0_1_n_n_wf : DotDims.WF S64x128 S128x2 S64x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x2_S64x2_1_0_0_1_n_n : DotDims S64x128 S128x2 S64x2 where
  lhsContracting := [1]
  rhsContracting := [0]
  lhsNonContracting := [0]
  rhsNonContracting := [1]
  lhsBatch := []
  rhsBatch := []
  wf := dot_S64x128_S128x2_S64x2_1_0_0_1_n_n_wf

class Facts : Prop extends Facts₀ where

variable [Facts]
-- ==== Proof.K.Cheb0.lean ====
import proofs.«410163_j48198122996027_1_alg».proof.Proof.Gen.Kernel.Launch
import proofs.«410163_j48198122996027_1_alg».proof.Proof.Gen.Kernel.Skeleton
import proofs.«410163_j48198122996027_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

local notation "SOut" => S2000x64
local notation "SStack" => S5x64x64
local notation "SMat" => S1x64x64
local notation "SBias" => S1x64
local notation "inbOut" => inb_S2000x64_S2000x64_0_0
local notation "inbBias" => inb_S1x64_S1x64_0_0
local notation "inbMat0" => inb_S5x64x64_S1x64x64_0_0_0
local notation "inbMat1" => inb_S5x64x64_S1x64x64_1_0_0
local notation "inbMat2" => inb_S5x64x64_S1x64x64_2_0_0
local notation "inbMat3" => inb_S5x64x64_S1x64x64_3_0_0
local notation "inbMat4" => inb_S5x64x64_S1x64x64_4_0_0

/-- The block of window `w`'s array at point `t`, at the contents `V` the region starts from. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rT0 : Rect S2000x64 := Rect.unit (s := S2000x64) ![0, 0] S2000x64.size inb_S2000x64_S2000x64_0_0
abbrev rW0_0 : Rect SStack := Rect.unit (s := SStack) ![0, 0, 0] (Shape.size SMat) inbMat0
abbrev rW0_1 : Rect SStack := Rect.unit (s := SStack) ![1, 0, 0] (Shape.size SMat) inbMat1
abbrev rW0_2 : Rect SStack := Rect.unit (s := SStack) ![2, 0, 0] (Shape.size SMat) inbMat2
abbrev rW0_3 : Rect SStack := Rect.unit (s := SStack) ![3, 0, 0] (Shape.size SMat) inbMat3
abbrev rW0_4 : Rect SStack := Rect.unit (s := SStack) ![4, 0, 0] (Shape.size SMat) inbMat4
abbrev rB0 : Rect SBias := Rect.unit (s := SBias) ![0, 0] (Shape.size SBias) inbBias
abbrev rO0 : Rect SOut := Rect.unit (s := SOut) ![0, 0] (Shape.size SOut) inbOut

/-- The output tile as a function of the seven input blocks: max(0, Σₖ xₖ·W[k] + bias) over the whole tile. -/
def out0_7 (x0 x1 x2 x3 x4 : Vec F S2000x64 .f32) (x5 : Vec F SStack .f32) (x6 : Vec F SBias .f32) : Vec F SOut .f32 :=
  View.canon [⟨rO0, k0_pay1 (k0_pay2 (View.ld x0 rT0) (View.ld x5 rW0_0) (View.ld x1 rT0) (View.ld x5 rW0_1) (View.ld x2 rT0) (View.ld x5 rW0_2)
      (View.ld x3 rT0) (View.ld x5 rW0_3) (View.ld x4 rT0) (View.ld x5 rW0_4)) (View.ld x6 rB0)⟩]

/-- The body only reads its seven inputs, and its one store covers the output tile: it leaves `out0_7` of them there. -/
theorem sound_kernel0 (c : Dev nD) {E : Set ℕ} {i : grid0.Coords}
    {arg1 arg2 arg3 arg4 arg5 : Memref sig .tc .vmem S2000x64 .f32} {arg6 : Memref sig .tc .vmem SStack .f32}
    {arg7 : Memref sig .tc .vmem SBias .f32} {arg8 : Memref sig .tc .vmem SOut .f32}
    {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole}
    {x0 x1 x2 x3 x4 : Vec F S2000x64 .f32} {x5 : Vec F SStack .f32} {x6 : Vec F SBias .f32} {d : Vec F SOut .f32} {K : PUnit → sProp 𝕄} :
    iprop(owns c arg1 fullShare x0 ∗ owns c arg2 fullShare x1 ∗ owns c arg3 fullShare x2 ∗ owns c arg4 fullShare x3
        ∗ owns c arg5 fullShare x4 ∗ owns c arg6 fullShare x5 ∗ owns c arg7 fullShare x6 ∗ owns c arg8 fullShare d
        ∗ (iprop(owns c arg1 fullShare x0 ∗ owns c arg2 fullShare x1 ∗ owns c arg3 fullShare x2 ∗ owns c arg4 fullShare x3
            ∗ owns c arg5 fullShare x4 ∗ owns c arg6 fullShare x5 ∗ owns c arg7 fullShare x6
            ∗ owns c arg8 fullShare (out0_7 x0 x1 x2 x3 x4 x5 x6)) -∗ K ⟨⟩))
      ⊢ wp frame (wpE (defs₀ (F := F)) Variants.none c none) E
          (cc0__cheb_matmul_kernel i arg1 harg1 arg2 harg2 arg3 harg3 arg4 harg4 arg5 harg5 arg6 harg6 arg7 harg7 arg8 harg8) K := by
  rw [cc0__cheb_matmul_kernel_eq_skeleton, cc0__cheb_matmul_kernel_skel, k0_part1_eq_skeleton, k0_part1_skel]
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, -, H7⟩, Hk⟩
  subst h0 h1 h2 h3 h4 h5 h6
  sl_exec
  sl_step
  iapply Hk
  isplitl [H0]; swap; isplitl [H1]; swap; isplitl [H2]; swap; isplitl [H3]; swap; isplitl [H4]; swap; isplitl [H5]; swap; isplitl [H6]; swap
  · iexists _; isplitr; swap; · iexact H7
    ipureintro; exact View.read_writes_eq_canon _ _ _ (View.cover_of_tiled _ (Shape.size SOut) rfl)
  all_goals iexists _; iframe; ipureintro; rfl

/-- Each input block stays as found; the output block becomes `out0_7` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := rfl

theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by dsimp only [dat0]

/-- At every point the contents handed to the body are the input blocks (`h0`–`h6`), where its triple applies. -/
theorem body_obligation0 (c : Dev nD) : BodyObligation (dat0 (F := F) V c) (defs₀ (F := F)) Variants.none () Set.univ := fun t => by
  have hb w hw hc hk := (dat0 V c).before_in_eq_fetched w hw (fun _ => rfl) hc hk t
  have h0 : ∀ d, _ = iblk0 V c 0 t := hb 0 rfl (fun _ _ _ => rfl) fun _ => rfl
  have h1 : ∀ d, _ = iblk0 V c 1 t := hb 1 rfl (fun _ _ _ => rfl) fun _ => rfl
  have h2 : ∀ d, _ = iblk0 V c 2 t := hb 2 rfl (fun _ _ _ => rfl) fun _ => rfl
  have h3 : ∀ d, _ = iblk0 V c 3 t := hb 3 rfl (fun _ _ _ => rfl) fun _ => rfl
  have h4 : ∀ d, _ = iblk0 V c 4 t := hb 4 rfl (fun _ _ _ => rfl) fun _ => rfl
  have h5 : ∀ d, _ = iblk0 V c 5 t := hb 5 rfl (fun _ _ _ => rfl) fun _ => rfl
  have h6 : ∀ d, _ = iblk0 V c 6 t := hb 6 rfl (fun _ _ _ => rfl) fun _ => rfl
  simp only [bigSep_W0, h0, h1, h2, h3, h4, h5, h6]
  dsimp only [dat0]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel0 c
  iframe H0 H1 H2 H3 H4 H5 H6 H7
  iintro H
  iframe HΦ H
  iexact Ho

end Cert.Kernel.Hand

end
-- ==== Proof.K.Cheb1.lean ====
import proofs.«410163_j48198122996027_1_alg».proof.Proof.Gen.Kernel.Launch
import proofs.«410163_j48198122996027_1_alg».proof.Proof.Gen.Kernel.Skeleton
import proofs.«410163_j48198122996027_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

local notation "SOut" => S2000x64
local notation "SStack" => S5x64x64
local notation "SMat" => S1x64x64
local notation "SBias" => S1x64
local notation "inbOut" => inb_S2000x64_S2000x64_0_0
local notation "inbBias" => inb_S1x64_S1x64_0_0
local notation "inbMat0" => inb_S5x64x64_S1x64x64_0_0_0
local notation "inbMat1" => inb_S5x64x64_S1x64x64_1_0_0
local notation "inbMat2" => inb_S5x64x64_S1x64x64_2_0_0
local notation "inbMat3" => inb_S5x64x64_S1x64x64_3_0_0
local notation "inbMat4" => inb_S5x64x64_S1x64x64_4_0_0

/-- The block of window `w`'s array at point `t`, at the contents `V` the region starts from. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rT1 : Rect S2000x64 := Rect.unit (s := S2000x64) ![0, 0] S2000x64.size inb_S2000x64_S2000x64_0_0
abbrev rW1_0 : Rect SStack := Rect.unit (s := SStack) ![0, 0, 0] (Shape.size SMat) inbMat0
abbrev rW1_1 : Rect SStack := Rect.unit (s := SStack) ![1, 0, 0] (Shape.size SMat) inbMat1
abbrev rW1_2 : Rect SStack := Rect.unit (s := SStack) ![2, 0, 0] (Shape.size SMat) inbMat2
abbrev rW1_3 : Rect SStack := Rect.unit (s := SStack) ![3, 0, 0] (Shape.size SMat) inbMat3
abbrev rW1_4 : Rect SStack := Rect.unit (s := SStack) ![4, 0, 0] (Shape.size SMat) inbMat4
abbrev rB1 : Rect SBias := Rect.unit (s := SBias) ![0, 0] (Shape.size SBias) inbBias
abbrev rO1 : Rect SOut := Rect.unit (s := SOut) ![0, 0] (Shape.size SOut) inbOut

/-- The output tile as a function of the seven input blocks: max(0, Σₖ xₖ·W[k] + bias) over the whole tile. -/
def out1_7 (x0 x1 x2 x3 x4 : Vec F S2000x64 .f32) (x5 : Vec F SStack .f32) (x6 : Vec F SBias .f32) : Vec F SOut .f32 :=
  View.canon [⟨rO1, k1_pay1 (k1_pay2 (View.ld x0 rT1) (View.ld x5 rW1_0) (View.ld x1 rT1) (View.ld x5 rW1_1) (View.ld x2 rT1) (View.ld x5 rW1_2)
      (View.ld x3 rT1) (View.ld x5 rW1_3) (View.ld x4 rT1) (View.ld x5 rW1_4)) (View.ld x6 rB1)⟩]

/-- The body only reads its seven inputs, and its one store covers the output tile: it leaves `out1_7` of them there. -/
theorem sound_kernel1 (c : Dev nD) {E : Set ℕ} {i : grid1.Coords}
    {arg1 arg2 arg3 arg4 arg5 : Memref sig .tc .vmem S2000x64 .f32} {arg6 : Memref sig .tc .vmem SStack .f32}
    {arg7 : Memref sig .tc .vmem SBias .f32} {arg8 : Memref sig .tc .vmem SOut .f32}
    {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole}
    {x0 x1 x2 x3 x4 : Vec F S2000x64 .f32} {x5 : Vec F SStack .f32} {x6 : Vec F SBias .f32} {d : Vec F SOut .f32} {K : PUnit → sProp 𝕄} :
    iprop(owns c arg1 fullShare x0 ∗ owns c arg2 fullShare x1 ∗ owns c arg3 fullShare x2 ∗ owns c arg4 fullShare x3
        ∗ owns c arg5 fullShare x4 ∗ owns c arg6 fullShare x5 ∗ owns c arg7 fullShare x6 ∗ owns c arg8 fullShare d
        ∗ (iprop(owns c arg1 fullShare x0 ∗ owns c arg2 fullShare x1 ∗ owns c arg3 fullShare x2 ∗ owns c arg4 fullShare x3
            ∗ owns c arg5 fullShare x4 ∗ owns c arg6 fullShare x5 ∗ owns c arg7 fullShare x6
            ∗ owns c arg8 fullShare (out1_7 x0 x1 x2 x3 x4 x5 x6)) -∗ K ⟨⟩))
      ⊢ wp frame (wpE (defs₀ (F := F)) Variants.none c none) E
          (cc1__cheb_matmul_kernel i arg1 harg1 arg2 harg2 arg3 harg3 arg4 harg4 arg5 harg5 arg6 harg6 arg7 harg7 arg8 harg8) K := by
  rw [cc1__cheb_matmul_kernel_eq_skeleton, cc1__cheb_matmul_kernel_skel, k1_part1_eq_skeleton, k1_part1_skel]
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, -, H7⟩, Hk⟩
  subst h0 h1 h2 h3 h4 h5 h6
  sl_exec
  sl_step
  iapply Hk
  isplitl [H0]; swap; isplitl [H1]; swap; isplitl [H2]; swap; isplitl [H3]; swap; isplitl [H4]; swap; isplitl [H5]; swap; isplitl [H6]; swap
  · iexists _; isplitr; swap; · iexact H7
    ipureintro; exact View.read_writes_eq_canon _ _ _ (View.cover_of_tiled _ (Shape.size SOut) rfl)
  all_goals iexists _; iframe; ipureintro; rfl

/-- Each input block stays as found; the output block becomes `out1_7` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := rfl

theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by dsimp only [dat1]

/-- At every point the contents handed to the body are the input blocks (`h0`–`h6`), where its triple applies. -/
theorem body_obligation1 (c : Dev nD) : BodyObligation (dat1 (F := F) V c) (defs₀ (F := F)) Variants.none () Set.univ := fun t => by
  have hb w hw hc hk := (dat1 V c).before_in_eq_fetched w hw (fun _ => rfl) hc hk t
  have h0 : ∀ d, _ = iblk1 V c 0 t := hb 0 rfl (fun _ _ _ => rfl) fun _ => rfl
  have h1 : ∀ d, _ = iblk1 V c 1 t := hb 1 rfl (fun _ _ _ => rfl) fun _ => rfl
  have h2 : ∀ d, _ = iblk1 V c 2 t := hb 2 rfl (fun _ _ _ => rfl) fun _ => rfl
  have h3 : ∀ d, _ = iblk1 V c 3 t := hb 3 rfl (fun _ _ _ => rfl) fun _ => rfl
  have h4 : ∀ d, _ = iblk1 V c 4 t := hb 4 rfl (fun _ _ _ => rfl) fun _ => rfl
  have h5 : ∀ d, _ = iblk1 V c 5 t := hb 5 rfl (fun _ _ _ => rfl) fun _ => rfl
  have h6 : ∀ d, _ = iblk1 V c 6 t := hb 6 rfl (fun _ _ _ => rfl) fun _ => rfl
  simp only [bigSep_W1, h0, h1, h2, h3, h4, h5, h6]
  dsimp only [dat1]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel1 c
  iframe H0 H1 H2 H3 H4 H5 H6 H7
  iintro H
  iframe HΦ H
  iexact Ho

end Cert.Kernel.Hand

end
-- ==== Proof.K.Cheb2.lean ====
import proofs.«410163_j48198122996027_1_alg».proof.Proof.Gen.Kernel.Launch
import proofs.«410163_j48198122996027_1_alg».proof.Proof.Gen.Kernel.Skeleton
import proofs.«410163_j48198122996027_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

local notation "SOut" => S2000x128
local notation "SStack" => S5x64x128
local notation "SMat" => S1x64x128
local notation "SBias" => S1x128
local notation "inbOut" => inb_S2000x128_S2000x128_0_0
local notation "inbBias" => inb_S1x128_S1x128_0_0
local notation "inbMat0" => inb_S5x64x128_S1x64x128_0_0_0
local notation "inbMat1" => inb_S5x64x128_S1x64x128_1_0_0
local notation "inbMat2" => inb_S5x64x128_S1x64x128_2_0_0
local notation "inbMat3" => inb_S5x64x128_S1x64x128_3_0_0
local notation "inbMat4" => inb_S5x64x128_S1x64x128_4_0_0

/-- The block of window `w`'s array at point `t`, at the contents `V` the region starts from. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rT2 : Rect S2000x64 := Rect.unit (s := S2000x64) ![0, 0] S2000x64.size inb_S2000x64_S2000x64_0_0
abbrev rW2_0 : Rect SStack := Rect.unit (s := SStack) ![0, 0, 0] (Shape.size SMat) inbMat0
abbrev rW2_1 : Rect SStack := Rect.unit (s := SStack) ![1, 0, 0] (Shape.size SMat) inbMat1
abbrev rW2_2 : Rect SStack := Rect.unit (s := SStack) ![2, 0, 0] (Shape.size SMat) inbMat2
abbrev rW2_3 : Rect SStack := Rect.unit (s := SStack) ![3, 0, 0] (Shape.size SMat) inbMat3
abbrev rW2_4 : Rect SStack := Rect.unit (s := SStack) ![4, 0, 0] (Shape.size SMat) inbMat4
abbrev rB2 : Rect SBias := Rect.unit (s := SBias) ![0, 0] (Shape.size SBias) inbBias
abbrev rO2 : Rect SOut := Rect.unit (s := SOut) ![0, 0] (Shape.size SOut) inbOut

/-- The output tile as a function of the seven input blocks: max(0, Σₖ xₖ·W[k] + bias) over the whole tile. -/
def out2_7 (x0 x1 x2 x3 x4 : Vec F S2000x64 .f32) (x5 : Vec F SStack .f32) (x6 : Vec F SBias .f32) : Vec F SOut .f32 :=
  View.canon [⟨rO2, k2_pay1 (k2_pay2 (View.ld x0 rT2) (View.ld x5 rW2_0) (View.ld x1 rT2) (View.ld x5 rW2_1) (View.ld x2 rT2) (View.ld x5 rW2_2)
      (View.ld x3 rT2) (View.ld x5 rW2_3) (View.ld x4 rT2) (View.ld x5 rW2_4)) (View.ld x6 rB2)⟩]

/-- The body only reads its seven inputs, and its one store covers the output tile: it leaves `out2_7` of them there. -/
theorem sound_kernel2 (c : Dev nD) {E : Set ℕ} {i : grid2.Coords}
    {arg1 arg2 arg3 arg4 arg5 : Memref sig .tc .vmem S2000x64 .f32} {arg6 : Memref sig .tc .vmem SStack .f32}
    {arg7 : Memref sig .tc .vmem SBias .f32} {arg8 : Memref sig .tc .vmem SOut .f32}
    {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole}
    {x0 x1 x2 x3 x4 : Vec F S2000x64 .f32} {x5 : Vec F SStack .f32} {x6 : Vec F SBias .f32} {d : Vec F SOut .f32} {K : PUnit → sProp 𝕄} :
    iprop(owns c arg1 fullShare x0 ∗ owns c arg2 fullShare x1 ∗ owns c arg3 fullShare x2 ∗ owns c arg4 fullShare x3
        ∗ owns c arg5 fullShare x4 ∗ owns c arg6 fullShare x5 ∗ owns c arg7 fullShare x6 ∗ owns c arg8 fullShare d
        ∗ (iprop(owns c arg1 fullShare x0 ∗ owns c arg2 fullShare x1 ∗ owns c arg3 fullShare x2 ∗ owns c arg4 fullShare x3
            ∗ owns c arg5 fullShare x4 ∗ owns c arg6 fullShare x5 ∗ owns c arg7 fullShare x6
            ∗ owns c arg8 fullShare (out2_7 x0 x1 x2 x3 x4 x5 x6)) -∗ K ⟨⟩))
      ⊢ wp frame (wpE (defs₀ (F := F)) Variants.none c none) E
          (cc2__cheb_matmul_kernel i arg1 harg1 arg2 harg2 arg3 harg3 arg4 harg4 arg5 harg5 arg6 harg6 arg7 harg7 arg8 harg8) K := by
  rw [cc2__cheb_matmul_kernel_eq_skeleton, cc2__cheb_matmul_kernel_skel, k2_part1_eq_skeleton, k2_part1_skel]
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, -, H7⟩, Hk⟩
  subst h0 h1 h2 h3 h4 h5 h6
  sl_exec
  sl_step
  iapply Hk
  isplitl [H0]; swap; isplitl [H1]; swap; isplitl [H2]; swap; isplitl [H3]; swap; isplitl [H4]; swap; isplitl [H5]; swap; isplitl [H6]; swap
  · iexists _; isplitr; swap; · iexact H7
    ipureintro; exact View.read_writes_eq_canon _ _ _ (View.cover_of_tiled _ (Shape.size SOut) rfl)
  all_goals iexists _; iframe; ipureintro; rfl

/-- Each input block stays as found; the output block becomes `out2_7` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := rfl

theorem after2_7 (c : Dev nD) (t : Fin cfg2.N) : (dat2 V c).after 7 t
    = out2_7 (iblk2 V c 0 t) (iblk2 V c 1 t) (iblk2 V c 2 t) (iblk2 V c 3 t) (iblk2 V c 4 t) (iblk2 V c 5 t) (iblk2 V c 6 t) := by dsimp only [dat2]

/-- At every point the contents handed to the body are the input blocks (`h0`–`h6`), where its triple applies. -/
theorem body_obligation2 (c : Dev nD) : BodyObligation (dat2 (F := F) V c) (defs₀ (F := F)) Variants.none () Set.univ := fun t => by
  have hb w hw hc hk := (dat2 V c).before_in_eq_fetched w hw (fun _ => rfl) hc hk t
  have h0 : ∀ d, _ = iblk2 V c 0 t := hb 0 rfl (fun _ _ _ => rfl) fun _ => rfl
  have h1 : ∀ d, _ = iblk2 V c 1 t := hb 1 rfl (fun _ _ _ => rfl) fun _ => rfl
  have h2 : ∀ d, _ = iblk2 V c 2 t := hb 2 rfl (fun _ _ _ => rfl) fun _ => rfl
  have h3 : ∀ d, _ = iblk2 V c 3 t := hb 3 rfl (fun _ _ _ => rfl) fun _ => rfl
  have h4 : ∀ d, _ = iblk2 V c 4 t := hb 4 rfl (fun _ _ _ => rfl) fun _ => rfl
  have h5 : ∀ d, _ = iblk2 V c 5 t := hb 5 rfl (fun _ _ _ => rfl) fun _ => rfl
  have h6 : ∀ d, _ = iblk2 V c 6 t := hb 6 rfl (fun _ _ _ => rfl) fun _ => rfl
  simp only [bigSep_W2, h0, h1, h2, h3, h4, h5, h6]
  dsimp only [dat2]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel2 c
  iframe H0 H1 H2 H3 H4 H5 H6 H7
  iintro H
  iframe HΦ H
  iexact Ho

end Cert.Kernel.Hand

end
-- ==== Proof.K.Pool.lean ====
import proofs.«410163_j48198122996027_1_alg».proof.Proof.Gen.Kernel.Launch
import proofs.«410163_j48198122996027_1_alg».proof.Proof.Gen.Kernel.Skeleton
import proofs.«410163_j48198122996027_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def acc3 (c : Dev nD) : (n : ℕ) → n < cfg3.N → Vec F S64x128 .f32
  | 0, h => k3_pay2 (k3_pay1 (F := F)) (iblk3 V c 0 ⟨0, h⟩) (iblk3 V c 1 ⟨0, h⟩)
  | n + 1, h => k3_pay2 (acc3 c n (Nat.lt_of_succ_lt h)) (iblk3 V c 0 ⟨n + 1, h⟩) (iblk3 V c 1 ⟨n + 1, h⟩)

abbrev scM3 : Memref sig .tc .vmem S64x128 .f32 := Memref.whole cc3_scratch0

def Phi3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k3_pay4 (acc3 V c t.val t.isLt) (iblk3 V c 4 t) (iblk3 V c 2 t) (iblk3 V c 3 t)
    | ⟨6, _⟩ => k3_pay3 (acc3 V c t.val t.isLt) (iblk3 V c 4 t)
  Φ t := Phi3 V c t.val (Nat.le_of_lt_succ t.isLt)
  q _ := fullShare
  owed _ := 0

theorem A_eq3 (c : Dev nD) (w : Fin cfg3.W) : (dat3 V c).A w = V c (Pipeline.arrRef spec3 w) := rfl

theorem zeros2 : (![0, 0] : Fin 2 → ℕ) = fun _ => 0 := by
  funext a; fin_cases a <;> rfl

theorem readAt_unit_zero {κ : Kind} {sp : Space} {S : Shape} {e : EltTy} (v : View sig κ sp S e) {off : Fin S.rank → ℕ} (h : off = fun _ => 0)
    (inb : ∀ a, off a + S.size a ≤ S.size a) (f : v.ty.Contents (Elt F)) :
    View.readAt (Elt F) v (Rect.unit off S.size inb).toLoadRect f = View.read (Elt F) v f :=
  (View.readAt_eq_ld v f _).trans (View.ld_unit_zero h inb _)

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 := by decide +kernel
abbrev cond3_1 (i : grid3.Coords) : Prop := k3_cond2 i = 1#1
theorem hcond3_1 : ∀ t : Fin cfg3.N, cond3_1 (grid3.coords t) ↔ t.val = 24 := by decide +kernel

/-- A store through the whole-shape rectangle, last, leaves the view reading its payload. -/
theorem read_stored {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) (L) :
    v.read (Elt F) (v.writes (Elt F) f (⟨Rect.unit off S.size inb, w⟩ :: L)) = w :=
  (View.read_writes_eq_canon _ _ _ fun y => ⟨_, List.mem_cons_self, View.mem_set_unit_zero h inb y⟩).trans
    (View.canon_cons_unit_zero h inb w L)

/-- Held contents are owned at whatever the memref reads of them. -/
theorem owns_of_read (c : Dev nD) {sp : Space} {S : Shape} {e : EltTy} (m : Memref sig .tc sp S e) (f : m.view.ty.Contents (Elt F))
    (X : S.Idx → Elt F e) (h : m.view.read (Elt F) f = X) :
    (m.view.loc (c : Thread nD τ) ↦[m.view.set]{fullShare} f : sProp 𝕄)
      ⊢ iprop(∃ g, ⌜m.view.read (Elt F) g = X⌝ ∗ (m.view.loc (c : Thread nD τ) ↦[m.view.set]{fullShare} g)) := by
  iintro H; iexists f; isplitr; · ipureintro; exact h
  iexact H

section
variable (c : Dev nD) {E : Set ℕ} {i : grid3.Coords}
  {arg1 : Memref sig .tc .vmem S2000x64 .f32} {harg1 : arg1.IsWhole} {arg2 : Memref sig .tc .vmem S2000x128 .f32} {harg2 : arg2.IsWhole}
  {arg3 : Memref sig .tc .vmem S128x2 .f32} {harg3 : arg3.IsWhole} {arg4 : Memref sig .tc .vmem S1x2 .f32} {harg4 : arg4.IsWhole}
  {arg5 : Memref sig .tc .vmem S64x1 .f32} {harg5 : arg5.IsWhole} {arg6 : Memref sig .tc .vmem S64x2 .f32} {harg6 : arg6.IsWhole}
  {arg7 : Memref sig .tc .vmem S64x128 .f32} {harg7 : arg7.IsWhole} {arg8 : Memref sig .tc .vmem S64x128 .f32} {harg8 : arg8.IsWhole}
  (x0 : Vec F S2000x64 .f32) (x1 : Vec F S2000x128 .f32) (s : Vec F S64x128 .f32)

theorem sound_kernel3_first (h0 : cond3_0 i) (h1 : ¬cond3_1 i) (K : PUnit → sProp 𝕄) :
    iprop(owns (c : Thread nD τ) arg1 fullShare x0 ∗ owns (c : Thread nD τ) arg2 fullShare x1 ∗ owns (c : Thread nD τ) arg8 fullShare s
        ∗ (iprop(owns (c : Thread nD τ) arg1 fullShare x0 ∗ owns (c : Thread nD τ) arg2 fullShare x1
            ∗ owns (c : Thread nD τ) arg8 fullShare (k3_pay2 (k3_pay1 (F := F)) x0 x1)) -∗ K ⟨⟩))
      ⊢ wp frame (wpE (defs₀ (F := F)) Variants.none c none) E (cc3__pool_linear_kernel i arg1 harg1 arg2 harg2 arg3 harg3 arg4 harg4 arg5 harg5 arg6 harg6 arg7 harg7 arg8 harg8) K := by
  simp only [cc3__pool_linear_kernel_eq_skeleton]; unfold cc3__pool_linear_kernel_skel owns
  iintro ⟨⟨%f0, %hf0, H0⟩, ⟨%f1, %hf1, H1⟩, ⟨%f8, -, H8⟩, Hk⟩
  subst hf0 hf1
  sl_exec
  sl_step
  unfold sound_kernel3_first.sl.v3 sound_kernel3_first.sl.H8_1
  rw [View.readCov_unit_zero _ zeros2, readAt_unit_zero (S := S2000x64) _ zeros2, readAt_unit_zero (S := S2000x128) _ zeros2]
  ihave H0 := (owns_of_read c arg1 f0 _ rfl) $$ H0
  ihave H1 := (owns_of_read c arg2 f1 _ rfl) $$ H1
  ihave H8 := (owns_of_read c arg8 _ _ (read_stored _ _ zeros2 _ _ _)) $$ H8
  iapply Hk
  iframe

theorem sound_kernel3_mid (h0 : ¬cond3_0 i) (h1 : ¬cond3_1 i) (K : PUnit → sProp 𝕄) :
    iprop(owns (c : Thread nD τ) arg1 fullShare x0 ∗ owns (c : Thread nD τ) arg2 fullShare x1 ∗ owns (c : Thread nD τ) arg8 fullShare s
        ∗ (iprop(owns (c : Thread nD τ) arg1 fullShare x0 ∗ owns (c : Thread nD τ) arg2 fullShare x1
            ∗ owns (c : Thread nD τ) arg8 fullShare (k3_pay2 s x0 x1)) -∗ K ⟨⟩))
      ⊢ wp frame (wpE (defs₀ (F := F)) Variants.none c none) E (cc3__pool_linear_kernel i arg1 harg1 arg2 harg2 arg3 harg3 arg4 harg4 arg5 harg5 arg6 harg6 arg7 harg7 arg8 harg8) K := by
  simp only [cc3__pool_linear_kernel_eq_skeleton]; unfold cc3__pool_linear_kernel_skel owns
  iintro ⟨⟨%f0, %hf0, H0⟩, ⟨%f1, %hf1, H1⟩, ⟨%f8, %hf8, H8⟩, Hk⟩
  subst hf0 hf1 hf8
  sl_exec
  sl_step
  rw [readAt_unit_zero (S := S64x128) _ zeros2, readAt_unit_zero (S := S2000x64) _ zeros2, readAt_unit_zero (S := S2000x128) _ zeros2]
  ihave H0 := (owns_of_read c arg1 f0 _ rfl) $$ H0
  ihave H1 := (owns_of_read c arg2 f1 _ rfl) $$ H1
  ihave H8 := (owns_of_read c arg8 _ _ (read_stored _ _ zeros2 _ _ _)) $$ H8
  iapply Hk
  iframe

theorem sound_kernel3_last (h0 : ¬cond3_0 i) (h1 : cond3_1 i) (x2 : Vec F S128x2 .f32) (x3 : Vec F S1x2 .f32) (x4 : Vec F S64x1 .f32)
    (d6 : Vec F S64x2 .f32) (d7 : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare d6 ∗ owns (c : Thread nD τ) arg7 fullShare d7 ∗ owns (c : Thread nD τ) arg8 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k3_pay4 (k3_pay2 s x0 x1) x4 x2 x3)
            ∗ owns (c : Thread nD τ) arg7 fullShare (k3_pay3 (k3_pay2 s x0 x1) x4)
            ∗ owns (c : Thread nD τ) arg8 fullShare (k3_pay2 s x0 x1)) -∗ K ⟨⟩))
      ⊢ wp frame (wpE (defs₀ (F := F)) Variants.none c none) E (cc3__pool_linear_kernel i arg1 harg1 arg2 harg2 arg3 harg3 arg4 harg4 arg5 harg5 arg6 harg6 arg7 harg7 arg8 harg8) K := by
  simp only [cc3__pool_linear_kernel_eq_skeleton]; unfold cc3__pool_linear_kernel_skel owns
  iintro ⟨⟨%f0, %hf0, H0⟩, ⟨%f1, %hf1, H1⟩, ⟨%f2, %hf2, H2⟩, ⟨%f3, %hf3, H3⟩, ⟨%f4, %hf4, H4⟩, ⟨%f6, -, H6⟩, ⟨%f7, -, H7⟩, ⟨%f8, %hf8, H8⟩, Hk⟩
  subst hf0 hf1 hf2 hf3 hf4 hf8
  sl_exec
  sl_step
  unfold sound_kernel3_last.sl.v16 sound_kernel3_last.sl.H8_1
  rw [View.readCov_unit_zero _ zeros2, readAt_unit_zero (S := S64x128) _ zeros2, readAt_unit_zero (S := S2000x64) _ zeros2, readAt_unit_zero (S := S2000x128) _ zeros2,
    readAt_unit_zero (S := S64x1) _ zeros2, readAt_unit_zero (S := S128x2) _ zeros2, readAt_unit_zero (S := S1x2) _ zeros2]
  ihave H0 := (owns_of_read c arg1 f0 _ rfl) $$ H0
  ihave H1 := (owns_of_read c arg2 f1 _ rfl) $$ H1
  ihave H2 := (owns_of_read c arg3 f2 _ rfl) $$ H2
  ihave H3 := (owns_of_read c arg4 f3 _ rfl) $$ H3
  ihave H4 := (owns_of_read c arg5 f4 _ rfl) $$ H4
  ihave H6 := (owns_of_read c arg6 _ _ (read_stored _ _ zeros2 _ _ _)) $$ H6
  ihave H7 := (owns_of_read c arg7 _ _ (read_stored _ _ zeros2 _ _ _)) $$ H7
  ihave H8 := (owns_of_read c arg8 _ _ (read_stored _ _ zeros2 _ _ _)) $$ H8
  iapply Hk
  iframe

end

theorem after3_0 (c : Dev nD) (t : Fin cfg3.N) : (dat3 V c).after 0 t = iblk3 V c 0 t := rfl
theorem after3_1 (c : Dev nD) (t : Fin cfg3.N) : (dat3 V c).after 1 t = iblk3 V c 1 t := rfl
theorem after3_2 (c : Dev nD) (t : Fin cfg3.N) : (dat3 V c).after 2 t = iblk3 V c 2 t := rfl
theorem after3_3 (c : Dev nD) (t : Fin cfg3.N) : (dat3 V c).after 3 t = iblk3 V c 3 t := rfl
theorem after3_4 (c : Dev nD) (t : Fin cfg3.N) : (dat3 V c).after 4 t = iblk3 V c 4 t := rfl
theorem after3_5 (c : Dev nD) (t : Fin cfg3.N) : (dat3 V c).after 5 t
    = k3_pay4 (acc3 V c t.val t.isLt) (iblk3 V c 4 t) (iblk3 V c 2 t) (iblk3 V c 3 t) := rfl
theorem after3_6 (c : Dev nD) (t : Fin cfg3.N) : (dat3 V c).after 6 t
    = k3_pay3 (acc3 V c t.val t.isLt) (iblk3 V c 4 t) := rfl

/-- The body leaves its inputs in place. -/
theorem before3_in (c : Dev nD) (w : Fin cfg3.W) (hw : w.val < 5) (t : Fin cfg3.N) (d) :
    (dat3 V c).before w t d = (dat3 V c).after w t := by
  fin_cases w
  iterate 5 exact (dat3 V c).before_in_eq_fetched _ rfl (fun _ => rfl) (fun _ _ _ => rfl) (fun _ => rfl) t d
  all_goals exact absurd hw (by decide)

theorem leaves3_live (c : Dev nD) (w : Fin cfg3.W) (t : Fin cfg3.N) (h : cfg3.idle w (grid3.coords t) = false) :
    (dat3 V c).leavesExact w t = owns (c : Thread nD τ) ((cfg3.win w).stage (cfg3.slots t w)) fullShare ((dat3 V c).after w t) := by
  unfold Dat.leavesExact; rw [h]

theorem idle3 : ∀ (t : Fin cfg3.N) (w : Fin cfg3.W), 5 ≤ w.val → ¬t.val = 24 →
    cfg3.idle w (grid3.coords t) = true ∧ (cfg3.win w).flush t = false := by decide +kernel
theorem live3 : ∀ (t : Fin cfg3.N) (w : Fin cfg3.W), 5 ≤ w.val → t.val = 24 → cfg3.idle w (grid3.coords t) = false := by decide +kernel

theorem leaves3_idle (c : Dev nD) (w : Fin cfg3.W) (hw : 5 ≤ w.val) (t : Fin cfg3.N) (h : ¬t.val = 24) :
    (dat3 V c).leavesExact w t = iprop(∃ d, owns (c : Thread nD τ) ((cfg3.win w).stage (cfg3.slots t w)) fullShare ((dat3 V c).before w t d)) :=
  (dat3 V c).leavesExact_idle w t (idle3 t w hw h).1 (idle3 t w hw h).2

theorem acc3_first (c : Dev nD) (t : Fin cfg3.N) (hz : t.val = 0) :
    acc3 V c t.val t.isLt = k3_pay2 (k3_pay1 (F := F)) (iblk3 V c 0 t) (iblk3 V c 1 t) :=
  match t, hz with
  | ⟨0, _⟩, _ => rfl
  | ⟨n + 1, _⟩, h => absurd h n.succ_ne_zero

theorem acc3_later (c : Dev nD) (t : Fin cfg3.N) (hz : t.val ≠ 0) :
    acc3 V c t.val t.isLt = k3_pay2 (acc3 V c (t.val - 1) (Nat.lt_of_le_of_lt (Nat.sub_le _ _) t.isLt)) (iblk3 V c 0 t) (iblk3 V c 1 t) :=
  match t, hz with
  | ⟨0, _⟩, h => absurd rfl h
  | ⟨_ + 1, _⟩, _ => rfl

theorem Phi3_zero (c : Dev nD) (n : ℕ) (h : n ≤ cfg3.N) (hz : n = 0) : Phi3 V c n h = Pipeline.ΦA spec3 c := by
  subst hz; rfl

theorem Phi3_pos (c : Dev nD) (n : ℕ) (h : n ≤ cfg3.N) (hz : n ≠ 0) : Phi3 V c n h = Phi3 V c (n - 1 + 1) (by omega) := by
  cases n with
  | zero => exact absurd rfl hz
  | succ n => rfl

theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

theorem lt24 : 24 < cfg3.N := by decide

theorem hin3 (c : Dev nD) : Pipeline.ΦA spec3 c ⊢ (dat3 V c).Φ 0 := Idealize.SL.BI.Entails.refl _

theorem hout3 (c : Dev nD) : (dat3 V c).Φ (Fin.last cfg3.N) ⊢ Pipeline.ΦA spec3 c := by
  rw [show (dat3 V c).Φ (Fin.last cfg3.N) = Phi3 V c (24 + 1) lt24 from rfl, Phi3.eq_2, PhiA3_eq]
  iintro ⟨⟨HS, HR⟩, Hg⟩
  iframe HR Hg
  iexists _; iexact HS

/-- The running sum gains one block product a point, from zero at the first; the two results are functions of the
    finished sum, produced at the last point only. -/
theorem body_obligation3 (c : Dev nD) : BodyObligation (dat3 (F := F) V c) (defs₀ (F := F)) Variants.none () Set.univ := fun t => by
  change iprop(_ ∗ _ ∗ bigSep Finset.univ fun w => iprop(∃ d, owns (c : Thread nD τ) ((cfg3.win w).stage (cfg3.slots t w)) fullShare ((dat3 V c).before w t d)))
    ⊢ wp frame _ Set.univ (bodyAt3 t) fun _ => iprop(_ ∗ _ ∗ bigSep Finset.univ fun w => (dat3 V c).leavesExact w t)
  rw [bigSep_W3, bigSep_W3]
  simp (disch := first | decide | rfl) only [before3_in, leaves3_live, after3_0, after3_1, after3_2, after3_3, after3_4]
  rw [show (dat3 V c).owesAt () t.succ = (dat3 V c).owesAt () t.castSucc from rfl,
    show (dat3 V c).Φ t.succ = Phi3 V c (t.val + 1) t.isLt from rfl, Phi3.eq_2,
    show (dat3 V c).Φ t.castSucc = Phi3 V c t.val (Nat.le_of_lt t.isLt) from rfl]
  unfold bodyAt3
  by_cases h0 : t.val = 0
  · have h1 : ¬t.val = 24 := by omega
    rw [leaves3_idle V c 5 (by decide) t h1, leaves3_idle V c 6 (by decide) t h1, acc3_first V c t h0, Phi3_zero V c _ _ h0, PhiA3_eq]
    iintro ⟨⟨⟨⟨%s, HS⟩, HR⟩, Hg⟩, Ho, ⟨%d0, H0⟩, ⟨%d1, H1⟩, ⟨%d2, H2⟩, ⟨%d3, H3⟩, ⟨%d4, H4⟩, H5, H6⟩
    iapply (sound_kernel3_first c (iblk3 V c 0 t) (iblk3 V c 1 t) s
      ((hcond3_0 t).mpr h0) (fun h => h1 ((hcond3_1 t).mp h)) _)
    iframe H0 H1 HS
    iintro ⟨H0, H1, HS⟩
    iframe
  · have c0 : ¬cond3_0 (grid3.coords t) := fun h => h0 ((hcond3_0 t).mp h)
    rw [Phi3_pos V c _ _ h0, Phi3.eq_2]
    by_cases h1 : t.val = 24
    · rw [leaves3_live V c 5 t (live3 t 5 (by decide) h1), leaves3_live V c 6 t (live3 t 6 (by decide) h1), after3_5, after3_6,
        acc3_later V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_last c (iblk3 V c 0 t) (iblk3 V c 1 t) _
        c0 ((hcond3_1 t).mpr h1) (iblk3 V c 2 t) (iblk3 V c 3 t) (iblk3 V c 4 t) _ _ _)
      iframe H0 H1 H2 H3 H4 H5 H6 HS
      iintro ⟨H0, H1, H2, H3, H4, H5, H6, HS⟩
      iframe
    · rw [leaves3_idle V c 5 (by decide) t h1, leaves3_idle V c 6 (by decide) t h1, acc3_later V c t h0]
      iintro ⟨⟨⟨HS, HR⟩, Hg⟩, Ho, ⟨%d0, H0⟩, ⟨%d1, H1⟩, ⟨%d2, H2⟩, ⟨%d3, H3⟩, ⟨%d4, H4⟩, H5, H6⟩
      iapply (sound_kernel3_mid c (iblk3 V c 0 t) (iblk3 V c 1 t) _
        c0 (fun h => h1 ((hcond3_1 t).mp h)) _)
      iframe H0 H1 HS
      iintro ⟨H0, H1, HS⟩
      iframe

end Cert.Kernel.Hand

end
-- ==== Proof.K.Fold.lean ====
import proofs.«410163_j48198122996027_1_alg».proof.Proof.Gen.Kernel.Launch
import proofs.«410163_j48198122996027_1_alg».proof.Proof.Gen.Kernel.Skeleton
import proofs.«410163_j48198122996027_1_alg».proof.Proof.Gen.Kernel.Points
import proofs.«410163_j48198122996027_1_alg».proof.Proof.K.Cheb0
import proofs.«410163_j48198122996027_1_alg».proof.Proof.K.Cheb1
import proofs.«410163_j48198122996027_1_alg».proof.Proof.K.Cheb2
import proofs.«410163_j48198122996027_1_alg».proof.Proof.K.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.SL.Sem
open Cert.Kernel Cert.Kernel.Gen

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N :=
  Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) :=
  Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N :=
  Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) :=
  Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N :=
  Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) :=
  Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N :=
  Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) :=
  Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

end Cert.Kernel.Hand

end
-- ==== Proof.K.Segs.lean ====
import proofs.«410163_j48198122996027_1_alg».proof.Proof.K.Fold

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev T (W : Dev nD → Valuation τ sig (Elt F)) (c : Dev nD) : sProp 𝕄 :=
  iprop(StableHlo.held (c : Thread nD τ) (Pipeline.ucRefs τ sig) (W c) ∗ R c)
-- Host operations that allocate nothing, run from the contents `W`.
abbrev hseg (ops : List (HloOp τ sig (Elt F))) (hsub : ops.Forall fun op => op.bufs ⊆ StableHlo.tcRefs τ sig)
    (W : Dev nD → Valuation τ sig (Elt F))
    (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
-- The four regions differ only in their index and in the contents before and after: the rest is proved once.
def reg (p : Fin 4) (lf : Pipeline.LaunchFacts (nD := nD) (τ := τ) cfgs p) (W W' : Dev nD → Valuation τ sig (Elt F))
    (hbody : ∀ c, BodyObligation (pdats m ρ p c) defs₀ 𝒱₀ () Set.univ)
    (howed : ∀ c t, (pdats m ρ p c).owed t = 0) (hq : ∀ c w, (pdats m ρ p c).q w = fullShare)
    (hrec : ∀ c x, x ∈ (pdats m ρ p c).recorded 0)
    (hA : ∀ c w, (pdats m ρ p c).A w = W c (Pipeline.arrRef (cfgs p).spec w))
    (hin : ∀ c, (Pipeline.ΦA (cfgs p).spec c : sProp 𝕄) ⊢ (pdats m ρ p c).Φ 0)
    (hout : ∀ c, (pdats m ρ p c).Φ (Fin.last _) ⊢ (Pipeline.ΦA (cfgs p).spec c : sProp 𝕄))
    (hF : ∀ c w, (pdats m ρ p c).arrAt w (cfgs p).N = W' c (Pipeline.arrRef (cfgs p).spec w))
    (hrest : ∀ c b, b ∉ Finset.univ.image (Pipeline.arrRef (cfgs p).spec) → W' c (Proc.devRef .tc b) = W c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre := T W
  post := T W'
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    unfold Pipeline.Dat.owesAt Pipeline.owesWithin
    rw [Pipeline.ownSems0_none, howed c]
    have hsplit := Pipeline.arrays_of_unscopedBufs (p := p) (pcfgs (F := F)) adm (pdats m ρ) lf.win lf.arr_whole c ((pdats m ρ p c).share_full (hq c))
      (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%O, HO⟩; iexists O; isplitr; · ipureintro; exact fun x _ => Or.inl (hrec c x)
      iexact HO
    isplitl [Hp]; · iexact Hp
    iexact Hrest
  hin c := Entails.trans (by
    unfold Pipeline.ΦA
    iintro ⟨Hp, -, Hr⟩
    isplitl [Hr]; · iexact Hr
    iexact Hp) (hin c)
  hout c := (hout c).trans (by
    rw [Pipeline.ownSems0_none]; unfold Pipeline.ΦA
    iintro ⟨Hr, Hp⟩
    isplitl [Hp]; · iexact Hp
    isplitr; · iempintro
    iexact Hr)
  hexit c := by
    unfold Pipeline.Dat.owesAt Pipeline.owesWithin
    rw [howed c]
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => W c b) (fun b => W' c b) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%O, -, HO⟩; iexists O; iexact HO

def reg0 := reg m ρ 0 launch0 (W3 m ρ) (W4 m ρ) (body_obligation0 (V3 m ρ)) (fun _ _ => rfl) (fun _ _ => rfl) (fun _ _ => trivial)
  (A_eq0 (V3 m ρ)) (fun _ => .rfl) (fun _ => .rfl) (hF0 m ρ) (hrest0 m ρ)
def reg1 := reg m ρ 1 launch1 (W5 m ρ) (W6 m ρ) (body_obligation1 (V5 m ρ)) (fun _ _ => rfl) (fun _ _ => rfl) (fun _ _ => trivial)
  (A_eq1 (V5 m ρ)) (fun _ => .rfl) (fun _ => .rfl) (hF1 m ρ) (hrest1 m ρ)
def reg2 := reg m ρ 2 launch2 (W7 m ρ) (W8 m ρ) (body_obligation2 (V7 m ρ)) (fun _ _ => rfl) (fun _ _ => rfl) (fun _ _ => trivial)
  (A_eq2 (V7 m ρ)) (fun _ => .rfl) (fun _ => .rfl) (hF2 m ρ) (hrest2 m ρ)
def reg3 := reg m ρ 3 launch3 (W9 m ρ) (W10 m ρ) (body_obligation3 (V9 m ρ)) (fun _ _ => rfl) (fun _ _ => rfl) (fun _ _ => trivial)
  (A_eq3 (V9 m ρ)) (hin3 (V9 m ρ)) (hout3 (V9 m ρ)) (hF3 m ρ) (hrest3 m ρ)

abbrev segs : List (Pipeline.Seg (pcfgs (F := F)) adm (pdats m ρ) () defs₀ 𝒱₀ L lv) :=
  [ .host (hseg hostOps0 hostOps0_sub (W0 m ρ)), .host (hseg hostOps0_1 hostOps0_1_sub (W1 m ρ)),
    .host (hseg hostOps0_2 hostOps0_2_sub (W2 m ρ)), .region (reg0 m ρ), .host (hseg hostOps1 hostOps1_sub (W4 m ρ)), .region (reg1 m ρ),
    .host (hseg hostOps2 hostOps2_sub (W6 m ρ)), .region (reg2 m ρ), .host (hseg hostOps3 hostOps3_sub (W8 m ρ)), .region (reg3 m ρ) ]
theorem main_run (c : Dev nD) : main (F := F) c = Pipeline.Seg.run (segs m ρ) := (main_chain c).trans (by chain_rfl)

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m ρ)) (Tₙ := fun c => iprop(StableHlo.held (c : Thread nD τ) (Pipeline.ucRefs τ sig) (W10 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

end Cert.Kernel.Hand

end
-- ==== Proof.K.KeptHost.lean ====
import proofs.«410163_j48198122996027_1_alg».proof.Proof.Gen.Kernel.Launch
import Idealize.ShloMosaic.Lib.StableHlo.Run
import Idealize.ShloMosaic.Lib.Pipeline.FrameSuffix

noncomputable section

namespace Cert.Kernel.Hand

open Idealize.ShloMosaic Idealize.ShloMosaic.TcCoe Idealize.SL.Sem
open Cert.Kernel Cert.Kernel.Gen

variable {F : FTy → Type} [FloatOps F]

abbrev argRefs : List (Ref sig .tc) :=
  [main_arg0, main_arg1, main_arg2, main_arg3, main_arg4, main_arg5, main_arg6, main_arg7, main_arg8, main_arg9, main_arg10, main_arg11]

abbrev Keeps (ops : List (HloOp τ sig (Elt F))) : Prop := ops.Forall fun op => ∀ a ∈ argRefs, Proc.devRef .tc a ∉ op.writes

-- Every host operation writes one buffer, and it is none of the arguments.
theorem keeps_all : Keeps (F := F) hostOps0 ∧ Keeps (F := F) hostOps0_1 ∧ Keeps (F := F) hostOps0_2 ∧ Keeps (F := F) hostOps1
    ∧ Keeps (F := F) hostOps2 ∧ Keeps (F := F) hostOps3 := by
  simp only [Keeps, hostOps0, hostOps0_1, hostOps0_2, hostOps1, hostOps2, hostOps3, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  and_intros
  all_goals exact fun a ha => StableHlo.devRef_ne_of_ne (ne_of_mem_of_not_mem ha (by decide))

variable (W : Valuation τ sig (Elt F)) (a : Ref sig .tc) (ha : a ∈ argRefs)
include ha

theorem keep_of {ops : List (HloOp τ sig (Elt F))} (h : Keeps ops) : StableHlo.after ops W (Proc.devRef .tc a) = W (Proc.devRef .tc a) :=
  StableHlo.after_of_forall_not_mem _ _ fun op hop => List.forall_iff_forall_mem.mp h op hop a ha

theorem keep_hostOps0 : StableHlo.after (hostOps0 (F := F)) W (Proc.devRef .tc a) = W (Proc.devRef .tc a) := keep_of W a ha keeps_all.1
theorem keep_hostOps0_1 : StableHlo.after (hostOps0_1 (F := F)) W (Proc.devRef .tc a) = W (Proc.devRef .tc a) := keep_of W a ha keeps_all.2.1
theorem keep_hostOps0_2 : StableHlo.after (hostOps0_2 (F := F)) W (Proc.devRef .tc a) = W (Proc.devRef .tc a) := keep_of W a ha keeps_all.2.2.1
theorem keep_hostOps1 : StableHlo.after (hostOps1 (F := F)) W (Proc.devRef .tc a) = W (Proc.devRef .tc a) := keep_of W a ha keeps_all.2.2.2.1
theorem keep_hostOps2 : StableHlo.after (hostOps2 (F := F)) W (Proc.devRef .tc a) = W (Proc.devRef .tc a) := keep_of W a ha keeps_all.2.2.2.2.1
theorem keep_hostOps3 : StableHlo.after (hostOps3 (F := F)) W (Proc.devRef .tc a) = W (Proc.devRef .tc a) := keep_of W a ha keeps_all.2.2.2.2.2

end Cert.Kernel.Hand

end
-- ==== Proof.K.Args.lean ====
import proofs.«410163_j48198122996027_1_alg».proof.Proof.K.Fold
import proofs.«410163_j48198122996027_1_alg».proof.Proof.K.KeptHost

noncomputable section

namespace Cert.Kernel.Hand

open Idealize.ShloMosaic Idealize.ShloMosaic.TcCoe Idealize.SL.Sem
open Cert.Kernel Cert.Kernel.Gen

variable {F : FTy → Type} [FloatOps F]

-- The exit contents agree with the entry contents at an argument that is no output window's array.
theorem keep_region {cfg : Pipeline.Cfg sig Λ₀} {c : Dev nD} (D : Pipeline.Dat τ (Elt F) Unit ℕ (UR sig nD τ) ℕ cfg c)
    {Wi Wo : Valuation τ sig (Elt F)}
    (harr : ∀ w, Wo (Proc.devRef .tc (Pipeline.arrRef cfg.spec w)) = D.arrAt w cfg.N)
    (hA : ∀ w, D.A w = Wi (Proc.devRef .tc (Pipeline.arrRef cfg.spec w)))
    (hne : ∀ b, (∀ w, Pipeline.arrRef cfg.spec w ≠ b) → Wo (Proc.devRef .tc b) = Wi (Proc.devRef .tc b))
    (a : Ref sig .tc) (ha : a ∈ argRefs)
    (h : ∀ a ∈ argRefs, ∀ w, Pipeline.arrRef cfg.spec w = a → (cfg.win w).isOut = false := by decide) :
    Wo (Proc.devRef .tc a) = Wi (Proc.devRef .tc a) := by
  by_cases hw : ∃ w, Pipeline.arrRef cfg.spec w = a
  · obtain ⟨w, rfl⟩ := hw; exact (harr w).trans ((D.arrAt_in w (h _ ha w rfl) _).trans (hA w))
  · exact hne a fun w e => hw ⟨w, e⟩

variable (m : (ℓ : Loc nD τ sig) → Buf (Elt F) ℓ) (ρ : Dev nD → PrngReg) (c : Dev nD) (a : Ref sig .tc) (ha : a ∈ argRefs)
include ha

theorem W3_arg : W3 m ρ c (Proc.devRef .tc a) = m ((c : Thread nD τ).loc a) :=
  (keep_hostOps0_2 _ a ha).trans ((keep_hostOps0_1 _ a ha).trans (keep_hostOps0 _ a ha))
theorem W4_arg : W4 m ρ c (Proc.devRef .tc a) = m ((c : Thread nD τ).loc a) :=
  (keep_region (dat0 (V3 m ρ) c) (W4_arr m ρ c) (A_eq0 (V3 m ρ) c) (W4_of_ne m ρ c) a ha).trans (W3_arg m ρ c a ha)
theorem W5_arg : W5 m ρ c (Proc.devRef .tc a) = m ((c : Thread nD τ).loc a) :=
  (keep_hostOps1 _ a ha).trans (W4_arg m ρ c a ha)
theorem W6_arg : W6 m ρ c (Proc.devRef .tc a) = m ((c : Thread nD τ).loc a) :=
  (keep_region (dat1 (V5 m ρ) c) (W6_arr m ρ c) (A_eq1 (V5 m ρ) c) (W6_of_ne m ρ c) a ha).trans (W5_arg m ρ c a ha)
theorem W7_arg : W7 m ρ c (Proc.devRef .tc a) = m ((c : Thread nD τ).loc a) :=
  (keep_hostOps2 _ a ha).trans (W6_arg m ρ c a ha)
theorem W8_arg : W8 m ρ c (Proc.devRef .tc a) = m ((c : Thread nD τ).loc a) :=
  (keep_region (dat2 (V7 m ρ) c) (W8_arr m ρ c) (A_eq2 (V7 m ρ) c) (W8_of_ne m ρ c) a ha).trans (W7_arg m ρ c a ha)
theorem W9_arg : W9 m ρ c (Proc.devRef .tc a) = m ((c : Thread nD τ).loc a) :=
  (keep_hostOps3 _ a ha).trans (W8_arg m ρ c a ha)
theorem W10_arg : W10 m ρ c (Proc.devRef .tc a) = m ((c : Thread nD τ).loc a) :=
  (keep_region (dat3 (V9 m ρ) c) (W10_arr m ρ c) (A_eq3 (V9 m ρ) c) (W10_of_ne m ρ c) a ha).trans (W9_arg m ρ c a ha)

end Cert.Kernel.Hand

end
-- ==== Proof.K.Frame.lean ====
import proofs.«410163_j48198122996027_1_alg».proof.Proof.K.Segs
import proofs.«410163_j48198122996027_1_alg».proof.Proof.K.Args

noncomputable section

namespace Cert.Kernel.Hand

open Idealize.ShloMosaic Idealize.ShloMosaic.TcCoe Idealize.SL.Sem
open Cert.Kernel Cert.Kernel.Gen

variable {F : FTy → Type} [FloatOps F]

variable (m : (ℓ : Loc nD τ sig) → Buf (Elt F) ℓ) (ρ : Dev nD → PrngReg)

theorem arg_kept (s : MemSt nD τ sig (Elt F)) (c : Dev nD)
    (h : ∀ b ∈ Pipeline.ucRefs τ sig, s.mem (((c : Thread nD τ)).1, b) = W10 m ρ c b) (a : Ref sig .tc) (ha : a ∈ argRefs)
    (hu : ¬ (Proc.devRef .tc a : DevRef τ sig).isScoped) :
    s.mem ((c.tc : Thread nD τ).loc a) = m ((c.tc : Thread nD τ).loc a) :=
  (h _ (mem_uc a hu)).trans (W10_arg m ρ c a ha)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    have k := arg_kept m ρ r.2 c (h c)
    and_intros <;> exact k _ (by decide) (by decide)) (run_main m ρ)

end Cert.Kernel.Hand

end
-- ==== Proof.KI.Cheb0.lean ====
import proofs.«410163_j48198122996027_1_alg».proof.Proof.Gen.KernelIdeal.Launch
import proofs.«410163_j48198122996027_1_alg».proof.Proof.Gen.KernelIdeal.Skeleton
import proofs.«410163_j48198122996027_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

local notation "SOut" => S2000x64
local notation "SStack" => S5x64x64
local notation "SMat" => S1x64x64
local notation "SBias" => S1x64
local notation "inbOut" => inb_S2000x64_S2000x64_0_0
local notation "inbBias" => inb_S1x64_S1x64_0_0
local notation "inbMat0" => inb_S5x64x64_S1x64x64_0_0_0
local notation "inbMat1" => inb_S5x64x64_S1x64x64_1_0_0
local notation "inbMat2" => inb_S5x64x64_S1x64x64_2_0_0
local notation "inbMat3" => inb_S5x64x64_S1x64x64_3_0_0
local notation "inbMat4" => inb_S5x64x64_S1x64x64_4_0_0

/-- The block of window `w`'s array at point `t`, at the contents `V` the region starts from. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rT0 : Rect S2000x64 := Rect.unit (s := S2000x64) ![0, 0] S2000x64.size inb_S2000x64_S2000x64_0_0
abbrev rW0_0 : Rect SStack := Rect.unit (s := SStack) ![0, 0, 0] (Shape.size SMat) inbMat0
abbrev rW0_1 : Rect SStack := Rect.unit (s := SStack) ![1, 0, 0] (Shape.size SMat) inbMat1
abbrev rW0_2 : Rect SStack := Rect.unit (s := SStack) ![2, 0, 0] (Shape.size SMat) inbMat2
abbrev rW0_3 : Rect SStack := Rect.unit (s := SStack) ![3, 0, 0] (Shape.size SMat) inbMat3
abbrev rW0_4 : Rect SStack := Rect.unit (s := SStack) ![4, 0, 0] (Shape.size SMat) inbMat4
abbrev rB0 : Rect SBias := Rect.unit (s := SBias) ![0, 0] (Shape.size SBias) inbBias
abbrev rO0 : Rect SOut := Rect.unit (s := SOut) ![0, 0] (Shape.size SOut) inbOut

/-- The output tile as a function of the seven input blocks: max(0, Σₖ xₖ·W[k] + bias) over the whole tile. -/
def out0_7 (x0 x1 x2 x3 x4 : Vec F S2000x64 .f32) (x5 : Vec F SStack .f32) (x6 : Vec F SBias .f32) : Vec F SOut .f32 :=
  View.canon [⟨rO0, k0_pay1 (k0_pay2 (View.ld x0 rT0) (View.ld x5 rW0_0) (View.ld x1 rT0) (View.ld x5 rW0_1) (View.ld x2 rT0) (View.ld x5 rW0_2)
      (View.ld x3 rT0) (View.ld x5 rW0_3) (View.ld x4 rT0) (View.ld x5 rW0_4)) (View.ld x6 rB0)⟩]

/-- The body only reads its seven inputs, and its one store covers the output tile: it leaves `out0_7` of them there. -/
theorem sound_kernel0 (c : Dev nD) {E : Set ℕ} {i : grid0.Coords}
    {arg1 arg2 arg3 arg4 arg5 : Memref sig .tc .vmem S2000x64 .f32} {arg6 : Memref sig .tc .vmem SStack .f32}
    {arg7 : Memref sig .tc .vmem SBias .f32} {arg8 : Memref sig .tc .vmem SOut .f32}
    {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole}
    {x0 x1 x2 x3 x4 : Vec F S2000x64 .f32} {x5 : Vec F SStack .f32} {x6 : Vec F SBias .f32} {d : Vec F SOut .f32} {K : PUnit → sProp 𝕄} :
    iprop(owns c arg1 fullShare x0 ∗ owns c arg2 fullShare x1 ∗ owns c arg3 fullShare x2 ∗ owns c arg4 fullShare x3
        ∗ owns c arg5 fullShare x4 ∗ owns c arg6 fullShare x5 ∗ owns c arg7 fullShare x6 ∗ owns c arg8 fullShare d
        ∗ (iprop(owns c arg1 fullShare x0 ∗ owns c arg2 fullShare x1 ∗ owns c arg3 fullShare x2 ∗ owns c arg4 fullShare x3
            ∗ owns c arg5 fullShare x4 ∗ owns c arg6 fullShare x5 ∗ owns c arg7 fullShare x6
            ∗ owns c arg8 fullShare (out0_7 x0 x1 x2 x3 x4 x5 x6)) -∗ K ⟨⟩))
      ⊢ wp frame (wpE (defs₀ (F := F)) Variants.none c none) E
          (cc0__cheb_matmul_kernel i arg1 harg1 arg2 harg2 arg3 harg3 arg4 harg4 arg5 harg5 arg6 harg6 arg7 harg7 arg8 harg8) K := by
  rw [cc0__cheb_matmul_kernel_eq_skeleton, cc0__cheb_matmul_kernel_skel, k0_part1_eq_skeleton, k0_part1_skel]
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, -, H7⟩, Hk⟩
  subst h0 h1 h2 h3 h4 h5 h6
  sl_exec
  sl_step
  iapply Hk
  isplitl [H0]; swap; isplitl [H1]; swap; isplitl [H2]; swap; isplitl [H3]; swap; isplitl [H4]; swap; isplitl [H5]; swap; isplitl [H6]; swap
  · iexists _; isplitr; swap; · iexact H7
    ipureintro; exact View.read_writes_eq_canon _ _ _ (View.cover_of_tiled _ (Shape.size SOut) rfl)
  all_goals iexists _; iframe; ipureintro; rfl

/-- Each input block stays as found; the output block becomes `out0_7` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := rfl

theorem after0_7 (c : Dev nD) (t : Fin cfg0.N) : (dat0 V c).after 7 t
    = out0_7 (iblk0 V c 0 t) (iblk0 V c 1 t) (iblk0 V c 2 t) (iblk0 V c 3 t) (iblk0 V c 4 t) (iblk0 V c 5 t) (iblk0 V c 6 t) := by dsimp only [dat0]

/-- At every point the contents handed to the body are the input blocks (`h0`–`h6`), where its triple applies. -/
theorem body_obligation0 (c : Dev nD) : BodyObligation (dat0 (F := F) V c) (defs₀ (F := F)) Variants.none () Set.univ := fun t => by
  have hb w hw hc hk := (dat0 V c).before_in_eq_fetched w hw (fun _ => rfl) hc hk t
  have h0 : ∀ d, _ = iblk0 V c 0 t := hb 0 rfl (fun _ _ _ => rfl) fun _ => rfl
  have h1 : ∀ d, _ = iblk0 V c 1 t := hb 1 rfl (fun _ _ _ => rfl) fun _ => rfl
  have h2 : ∀ d, _ = iblk0 V c 2 t := hb 2 rfl (fun _ _ _ => rfl) fun _ => rfl
  have h3 : ∀ d, _ = iblk0 V c 3 t := hb 3 rfl (fun _ _ _ => rfl) fun _ => rfl
  have h4 : ∀ d, _ = iblk0 V c 4 t := hb 4 rfl (fun _ _ _ => rfl) fun _ => rfl
  have h5 : ∀ d, _ = iblk0 V c 5 t := hb 5 rfl (fun _ _ _ => rfl) fun _ => rfl
  have h6 : ∀ d, _ = iblk0 V c 6 t := hb 6 rfl (fun _ _ _ => rfl) fun _ => rfl
  simp only [bigSep_W0, h0, h1, h2, h3, h4, h5, h6]
  dsimp only [dat0]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel0 c
  iframe H0 H1 H2 H3 H4 H5 H6 H7
  iintro H
  iframe HΦ H
  iexact Ho

end Cert.KernelIdeal.Hand

end
-- ==== Proof.KI.Cheb1.lean ====
import proofs.«410163_j48198122996027_1_alg».proof.Proof.Gen.KernelIdeal.Launch
import proofs.«410163_j48198122996027_1_alg».proof.Proof.Gen.KernelIdeal.Skeleton
import proofs.«410163_j48198122996027_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

local notation "SOut" => S2000x64
local notation "SStack" => S5x64x64
local notation "SMat" => S1x64x64
local notation "SBias" => S1x64
local notation "inbOut" => inb_S2000x64_S2000x64_0_0
local notation "inbBias" => inb_S1x64_S1x64_0_0
local notation "inbMat0" => inb_S5x64x64_S1x64x64_0_0_0
local notation "inbMat1" => inb_S5x64x64_S1x64x64_1_0_0
local notation "inbMat2" => inb_S5x64x64_S1x64x64_2_0_0
local notation "inbMat3" => inb_S5x64x64_S1x64x64_3_0_0
local notation "inbMat4" => inb_S5x64x64_S1x64x64_4_0_0

/-- The block of window `w`'s array at point `t`, at the contents `V` the region starts from. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rT1 : Rect S2000x64 := Rect.unit (s := S2000x64) ![0, 0] S2000x64.size inb_S2000x64_S2000x64_0_0
abbrev rW1_0 : Rect SStack := Rect.unit (s := SStack) ![0, 0, 0] (Shape.size SMat) inbMat0
abbrev rW1_1 : Rect SStack := Rect.unit (s := SStack) ![1, 0, 0] (Shape.size SMat) inbMat1
abbrev rW1_2 : Rect SStack := Rect.unit (s := SStack) ![2, 0, 0] (Shape.size SMat) inbMat2
abbrev rW1_3 : Rect SStack := Rect.unit (s := SStack) ![3, 0, 0] (Shape.size SMat) inbMat3
abbrev rW1_4 : Rect SStack := Rect.unit (s := SStack) ![4, 0, 0] (Shape.size SMat) inbMat4
abbrev rB1 : Rect SBias := Rect.unit (s := SBias) ![0, 0] (Shape.size SBias) inbBias
abbrev rO1 : Rect SOut := Rect.unit (s := SOut) ![0, 0] (Shape.size SOut) inbOut

/-- The output tile as a function of the seven input blocks: max(0, Σₖ xₖ·W[k] + bias) over the whole tile. -/
def out1_7 (x0 x1 x2 x3 x4 : Vec F S2000x64 .f32) (x5 : Vec F SStack .f32) (x6 : Vec F SBias .f32) : Vec F SOut .f32 :=
  View.canon [⟨rO1, k1_pay1 (k1_pay2 (View.ld x0 rT1) (View.ld x5 rW1_0) (View.ld x1 rT1) (View.ld x5 rW1_1) (View.ld x2 rT1) (View.ld x5 rW1_2)
      (View.ld x3 rT1) (View.ld x5 rW1_3) (View.ld x4 rT1) (View.ld x5 rW1_4)) (View.ld x6 rB1)⟩]

/-- The body only reads its seven inputs, and its one store covers the output tile: it leaves `out1_7` of them there. -/
theorem sound_kernel1 (c : Dev nD) {E : Set ℕ} {i : grid1.Coords}
    {arg1 arg2 arg3 arg4 arg5 : Memref sig .tc .vmem S2000x64 .f32} {arg6 : Memref sig .tc .vmem SStack .f32}
    {arg7 : Memref sig .tc .vmem SBias .f32} {arg8 : Memref sig .tc .vmem SOut .f32}
    {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole}
    {x0 x1 x2 x3 x4 : Vec F S2000x64 .f32} {x5 : Vec F SStack .f32} {x6 : Vec F SBias .f32} {d : Vec F SOut .f32} {K : PUnit → sProp 𝕄} :
    iprop(owns c arg1 fullShare x0 ∗ owns c arg2 fullShare x1 ∗ owns c arg3 fullShare x2 ∗ owns c arg4 fullShare x3
        ∗ owns c arg5 fullShare x4 ∗ owns c arg6 fullShare x5 ∗ owns c arg7 fullShare x6 ∗ owns c arg8 fullShare d
        ∗ (iprop(owns c arg1 fullShare x0 ∗ owns c arg2 fullShare x1 ∗ owns c arg3 fullShare x2 ∗ owns c arg4 fullShare x3
            ∗ owns c arg5 fullShare x4 ∗ owns c arg6 fullShare x5 ∗ owns c arg7 fullShare x6
            ∗ owns c arg8 fullShare (out1_7 x0 x1 x2 x3 x4 x5 x6)) -∗ K ⟨⟩))
      ⊢ wp frame (wpE (defs₀ (F := F)) Variants.none c none) E
          (cc1__cheb_matmul_kernel i arg1 harg1 arg2 harg2 arg3 harg3 arg4 harg4 arg5 harg5 arg6 harg6 arg7 harg7 arg8 harg8) K := by
  rw [cc1__cheb_matmul_kernel_eq_skeleton, cc1__cheb_matmul_kernel_skel, k1_part1_eq_skeleton, k1_part1_skel]
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, -, H7⟩, Hk⟩
  subst h0 h1 h2 h3 h4 h5 h6
  sl_exec
  sl_step
  iapply Hk
  isplitl [H0]; swap; isplitl [H1]; swap; isplitl [H2]; swap; isplitl [H3]; swap; isplitl [H4]; swap; isplitl [H5]; swap; isplitl [H6]; swap
  · iexists _; isplitr; swap; · iexact H7
    ipureintro; exact View.read_writes_eq_canon _ _ _ (View.cover_of_tiled _ (Shape.size SOut) rfl)
  all_goals iexists _; iframe; ipureintro; rfl

/-- Each input block stays as found; the output block becomes `out1_7` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := rfl

theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by dsimp only [dat1]

/-- At every point the contents handed to the body are the input blocks (`h0`–`h6`), where its triple applies. -/
theorem body_obligation1 (c : Dev nD) : BodyObligation (dat1 (F := F) V c) (defs₀ (F := F)) Variants.none () Set.univ := fun t => by
  have hb w hw hc hk := (dat1 V c).before_in_eq_fetched w hw (fun _ => rfl) hc hk t
  have h0 : ∀ d, _ = iblk1 V c 0 t := hb 0 rfl (fun _ _ _ => rfl) fun _ => rfl
  have h1 : ∀ d, _ = iblk1 V c 1 t := hb 1 rfl (fun _ _ _ => rfl) fun _ => rfl
  have h2 : ∀ d, _ = iblk1 V c 2 t := hb 2 rfl (fun _ _ _ => rfl) fun _ => rfl
  have h3 : ∀ d, _ = iblk1 V c 3 t := hb 3 rfl (fun _ _ _ => rfl) fun _ => rfl
  have h4 : ∀ d, _ = iblk1 V c 4 t := hb 4 rfl (fun _ _ _ => rfl) fun _ => rfl
  have h5 : ∀ d, _ = iblk1 V c 5 t := hb 5 rfl (fun _ _ _ => rfl) fun _ => rfl
  have h6 : ∀ d, _ = iblk1 V c 6 t := hb 6 rfl (fun _ _ _ => rfl) fun _ => rfl
  simp only [bigSep_W1, h0, h1, h2, h3, h4, h5, h6]
  dsimp only [dat1]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel1 c
  iframe H0 H1 H2 H3 H4 H5 H6 H7
  iintro H
  iframe HΦ H
  iexact Ho

end Cert.KernelIdeal.Hand

end
-- ==== Proof.KI.Cheb2.lean ====
import proofs.«410163_j48198122996027_1_alg».proof.Proof.Gen.KernelIdeal.Launch
import proofs.«410163_j48198122996027_1_alg».proof.Proof.Gen.KernelIdeal.Skeleton
import proofs.«410163_j48198122996027_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

local notation "SOut" => S2000x128
local notation "SStack" => S5x64x128
local notation "SMat" => S1x64x128
local notation "SBias" => S1x128
local notation "inbOut" => inb_S2000x128_S2000x128_0_0
local notation "inbBias" => inb_S1x128_S1x128_0_0
local notation "inbMat0" => inb_S5x64x128_S1x64x128_0_0_0
local notation "inbMat1" => inb_S5x64x128_S1x64x128_1_0_0
local notation "inbMat2" => inb_S5x64x128_S1x64x128_2_0_0
local notation "inbMat3" => inb_S5x64x128_S1x64x128_3_0_0
local notation "inbMat4" => inb_S5x64x128_S1x64x128_4_0_0

/-- The block of window `w`'s array at point `t`, at the contents `V` the region starts from. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rT2 : Rect S2000x64 := Rect.unit (s := S2000x64) ![0, 0] S2000x64.size inb_S2000x64_S2000x64_0_0
abbrev rW2_0 : Rect SStack := Rect.unit (s := SStack) ![0, 0, 0] (Shape.size SMat) inbMat0
abbrev rW2_1 : Rect SStack := Rect.unit (s := SStack) ![1, 0, 0] (Shape.size SMat) inbMat1
abbrev rW2_2 : Rect SStack := Rect.unit (s := SStack) ![2, 0, 0] (Shape.size SMat) inbMat2
abbrev rW2_3 : Rect SStack := Rect.unit (s := SStack) ![3, 0, 0] (Shape.size SMat) inbMat3
abbrev rW2_4 : Rect SStack := Rect.unit (s := SStack) ![4, 0, 0] (Shape.size SMat) inbMat4
abbrev rB2 : Rect SBias := Rect.unit (s := SBias) ![0, 0] (Shape.size SBias) inbBias
abbrev rO2 : Rect SOut := Rect.unit (s := SOut) ![0, 0] (Shape.size SOut) inbOut

/-- The output tile as a function of the seven input blocks: max(0, Σₖ xₖ·W[k] + bias) over the whole tile. -/
def out2_7 (x0 x1 x2 x3 x4 : Vec F S2000x64 .f32) (x5 : Vec F SStack .f32) (x6 : Vec F SBias .f32) : Vec F SOut .f32 :=
  View.canon [⟨rO2, k2_pay1 (k2_pay2 (View.ld x0 rT2) (View.ld x5 rW2_0) (View.ld x1 rT2) (View.ld x5 rW2_1) (View.ld x2 rT2) (View.ld x5 rW2_2)
      (View.ld x3 rT2) (View.ld x5 rW2_3) (View.ld x4 rT2) (View.ld x5 rW2_4)) (View.ld x6 rB2)⟩]

/-- The body only reads its seven inputs, and its one store covers the output tile: it leaves `out2_7` of them there. -/
theorem sound_kernel2 (c : Dev nD) {E : Set ℕ} {i : grid2.Coords}
    {arg1 arg2 arg3 arg4 arg5 : Memref sig .tc .vmem S2000x64 .f32} {arg6 : Memref sig .tc .vmem SStack .f32}
    {arg7 : Memref sig .tc .vmem SBias .f32} {arg8 : Memref sig .tc .vmem SOut .f32}
    {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole}
    {x0 x1 x2 x3 x4 : Vec F S2000x64 .f32} {x5 : Vec F SStack .f32} {x6 : Vec F SBias .f32} {d : Vec F SOut .f32} {K : PUnit → sProp 𝕄} :
    iprop(owns c arg1 fullShare x0 ∗ owns c arg2 fullShare x1 ∗ owns c arg3 fullShare x2 ∗ owns c arg4 fullShare x3
        ∗ owns c arg5 fullShare x4 ∗ owns c arg6 fullShare x5 ∗ owns c arg7 fullShare x6 ∗ owns c arg8 fullShare d
        ∗ (iprop(owns c arg1 fullShare x0 ∗ owns c arg2 fullShare x1 ∗ owns c arg3 fullShare x2 ∗ owns c arg4 fullShare x3
            ∗ owns c arg5 fullShare x4 ∗ owns c arg6 fullShare x5 ∗ owns c arg7 fullShare x6
            ∗ owns c arg8 fullShare (out2_7 x0 x1 x2 x3 x4 x5 x6)) -∗ K ⟨⟩))
      ⊢ wp frame (wpE (defs₀ (F := F)) Variants.none c none) E
          (cc2__cheb_matmul_kernel i arg1 harg1 arg2 harg2 arg3 harg3 arg4 harg4 arg5 harg5 arg6 harg6 arg7 harg7 arg8 harg8) K := by
  rw [cc2__cheb_matmul_kernel_eq_skeleton, cc2__cheb_matmul_kernel_skel, k2_part1_eq_skeleton, k2_part1_skel]
  unfold owns
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, -, H7⟩, Hk⟩
  subst h0 h1 h2 h3 h4 h5 h6
  sl_exec
  sl_step
  iapply Hk
  isplitl [H0]; swap; isplitl [H1]; swap; isplitl [H2]; swap; isplitl [H3]; swap; isplitl [H4]; swap; isplitl [H5]; swap; isplitl [H6]; swap
  · iexists _; isplitr; swap; · iexact H7
    ipureintro; exact View.read_writes_eq_canon _ _ _ (View.cover_of_tiled _ (Shape.size SOut) rfl)
  all_goals iexists _; iframe; ipureintro; rfl

/-- Each input block stays as found; the output block becomes `out2_7` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := rfl

theorem after2_7 (c : Dev nD) (t : Fin cfg2.N) : (dat2 V c).after 7 t
    = out2_7 (iblk2 V c 0 t) (iblk2 V c 1 t) (iblk2 V c 2 t) (iblk2 V c 3 t) (iblk2 V c 4 t) (iblk2 V c 5 t) (iblk2 V c 6 t) := by dsimp only [dat2]

/-- At every point the contents handed to the body are the input blocks (`h0`–`h6`), where its triple applies. -/
theorem body_obligation2 (c : Dev nD) : BodyObligation (dat2 (F := F) V c) (defs₀ (F := F)) Variants.none () Set.univ := fun t => by
  have hb w hw hc hk := (dat2 V c).before_in_eq_fetched w hw (fun _ => rfl) hc hk t
  have h0 : ∀ d, _ = iblk2 V c 0 t := hb 0 rfl (fun _ _ _ => rfl) fun _ => rfl
  have h1 : ∀ d, _ = iblk2 V c 1 t := hb 1 rfl (fun _ _ _ => rfl) fun _ => rfl
  have h2 : ∀ d, _ = iblk2 V c 2 t := hb 2 rfl (fun _ _ _ => rfl) fun _ => rfl
  have h3 : ∀ d, _ = iblk2 V c 3 t := hb 3 rfl (fun _ _ _ => rfl) fun _ => rfl
  have h4 : ∀ d, _ = iblk2 V c 4 t := hb 4 rfl (fun _ _ _ => rfl) fun _ => rfl
  have h5 : ∀ d, _ = iblk2 V c 5 t := hb 5 rfl (fun _ _ _ => rfl) fun _ => rfl
  have h6 : ∀ d, _ = iblk2 V c 6 t := hb 6 rfl (fun _ _ _ => rfl) fun _ => rfl
  simp only [bigSep_W2, h0, h1, h2, h3, h4, h5, h6]
  dsimp only [dat2]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel2 c
  iframe H0 H1 H2 H3 H4 H5 H6 H7
  iintro H
  iframe HΦ H
  iexact Ho

end Cert.KernelIdeal.Hand

end
-- ==== Proof.KI.Pool.lean ====
import proofs.«410163_j48198122996027_1_alg».proof.Proof.Gen.KernelIdeal.Launch
import proofs.«410163_j48198122996027_1_alg».proof.Proof.Gen.KernelIdeal.Skeleton
import proofs.«410163_j48198122996027_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def acc3 (c : Dev nD) : (n : ℕ) → n < cfg3.N → Vec F S64x128 .f32
  | 0, h => k3_pay2 (k3_pay1 (F := F)) (iblk3 V c 0 ⟨0, h⟩) (iblk3 V c 1 ⟨0, h⟩)
  | n + 1, h => k3_pay2 (acc3 c n (Nat.lt_of_succ_lt h)) (iblk3 V c 0 ⟨n + 1, h⟩) (iblk3 V c 1 ⟨n + 1, h⟩)

abbrev scM3 : Memref sig .tc .vmem S64x128 .f32 := Memref.whole cc3_scratch0

def Phi3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k3_pay4 (acc3 V c t.val t.isLt) (iblk3 V c 4 t) (iblk3 V c 2 t) (iblk3 V c 3 t)
    | ⟨6, _⟩ => k3_pay3 (acc3 V c t.val t.isLt) (iblk3 V c 4 t)
  Φ t := Phi3 V c t.val (Nat.le_of_lt_succ t.isLt)
  q _ := fullShare
  owed _ := 0

theorem A_eq3 (c : Dev nD) (w : Fin cfg3.W) : (dat3 V c).A w = V c (Pipeline.arrRef spec3 w) := rfl

theorem zeros2 : (![0, 0] : Fin 2 → ℕ) = fun _ => 0 := by
  funext a; fin_cases a <;> rfl

theorem readAt_unit_zero {κ : Kind} {sp : Space} {S : Shape} {e : EltTy} (v : View sig κ sp S e) {off : Fin S.rank → ℕ} (h : off = fun _ => 0)
    (inb : ∀ a, off a + S.size a ≤ S.size a) (f : v.ty.Contents (Elt F)) :
    View.readAt (Elt F) v (Rect.unit off S.size inb).toLoadRect f = View.read (Elt F) v f :=
  (View.readAt_eq_ld v f _).trans (View.ld_unit_zero h inb _)

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val = 0 := by decide +kernel
abbrev cond3_1 (i : grid3.Coords) : Prop := k3_cond2 i = 1#1
theorem hcond3_1 : ∀ t : Fin cfg3.N, cond3_1 (grid3.coords t) ↔ t.val = 24 := by decide +kernel

/-- A store through the whole-shape rectangle, last, leaves the view reading its payload. -/
theorem read_stored {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e) (L) :
    v.read (Elt F) (v.writes (Elt F) f (⟨Rect.unit off S.size inb, w⟩ :: L)) = w :=
  (View.read_writes_eq_canon _ _ _ fun y => ⟨_, List.mem_cons_self, View.mem_set_unit_zero h inb y⟩).trans
    (View.canon_cons_unit_zero h inb w L)

/-- Held contents are owned at whatever the memref reads of them. -/
theorem owns_of_read (c : Dev nD) {sp : Space} {S : Shape} {e : EltTy} (m : Memref sig .tc sp S e) (f : m.view.ty.Contents (Elt F))
    (X : S.Idx → Elt F e) (h : m.view.read (Elt F) f = X) :
    (m.view.loc (c : Thread nD τ) ↦[m.view.set]{fullShare} f : sProp 𝕄)
      ⊢ iprop(∃ g, ⌜m.view.read (Elt F) g = X⌝ ∗ (m.view.loc (c : Thread nD τ) ↦[m.view.set]{fullShare} g)) := by
  iintro H; iexists f; isplitr; · ipureintro; exact h
  iexact H

section
variable (c : Dev nD) {E : Set ℕ} {i : grid3.Coords}
  {arg1 : Memref sig .tc .vmem S2000x64 .f32} {harg1 : arg1.IsWhole} {arg2 : Memref sig .tc .vmem S2000x128 .f32} {harg2 : arg2.IsWhole}
  {arg3 : Memref sig .tc .vmem S128x2 .f32} {harg3 : arg3.IsWhole} {arg4 : Memref sig .tc .vmem S1x2 .f32} {harg4 : arg4.IsWhole}
  {arg5 : Memref sig .tc .vmem S64x1 .f32} {harg5 : arg5.IsWhole} {arg6 : Memref sig .tc .vmem S64x2 .f32} {harg6 : arg6.IsWhole}
  {arg7 : Memref sig .tc .vmem S64x128 .f32} {harg7 : arg7.IsWhole} {arg8 : Memref sig .tc .vmem S64x128 .f32} {harg8 : arg8.IsWhole}
  (x0 : Vec F S2000x64 .f32) (x1 : Vec F S2000x128 .f32) (s : Vec F S64x128 .f32)

theorem sound_kernel3_first (h0 : cond3_0 i) (h1 : ¬cond3_1 i) (K : PUnit → sProp 𝕄) :
    iprop(owns (c : Thread nD τ) arg1 fullShare x0 ∗ owns (c : Thread nD τ) arg2 fullShare x1 ∗ owns (c : Thread nD τ) arg8 fullShare s
        ∗ (iprop(owns (c : Thread nD τ) arg1 fullShare x0 ∗ owns (c : Thread nD τ) arg2 fullShare x1
            ∗ owns (c : Thread nD τ) arg8 fullShare (k3_pay2 (k3_pay1 (F := F)) x0 x1)) -∗ K ⟨⟩))
      ⊢ wp frame (wpE (defs₀ (F := F)) Variants.none c none) E (cc3__pool_linear_kernel i arg1 harg1 arg2 harg2 arg3 harg3 arg4 harg4 arg5 harg5 arg6 harg6 arg7 harg7 arg8 harg8) K := by
  simp only [cc3__pool_linear_kernel_eq_skeleton]; unfold cc3__pool_linear_kernel_skel owns
  iintro ⟨⟨%f0, %hf0, H0⟩, ⟨%f1, %hf1, H1⟩, ⟨%f8, -, H8⟩, Hk⟩
  subst hf0 hf1
  sl_exec
  sl_step
  unfold sound_kernel3_first.sl.v3 sound_kernel3_first.sl.H8_1
  rw [View.readCov_unit_zero _ zeros2, readAt_unit_zero (S := S2000x64) _ zeros2, readAt_unit_zero (S := S2000x128) _ zeros2]
  ihave H0 := (owns_of_read c arg1 f0 _ rfl) $$ H0
  ihave H1 := (owns_of_read c arg2 f1 _ rfl) $$ H1
  ihave H8 := (owns_of_read c arg8 _ _ (read_stored _ _ zeros2 _ _ _)) $$ H8
  iapply Hk
  iframe

theorem sound_kernel3_mid (h0 : ¬cond3_0 i) (h1 : ¬cond3_1 i) (K : PUnit → sProp 𝕄) :
    iprop(owns (c : Thread nD τ) arg1 fullShare x0 ∗ owns (c : Thread nD τ) arg2 fullShare x1 ∗ owns (c : Thread nD τ) arg8 fullShare s
        ∗ (iprop(owns (c : Thread nD τ) arg1 fullShare x0 ∗ owns (c : Thread nD τ) arg2 fullShare x1
            ∗ owns (c : Thread nD τ) arg8 fullShare (k3_pay2 s x0 x1)) -∗ K ⟨⟩))
      ⊢ wp frame (wpE (defs₀ (F := F)) Variants.none c none) E (cc3__pool_linear_kernel i arg1 harg1 arg2 harg2 arg3 harg3 arg4 harg4 arg5 harg5 arg6 harg6 arg7 harg7 arg8 harg8) K := by
  simp only [cc3__pool_linear_kernel_eq_skeleton]; unfold cc3__pool_linear_kernel_skel owns
  iintro ⟨⟨%f0, %hf0, H0⟩, ⟨%f1, %hf1, H1⟩, ⟨%f8, %hf8, H8⟩, Hk⟩
  subst hf0 hf1 hf8
  sl_exec
  sl_step
  rw [readAt_unit_zero (S := S64x128) _ zeros2, readAt_unit_zero (S := S2000x64) _ zeros2, readAt_unit_zero (S := S2000x128) _ zeros2]
  ihave H0 := (owns_of_read c arg1 f0 _ rfl) $$ H0
  ihave H1 := (owns_of_read c arg2 f1 _ rfl) $$ H1
  ihave H8 := (owns_of_read c arg8 _ _ (read_stored _ _ zeros2 _ _ _)) $$ H8
  iapply Hk
  iframe

theorem sound_kernel3_last (h0 : ¬cond3_0 i) (h1 : cond3_1 i) (x2 : Vec F S128x2 .f32) (x3 : Vec F S1x2 .f32) (x4 : Vec F S64x1 .f32)
    (d6 : Vec F S64x2 .f32) (d7 : Vec F S64x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare d6 ∗ owns (c : Thread nD τ) arg7 fullShare d7 ∗ owns (c : Thread nD τ) arg8 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k3_pay4 (k3_pay2 s x0 x1) x4 x2 x3)
            ∗ owns (c : Thread nD τ) arg7 fullShare (k3_pay3 (k3_pay2 s x0 x1) x4)
            ∗ owns (c : Thread nD τ) arg8 fullShare (k3_pay2 s x0 x1)) -∗ K ⟨⟩))
      ⊢ wp frame (wpE (defs₀ (F := F)) Variants.none c none) E (cc3__pool_linear_kernel i arg1 harg1 arg2 harg2 arg3 harg3 arg4 harg4 arg5 harg5 arg6 harg6 arg7 harg7 arg8 harg8) K := by
  simp only [cc3__pool_linear_kernel_eq_skeleton]; unfold cc3__pool_linear_kernel_skel owns
  iintro ⟨⟨%f0, %hf0, H0⟩, ⟨%f1, %hf1, H1⟩, ⟨%f2, %hf2, H2⟩, ⟨%f3, %hf3, H3⟩, ⟨%f4, %hf4, H4⟩, ⟨%f6, -, H6⟩, ⟨%f7, -, H7⟩, ⟨%f8, %hf8, H8⟩, Hk⟩
  subst hf0 hf1 hf2 hf3 hf4 hf8
  sl_exec
  sl_step
  unfold sound_kernel3_last.sl.v16 sound_kernel3_last.sl.H8_1
  rw [View.readCov_unit_zero _ zeros2, readAt_unit_zero (S := S64x128) _ zeros2, readAt_unit_zero (S := S2000x64) _ zeros2, readAt_unit_zero (S := S2000x128) _ zeros2,
    readAt_unit_zero (S := S64x1) _ zeros2, readAt_unit_zero (S := S128x2) _ zeros2, readAt_unit_zero (S := S1x2) _ zeros2]
  ihave H0 := (owns_of_read c arg1 f0 _ rfl) $$ H0
  ihave H1 := (owns_of_read c arg2 f1 _ rfl) $$ H1
  ihave H2 := (owns_of_read c arg3 f2 _ rfl) $$ H2
  ihave H3 := (owns_of_read c arg4 f3 _ rfl) $$ H3
  ihave H4 := (owns_of_read c arg5 f4 _ rfl) $$ H4
  ihave H6 := (owns_of_read c arg6 _ _ (read_stored _ _ zeros2 _ _ _)) $$ H6
  ihave H7 := (owns_of_read c arg7 _ _ (read_stored _ _ zeros2 _ _ _)) $$ H7
  ihave H8 := (owns_of_read c arg8 _ _ (read_stored _ _ zeros2 _ _ _)) $$ H8
  iapply Hk
  iframe

end

theorem after3_0 (c : Dev nD) (t : Fin cfg3.N) : (dat3 V c).after 0 t = iblk3 V c 0 t := rfl
theorem after3_1 (c : Dev nD) (t : Fin cfg3.N) : (dat3 V c).after 1 t = iblk3 V c 1 t := rfl
theorem after3_2 (c : Dev nD) (t : Fin cfg3.N) : (dat3 V c).after 2 t = iblk3 V c 2 t := rfl
theorem after3_3 (c : Dev nD) (t : Fin cfg3.N) : (dat3 V c).after 3 t = iblk3 V c 3 t := rfl
theorem after3_4 (c : Dev nD) (t : Fin cfg3.N) : (dat3 V c).after 4 t = iblk3 V c 4 t := rfl
theorem after3_5 (c : Dev nD) (t : Fin cfg3.N) : (dat3 V c).after 5 t
    = k3_pay4 (acc3 V c t.val t.isLt) (iblk3 V c 4 t) (iblk3 V c 2 t) (iblk3 V c 3 t) := rfl
theorem after3_6 (c : Dev nD) (t : Fin cfg3.N) : (dat3 V c).after 6 t
    = k3_pay3 (acc3 V c t.val t.isLt) (iblk3 V c 4 t) := rfl

/-- The body leaves its inputs in place. -/
theorem before3_in (c : Dev nD) (w : Fin cfg3.W) (hw : w.val < 5) (t : Fin cfg3.N) (d) :
    (dat3 V c).before w t d = (dat3 V c).after w t := by
  fin_cases w
  iterate 5 exact (dat3 V c).before_in_eq_fetched _ rfl (fun _ => rfl) (fun _ _ _ => rfl) (fun _ => rfl) t d
  all_goals exact absurd hw (by decide)

theorem leaves3_live (c : Dev nD) (w : Fin cfg3.W) (t : Fin cfg3.N) (h : cfg3.idle w (grid3.coords t) = false) :
    (dat3 V c).leavesExact w t = owns (c : Thread nD τ) ((cfg3.win w).stage (cfg3.slots t w)) fullShare ((dat3 V c).after w t) := by
  unfold Dat.leavesExact; rw [h]

theorem idle3 : ∀ (t : Fin cfg3.N) (w : Fin cfg3.W), 5 ≤ w.val → ¬t.val = 24 →
    cfg3.idle w (grid3.coords t) = true ∧ (cfg3.win w).flush t = false := by decide +kernel
theorem live3 : ∀ (t : Fin cfg3.N) (w : Fin cfg3.W), 5 ≤ w.val → t.val = 24 → cfg3.idle w (grid3.coords t) = false := by decide +kernel

theorem leaves3_idle (c : Dev nD) (w : Fin cfg3.W) (hw : 5 ≤ w.val) (t : Fin cfg3.N) (h : ¬t.val = 24) :
    (dat3 V c).leavesExact w t = iprop(∃ d, owns (c : Thread nD τ) ((cfg3.win w).stage (cfg3.slots t w)) fullShare ((dat3 V c).before w t d)) :=
  (dat3 V c).leavesExact_idle w t (idle3 t w hw h).1 (idle3 t w hw h).2

theorem acc3_first (c : Dev nD) (t : Fin cfg3.N) (hz : t.val = 0) :
    acc3 V c t.val t.isLt = k3_pay2 (k3_pay1 (F := F)) (iblk3 V c 0 t) (iblk3 V c 1 t) :=
  match t, hz with
  | ⟨0, _⟩, _ => rfl
  | ⟨n + 1, _⟩, h => absurd h n.succ_ne_zero

theorem acc3_later (c : Dev nD) (t : Fin cfg3.N) (hz : t.val ≠ 0) :
    acc3 V c t.val t.isLt = k3_pay2 (acc3 V c (t.val - 1) (Nat.lt_of_le_of_lt (Nat.sub_le _ _) t.isLt)) (iblk3 V c 0 t) (iblk3 V c 1 t) :=
  match t, hz with
  | ⟨0, _⟩, h => absurd rfl h
  | ⟨_ + 1, _⟩, _ => rfl

theorem Phi3_zero (c : Dev nD) (n : ℕ) (h : n ≤ cfg3.N) (hz : n = 0) : Phi3 V c n h = Pipeline.ΦA spec3 c := by
  subst hz; rfl

theorem Phi3_pos (c : Dev nD) (n : ℕ) (h : n ≤ cfg3.N) (hz : n ≠ 0) : Phi3 V c n h = Phi3 V c (n - 1 + 1) (by omega) := by
  cases n with
  | zero => exact absurd rfl hz
  | succ n => rfl

theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

theorem lt24 : 24 < cfg3.N := by decide

theorem hin3 (c : Dev nD) : Pipeline.ΦA spec3 c ⊢ (dat3 V c).Φ 0 := Idealize.SL.BI.Entails.refl _

theorem hout3 (c : Dev nD) : (dat3 V c).Φ (Fin.last cfg3.N) ⊢ Pipeline.ΦA spec3 c := by
  rw [show (dat3 V c).Φ (Fin.last cfg3.N) = Phi3 V c (24 + 1) lt24 from rfl, Phi3.eq_2, PhiA3_eq]
  iintro ⟨⟨HS, HR⟩, Hg⟩
  iframe HR Hg
  iexists _; iexact HS

/-- The running sum gains one block product a point, from zero at the first; the two results are functions of the
    finished sum, produced at the last point only. -/
theorem body_obligation3 (c : Dev nD) : BodyObligation (dat3 (F := F) V c) (defs₀ (F := F)) Variants.none () Set.univ := fun t => by
  change iprop(_ ∗ _ ∗ bigSep Finset.univ fun w => iprop(∃ d, owns (c : Thread nD τ) ((cfg3.win w).stage (cfg3.slots t w)) fullShare ((dat3 V c).before w t d)))
    ⊢ wp frame _ Set.univ (bodyAt3 t) fun _ => iprop(_ ∗ _ ∗ bigSep Finset.univ fun w => (dat3 V c).leavesExact w t)
  rw [bigSep_W3, bigSep_W3]
  simp (disch := first | decide | rfl) only [before3_in, leaves3_live, after3_0, after3_1, after3_2, after3_3, after3_4]
  rw [show (dat3 V c).owesAt () t.succ = (dat3 V c).owesAt () t.castSucc from rfl,
    show (dat3 V c).Φ t.succ = Phi3 V c (t.val + 1) t.isLt from rfl, Phi3.eq_2,
    show (dat3 V c).Φ t.castSucc = Phi3 V c t.val (Nat.le_of_lt t.isLt) from rfl]
  unfold bodyAt3
  by_cases h0 : t.val = 0
  · have h1 : ¬t.val = 24 := by omega
    rw [leaves3_idle V c 5 (by decide) t h1, leaves3_idle V c 6 (by decide) t h1, acc3_first V c t h0, Phi3_zero V c _ _ h0, PhiA3_eq]
    iintro ⟨⟨⟨⟨%s, HS⟩, HR⟩, Hg⟩, Ho, ⟨%d0, H0⟩, ⟨%d1, H1⟩, ⟨%d2, H2⟩, ⟨%d3, H3⟩, ⟨%d4, H4⟩, H5, H6⟩
    iapply (sound_kernel3_first c (iblk3 V c 0 t) (iblk3 V c 1 t) s
      ((hcond3_0 t).mpr h0) (fun h => h1 ((hcond3_1 t).mp h)) _)
    iframe H0 H1 HS
    iintro ⟨H0, H1, HS⟩
    iframe
  · have c0 : ¬cond3_0 (grid3.coords t) := fun h => h0 ((hcond3_0 t).mp h)
    rw [Phi3_pos V c _ _ h0, Phi3.eq_2]
    by_cases h1 : t.val = 24
    · rw [leaves3_live V c 5 t (live3 t 5 (by decide) h1), leaves3_live V c 6 t (live3 t 6 (by decide) h1), after3_5, after3_6,
        acc3_later V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel3_last c (iblk3 V c 0 t) (iblk3 V c 1 t) _
        c0 ((hcond3_1 t).mpr h1) (iblk3 V c 2 t) (iblk3 V c 3 t) (iblk3 V c 4 t) _ _ _)
      iframe H0 H1 H2 H3 H4 H5 H6 HS
      iintro ⟨H0, H1, H2, H3, H4, H5, H6, HS⟩
      iframe
    · rw [leaves3_idle V c 5 (by decide) t h1, leaves3_idle V c 6 (by decide) t h1, acc3_later V c t h0]
      iintro ⟨⟨⟨HS, HR⟩, Hg⟩, Ho, ⟨%d0, H0⟩, ⟨%d1, H1⟩, ⟨%d2, H2⟩, ⟨%d3, H3⟩, ⟨%d4, H4⟩, H5, H6⟩
      iapply (sound_kernel3_mid c (iblk3 V c 0 t) (iblk3 V c 1 t) _
        c0 (fun h => h1 ((hcond3_1 t).mp h)) _)
      iframe H0 H1 HS
      iintro ⟨H0, H1, HS⟩
      iframe

end Cert.KernelIdeal.Hand

end
-- ==== Proof.KI.Fold.lean ====
import proofs.«410163_j48198122996027_1_alg».proof.Proof.Gen.KernelIdeal.Launch
import proofs.«410163_j48198122996027_1_alg».proof.Proof.Gen.KernelIdeal.Skeleton
import proofs.«410163_j48198122996027_1_alg».proof.Proof.Gen.KernelIdeal.Points
import proofs.«410163_j48198122996027_1_alg».proof.Proof.KI.Cheb0
import proofs.«410163_j48198122996027_1_alg».proof.Proof.KI.Cheb1
import proofs.«410163_j48198122996027_1_alg».proof.Proof.KI.Cheb2
import proofs.«410163_j48198122996027_1_alg».proof.Proof.KI.Pool
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.SL.Sem
open Cert.KernelIdeal Cert.KernelIdeal.Gen

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N :=
  Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) :=
  Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N :=
  Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) :=
  Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N :=
  Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) :=
  Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b
def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N :=
  Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) :=
  Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

end Cert.KernelIdeal.Hand

end
-- ==== Proof.KI.Segs.lean ====
import proofs.«410163_j48198122996027_1_alg».proof.Proof.KI.Fold

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev T (W : Dev nD → Valuation τ sig (Elt F)) (c : Dev nD) : sProp 𝕄 :=
  iprop(StableHlo.held (c : Thread nD τ) (Pipeline.ucRefs τ sig) (W c) ∗ R c)
-- Host operations that allocate nothing, run from the contents `W`.
abbrev hseg (ops : List (HloOp τ sig (Elt F))) (hsub : ops.Forall fun op => op.bufs ⊆ StableHlo.tcRefs τ sig)
    (W : Dev nD → Valuation τ sig (Elt F))
    (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
-- The four regions differ only in their index and in the contents before and after: the rest is proved once.
def reg (p : Fin 4) (lf : Pipeline.LaunchFacts (nD := nD) (τ := τ) cfgs p) (W W' : Dev nD → Valuation τ sig (Elt F))
    (hbody : ∀ c, BodyObligation (pdats m ρ p c) defs₀ 𝒱₀ () Set.univ)
    (howed : ∀ c t, (pdats m ρ p c).owed t = 0) (hq : ∀ c w, (pdats m ρ p c).q w = fullShare)
    (hrec : ∀ c x, x ∈ (pdats m ρ p c).recorded 0)
    (hA : ∀ c w, (pdats m ρ p c).A w = W c (Pipeline.arrRef (cfgs p).spec w))
    (hin : ∀ c, (Pipeline.ΦA (cfgs p).spec c : sProp 𝕄) ⊢ (pdats m ρ p c).Φ 0)
    (hout : ∀ c, (pdats m ρ p c).Φ (Fin.last _) ⊢ (Pipeline.ΦA (cfgs p).spec c : sProp 𝕄))
    (hF : ∀ c w, (pdats m ρ p c).arrAt w (cfgs p).N = W' c (Pipeline.arrRef (cfgs p).spec w))
    (hrest : ∀ c b, b ∉ Finset.univ.image (Pipeline.arrRef (cfgs p).spec) → W' c (Proc.devRef .tc b) = W c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre := T W
  post := T W'
  X c := iprop(∃ r, prngReg c r)
  Y c := iprop(∃ r, prngReg c r)
  Z c := Pipeline.unscopedRest (Ix := Unit) (Name := ℕ) (U := UR sig nD τ) (Lvl := ℕ) (cfgs p).spec c fun b => W c b
  hentry c := by
    unfold Pipeline.Dat.owesAt Pipeline.owesWithin
    rw [Pipeline.ownSems0_none, howed c]
    have hsplit := Pipeline.arrays_of_unscopedBufs (p := p) (pcfgs (F := F)) adm (pdats m ρ) lf.win lf.arr_whole c ((pdats m ρ p c).share_full (hq c))
      (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%O, HO⟩; iexists O; isplitr; · ipureintro; exact fun x _ => Or.inl (hrec c x)
      iexact HO
    isplitl [Hp]; · iexact Hp
    iexact Hrest
  hin c := Entails.trans (by
    unfold Pipeline.ΦA
    iintro ⟨Hp, -, Hr⟩
    isplitl [Hr]; · iexact Hr
    iexact Hp) (hin c)
  hout c := (hout c).trans (by
    rw [Pipeline.ownSems0_none]; unfold Pipeline.ΦA
    iintro ⟨Hr, Hp⟩
    isplitl [Hp]; · iexact Hp
    isplitr; · iempintro
    iexact Hr)
  hexit c := by
    unfold Pipeline.Dat.owesAt Pipeline.owesWithin
    rw [howed c]
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c)) (fun b => W c b) (fun b => W' c b) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%O, -, HO⟩; iexists O; iexact HO

def reg0 := reg m ρ 0 launch0 (W3 m ρ) (W4 m ρ) (body_obligation0 (V3 m ρ)) (fun _ _ => rfl) (fun _ _ => rfl) (fun _ _ => trivial)
  (A_eq0 (V3 m ρ)) (fun _ => .rfl) (fun _ => .rfl) (hF0 m ρ) (hrest0 m ρ)
def reg1 := reg m ρ 1 launch1 (W5 m ρ) (W6 m ρ) (body_obligation1 (V5 m ρ)) (fun _ _ => rfl) (fun _ _ => rfl) (fun _ _ => trivial)
  (A_eq1 (V5 m ρ)) (fun _ => .rfl) (fun _ => .rfl) (hF1 m ρ) (hrest1 m ρ)
def reg2 := reg m ρ 2 launch2 (W7 m ρ) (W8 m ρ) (body_obligation2 (V7 m ρ)) (fun _ _ => rfl) (fun _ _ => rfl) (fun _ _ => trivial)
  (A_eq2 (V7 m ρ)) (fun _ => .rfl) (fun _ => .rfl) (hF2 m ρ) (hrest2 m ρ)
def reg3 := reg m ρ 3 launch3 (W9 m ρ) (W10 m ρ) (body_obligation3 (V9 m ρ)) (fun _ _ => rfl) (fun _ _ => rfl) (fun _ _ => trivial)
  (A_eq3 (V9 m ρ)) (hin3 (V9 m ρ)) (hout3 (V9 m ρ)) (hF3 m ρ) (hrest3 m ρ)

abbrev segs : List (Pipeline.Seg (pcfgs (F := F)) adm (pdats m ρ) () defs₀ 𝒱₀ L lv) :=
  [ .host (hseg hostOps0 hostOps0_sub (W0 m ρ)), .host (hseg hostOps0_1 hostOps0_1_sub (W1 m ρ)),
    .host (hseg hostOps0_2 hostOps0_2_sub (W2 m ρ)), .region (reg0 m ρ), .host (hseg hostOps1 hostOps1_sub (W4 m ρ)), .region (reg1 m ρ),
    .host (hseg hostOps2 hostOps2_sub (W6 m ρ)), .region (reg2 m ρ), .host (hseg hostOps3 hostOps3_sub (W8 m ρ)), .region (reg3 m ρ) ]
theorem main_run (c : Dev nD) : main (F := F) c = Pipeline.Seg.run (segs m ρ) := (main_chain c).trans (by chain_rfl)

set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := T (W0 m ρ)) (Tₙ := fun c => iprop(StableHlo.held (c : Thread nD τ) (Pipeline.ucRefs τ sig) (W10 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

end Cert.KernelIdeal.Hand

end
-- ==== Proof.KI.KeptHost.lean ====
import proofs.«410163_j48198122996027_1_alg».proof.Proof.Gen.KernelIdeal.Launch
import Idealize.ShloMosaic.Lib.StableHlo.Run
import Idealize.ShloMosaic.Lib.Pipeline.FrameSuffix

noncomputable section

namespace Cert.KernelIdeal.Hand

open Idealize.ShloMosaic Idealize.ShloMosaic.TcCoe Idealize.SL.Sem
open Cert.KernelIdeal Cert.KernelIdeal.Gen

variable {F : FTy → Type} [FloatOps F]

abbrev argRefs : List (Ref sig .tc) :=
  [main_arg0, main_arg1, main_arg2, main_arg3, main_arg4, main_arg5, main_arg6, main_arg7, main_arg8, main_arg9, main_arg10, main_arg11]

abbrev Keeps (ops : List (HloOp τ sig (Elt F))) : Prop := ops.Forall fun op => ∀ a ∈ argRefs, Proc.devRef .tc a ∉ op.writes

-- Every host operation writes one buffer, and it is none of the arguments.
theorem keeps_all : Keeps (F := F) hostOps0 ∧ Keeps (F := F) hostOps0_1 ∧ Keeps (F := F) hostOps0_2 ∧ Keeps (F := F) hostOps1
    ∧ Keeps (F := F) hostOps2 ∧ Keeps (F := F) hostOps3 := by
  simp only [Keeps, hostOps0, hostOps0_1, hostOps0_2, hostOps1, hostOps2, hostOps3, List.flatten_cons, List.flatten_nil,
    List.append_nil, List.cons_append, List.nil_append, List.Forall, StableHlo.nullary_writes, StableHlo.unary_writes,
    StableHlo.binary_writes, StableHlo.ternary_writes, StableHlo.quaternary_writes, StableHlo.reshape_writes,
    StableHlo.binaryIndexed_writes, Finset.mem_singleton]
  and_intros
  all_goals exact fun a ha => StableHlo.devRef_ne_of_ne (ne_of_mem_of_not_mem ha (by decide))

variable (W : Valuation τ sig (Elt F)) (a : Ref sig .tc) (ha : a ∈ argRefs)
include ha

theorem keep_of {ops : List (HloOp τ sig (Elt F))} (h : Keeps ops) : StableHlo.after ops W (Proc.devRef .tc a) = W (Proc.devRef .tc a) :=
  StableHlo.after_of_forall_not_mem _ _ fun op hop => List.forall_iff_forall_mem.mp h op hop a ha

theorem keep_hostOps0 : StableHlo.after (hostOps0 (F := F)) W (Proc.devRef .tc a) = W (Proc.devRef .tc a) := keep_of W a ha keeps_all.1
theorem keep_hostOps0_1 : StableHlo.after (hostOps0_1 (F := F)) W (Proc.devRef .tc a) = W (Proc.devRef .tc a) := keep_of W a ha keeps_all.2.1
theorem keep_hostOps0_2 : StableHlo.after (hostOps0_2 (F := F)) W (Proc.devRef .tc a) = W (Proc.devRef .tc a) := keep_of W a ha keeps_all.2.2.1
theorem keep_hostOps1 : StableHlo.after (hostOps1 (F := F)) W (Proc.devRef .tc a) = W (Proc.devRef .tc a) := keep_of W a ha keeps_all.2.2.2.1
theorem keep_hostOps2 : StableHlo.after (hostOps2 (F := F)) W (Proc.devRef .tc a) = W (Proc.devRef .tc a) := keep_of W a ha keeps_all.2.2.2.2.1
theorem keep_hostOps3 : StableHlo.after (hostOps3 (F := F)) W (Proc.devRef .tc a) = W (Proc.devRef .tc a) := keep_of W a ha keeps_all.2.2.2.2.2

end Cert.KernelIdeal.Hand

end
-- ==== Proof.KI.Args.lean ====
import proofs.«410163_j48198122996027_1_alg».proof.Proof.KI.Fold
import proofs.«410163_j48198122996027_1_alg».proof.Proof.KI.KeptHost

noncomputable section

namespace Cert.KernelIdeal.Hand

open Idealize.ShloMosaic Idealize.ShloMosaic.TcCoe Idealize.SL.Sem
open Cert.KernelIdeal Cert.KernelIdeal.Gen

variable {F : FTy → Type} [FloatOps F]

-- The exit contents agree with the entry contents at an argument that is no output window's array.
theorem keep_region {cfg : Pipeline.Cfg sig Λ₀} {c : Dev nD} (D : Pipeline.Dat τ (Elt F) Unit ℕ (UR sig nD τ) ℕ cfg c)
    {Wi Wo : Valuation τ sig (Elt F)}
    (harr : ∀ w, Wo (Proc.devRef .tc (Pipeline.arrRef cfg.spec w)) = D.arrAt w cfg.N)
    (hA : ∀ w, D.A w = Wi (Proc.devRef .tc (Pipeline.arrRef cfg.spec w)))
    (hne : ∀ b, (∀ w, Pipeline.arrRef cfg.spec w ≠ b) → Wo (Proc.devRef .tc b) = Wi (Proc.devRef .tc b))
    (a : Ref sig .tc) (ha : a ∈ argRefs)
    (h : ∀ a ∈ argRefs, ∀ w, Pipeline.arrRef cfg.spec w = a → (cfg.win w).isOut = false := by decide) :
    Wo (Proc.devRef .tc a) = Wi (Proc.devRef .tc a) := by
  by_cases hw : ∃ w, Pipeline.arrRef cfg.spec w = a
  · obtain ⟨w, rfl⟩ := hw; exact (harr w).trans ((D.arrAt_in w (h _ ha w rfl) _).trans (hA w))
  · exact hne a fun w e => hw ⟨w, e⟩

variable (m : (ℓ : Loc nD τ sig) → Buf (Elt F) ℓ) (ρ : Dev nD → PrngReg) (c : Dev nD) (a : Ref sig .tc) (ha : a ∈ argRefs)
include ha

theorem W3_arg : W3 m ρ c (Proc.devRef .tc a) = m ((c : Thread nD τ).loc a) :=
  (keep_hostOps0_2 _ a ha).trans ((keep_hostOps0_1 _ a ha).trans (keep_hostOps0 _ a ha))
theorem W4_arg : W4 m ρ c (Proc.devRef .tc a) = m ((c : Thread nD τ).loc a) :=
  (keep_region (dat0 (V3 m ρ) c) (W4_arr m ρ c) (A_eq0 (V3 m ρ) c) (W4_of_ne m ρ c) a ha).trans (W3_arg m ρ c a ha)
theorem W5_arg : W5 m ρ c (Proc.devRef .tc a) = m ((c : Thread nD τ).loc a) :=
  (keep_hostOps1 _ a ha).trans (W4_arg m ρ c a ha)
theorem W6_arg : W6 m ρ c (Proc.devRef .tc a) = m ((c : Thread nD τ).loc a) :=
  (keep_region (dat1 (V5 m ρ) c) (W6_arr m ρ c) (A_eq1 (V5 m ρ) c) (W6_of_ne m ρ c) a ha).trans (W5_arg m ρ c a ha)
theorem W7_arg : W7 m ρ c (Proc.devRef .tc a) = m ((c : Thread nD τ).loc a) :=
  (keep_hostOps2 _ a ha).trans (W6_arg m ρ c a ha)
theorem W8_arg : W8 m ρ c (Proc.devRef .tc a) = m ((c : Thread nD τ).loc a) :=
  (keep_region (dat2 (V7 m ρ) c) (W8_arr m ρ c) (A_eq2 (V7 m ρ) c) (W8_of_ne m ρ c) a ha).trans (W7_arg m ρ c a ha)
theorem W9_arg : W9 m ρ c (Proc.devRef .tc a) = m ((c : Thread nD τ).loc a) :=
  (keep_hostOps3 _ a ha).trans (W8_arg m ρ c a ha)
theorem W10_arg : W10 m ρ c (Proc.devRef .tc a) = m ((c : Thread nD τ).loc a) :=
  (keep_region (dat3 (V9 m ρ) c) (W10_arr m ρ c) (A_eq3 (V9 m ρ) c) (W10_of_ne m ρ c) a ha).trans (W9_arg m ρ c a ha)

end Cert.KernelIdeal.Hand

end
-- ==== Proof.KI.Frame.lean ====
import proofs.«410163_j48198122996027_1_alg».proof.Proof.KI.Segs
import proofs.«410163_j48198122996027_1_alg».proof.Proof.KI.Args

noncomputable section

namespace Cert.KernelIdeal.Hand

open Idealize.ShloMosaic Idealize.ShloMosaic.TcCoe Idealize.SL.Sem
open Cert.KernelIdeal Cert.KernelIdeal.Gen

variable {F : FTy → Type} [FloatOps F]

variable (m : (ℓ : Loc nD τ sig) → Buf (Elt F) ℓ) (ρ : Dev nD → PrngReg)

theorem arg_kept (s : MemSt nD τ sig (Elt F)) (c : Dev nD)
    (h : ∀ b ∈ Pipeline.ucRefs τ sig, s.mem (((c : Thread nD τ)).1, b) = W10 m ρ c b) (a : Ref sig .tc) (ha : a ∈ argRefs)
    (hu : ¬ (Proc.devRef .tc a : DevRef τ sig).isScoped) :
    s.mem ((c.tc : Thread nD τ).loc a) = m ((c.tc : Thread nD τ).loc a) :=
  (h _ (mem_uc a hu)).trans (W10_arg m ρ c a ha)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    have k := arg_kept m ρ r.2 c (h c)
    and_intros <;> exact k _ (by decide) (by decide)) (run_main m ρ)

end Cert.KernelIdeal.Hand

end
-- ==== Proof.KI.HostSpec.lean ====
import proofs.«410163_j48198122996027_1_alg».proof.Proof.Gen.KernelIdeal

noncomputable section

namespace Cert.KernelIdeal.Hand

open Cert.KernelIdeal Cert.KernelIdeal.Gen
open Idealize.ShloMosaic

variable {F : FTy → Type} [FloatOps F]

def srcT (ei : Vec F S2x800000 .i32) : Vec F S800000 .i32 :=
  fun i => shapeCast S800000 (extractStridedSlice S1x800000 ![0, 0] ei slices_S2x800000_S1x800000_0_0) shapeCasts_S1x800000_S800000 i

def dstT (ei : Vec F S2x800000 .i32) : Vec F S800000 .i32 :=
  fun i => shapeCast S800000 (extractStridedSlice S1x800000 ![1, 0] ei slices_S2x800000_S1x800000_1_0) shapeCasts_S1x800000_S800000 i

def wrapT (s : Vec F S800000 .i32) : Vec F S800000 .i32 :=
  select (cmpi .slt s (broadcastInDim S800000 ![] bcast_S_S800000 (constantI S_ 32 0#32)))
    (addi s (broadcastInDim S800000 ![] bcast_S_S800000 (constantI S_ 32 50000#32))) s

def degT (src : Vec F S800000 .i32) (ea : Vec F S800000 .f32) : Vec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 src) ea

def dinvT (deg : Vec F S50000 .f32) : Vec F S50000 .f32 :=
  select (cmpf .ogt deg (broadcastInDim S50000 ![] bcast_S_S50000 (constant S_ .f32 0x00000000#32)))
    (Host.rsqrt deg)
    (broadcastInDim S50000 ![] bcast_S_S50000 (constant S_ .f32 0x00000000#32))

def normT (src dst : Vec F S800000 .i32) (ea : Vec F S800000 .f32) : Vec F S800000 .f32 :=
  mulf
    (mulf
      (Host.negf (Host.gather gather_S50000_S800000x1_S800000_n_0_n_n_0_1_1 (dinvT (degT src ea))
        (broadcastInDim S800000x1 ![0] bcast_S800000_S800000x1_0 (wrapT src))))
      ea)
    (Host.gather gather_S50000_S800000x1_S800000_n_0_n_n_0_1_1 (dinvT (degT src ea))
      (broadcastInDim S800000x1 ![0] bcast_S800000_S800000x1_0 (wrapT dst)))

def propT (src dst : Vec F S800000 .i32) (norm : Vec F S800000 .f32) (z : Vec F S50000x64 .f32) : Vec F S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (mulf
      (broadcastInDim S800000x64 ![0, 1] bcast_S800000x1_S800000x64_0_1
        (broadcastInDim S800000x1 ![0] bcast_S800000_S800000x1_0 norm))
      (Host.gather gather_S50000x64_S800000x1_S800000x64_1_0_n_n_0_1_164 z
        (broadcastInDim S800000x1 ![0] bcast_S800000_S800000x1_0 (wrapT src))))

def chebStepT (src dst : Vec F S800000 .i32) (norm : Vec F S800000 .f32) (t tp : Vec F S50000x64 .f32) : Vec F S50000x64 .f32 :=
  subf (mulf (broadcastInDim S50000x64 ![] bcast_S_S50000x64 (constant S_ .f32 0x40000000#32)) (propT src dst norm t)) tp

def cheb1T (src dst : Vec F S800000 .i32) (norm : Vec F S800000 .f32) (z : Vec F S50000x64 .f32) : Vec F S50000x64 .f32 :=
  propT src dst norm z

def cheb2T (src dst : Vec F S800000 .i32) (norm : Vec F S800000 .f32) (z : Vec F S50000x64 .f32) : Vec F S50000x64 .f32 :=
  chebStepT src dst norm (cheb1T src dst norm z) z

def cheb3T (src dst : Vec F S800000 .i32) (norm : Vec F S800000 .f32) (z : Vec F S50000x64 .f32) : Vec F S50000x64 .f32 :=
  chebStepT src dst norm (cheb2T src dst norm z) (cheb1T src dst norm z)

def cheb4T (src dst : Vec F S800000 .i32) (norm : Vec F S800000 .f32) (z : Vec F S50000x64 .f32) : Vec F S50000x64 .f32 :=
  chebStepT src dst norm (cheb3T src dst norm z) (cheb2T src dst norm z)

def biasRow64T (b : Vec F S64 .f32) : Vec F S1x64 .f32 :=
  fun i => shapeCast S1x64 b shapeCasts_S64_S1x64 i

def biasRow128T (b : Vec F S128 .f32) : Vec F S1x128 .f32 :=
  fun i => shapeCast S1x128 b shapeCasts_S128_S1x128 i

def biasRow2T (b : Vec F S2 .f32) : Vec F S1x2 .f32 :=
  fun i => shapeCast S1x2 b shapeCasts_S2_S1x2 i

def onehotT (batch : Vec F S50000 .i32) : Vec F S50000x64 .f32 :=
  uitofp .f32
    (cmpi .eq
      (broadcastInDim S50000x64 ![0, 1] bcast_S50000x1_S50000x64_0_1
        (broadcastInDim S50000x1 ![0] bcast_S50000_S50000x1_0 batch))
      (broadcastInDim S50000x64 ![0, 1] bcast_S1x64_S50000x64_0_1
        (broadcastInDim S1x64 ![1] bcast_S64_S1x64_1 (iotaInDim S64 32 0))))

def countsT (batch : Vec F S50000 .i32) : Vec F S64x1 .f32 :=
  fun i => shapeCast S64x1 (Host.reduceAdd (onehotT batch) (constant S_ .f32 0x00000000#32) reducesTo_S50000x64_S64_d0 h_S_) shapeCasts_S64_S64x1 i

end Cert.KernelIdeal.Hand
-- ==== Proof.KI.HostK.lean ====
import proofs.«410163_j48198122996027_1_alg».proof.Proof.Gen.KernelIdeal.Launch
import proofs.«410163_j48198122996027_1_alg».proof.Proof.KI.HostSpec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe

variable {F : FTy → Type} [FloatOps F]

set_option maxHeartbeats 8000000 in
theorem host0_v1 (W : Valuation τ sig (Elt F)) :
    StableHlo.after hostOps0_2 (StableHlo.after hostOps0_1 (StableHlo.after hostOps0 W)) (Proc.devRef .tc main_v1)
      = srcT (W (Proc.devRef .tc main_arg1)) := by
  after_results_simp
  rfl

set_option maxHeartbeats 8000000 in
theorem host0_v3 (W : Valuation τ sig (Elt F)) :
    StableHlo.after hostOps0_2 (StableHlo.after hostOps0_1 (StableHlo.after hostOps0 W)) (Proc.devRef .tc main_v3)
      = dstT (W (Proc.devRef .tc main_arg1)) := by
  after_results_simp
  rfl

set_option maxHeartbeats 8000000 in
theorem host0_v27 (W : Valuation τ sig (Elt F)) :
    StableHlo.after hostOps0_2 (StableHlo.after hostOps0_1 (StableHlo.after hostOps0 W)) (Proc.devRef .tc main_v27)
      = normT (srcT (W (Proc.devRef .tc main_arg1))) (dstT (W (Proc.devRef .tc main_arg1))) (W (Proc.devRef .tc main_arg2)) := by
  after_results_simp
  rfl

set_option maxHeartbeats 8000000 in
theorem host0_v40 (W : Valuation τ sig (Elt F)) :
    StableHlo.after hostOps0_2 (StableHlo.after hostOps0_1 (StableHlo.after hostOps0 W)) (Proc.devRef .tc main_v40)
      = cheb1T (srcT (W (Proc.devRef .tc main_arg1))) (dstT (W (Proc.devRef .tc main_arg1)))
          (normT (srcT (W (Proc.devRef .tc main_arg1))) (dstT (W (Proc.devRef .tc main_arg1))) (W (Proc.devRef .tc main_arg2)))
          (W (Proc.devRef .tc main_arg0)) := by
  after_results_simp
  rfl

set_option maxHeartbeats 8000000 in
theorem host0_v56 (W : Valuation τ sig (Elt F)) :
    StableHlo.after hostOps0_2 (StableHlo.after hostOps0_1 (StableHlo.after hostOps0 W)) (Proc.devRef .tc main_v56)
      = cheb2T (srcT (W (Proc.devRef .tc main_arg1))) (dstT (W (Proc.devRef .tc main_arg1)))
          (normT (srcT (W (Proc.devRef .tc main_arg1))) (dstT (W (Proc.devRef .tc main_arg1))) (W (Proc.devRef .tc main_arg2)))
          (W (Proc.devRef .tc main_arg0)) := by
  after_results_simp
  rfl

set_option maxHeartbeats 8000000 in
theorem host0_v72 (W : Valuation τ sig (Elt F)) :
    StableHlo.after hostOps0_2 (StableHlo.after hostOps0_1 (StableHlo.after hostOps0 W)) (Proc.devRef .tc main_v72)
      = cheb3T (srcT (W (Proc.devRef .tc main_arg1))) (dstT (W (Proc.devRef .tc main_arg1)))
          (normT (srcT (W (Proc.devRef .tc main_arg1))) (dstT (W (Proc.devRef .tc main_arg1))) (W (Proc.devRef .tc main_arg2)))
          (W (Proc.devRef .tc main_arg0)) := by
  after_results_simp
  rfl

set_option maxHeartbeats 8000000 in
theorem host0_v88 (W : Valuation τ sig (Elt F)) :
    StableHlo.after hostOps0_2 (StableHlo.after hostOps0_1 (StableHlo.after hostOps0 W)) (Proc.devRef .tc main_v88)
      = cheb4T (srcT (W (Proc.devRef .tc main_arg1))) (dstT (W (Proc.devRef .tc main_arg1)))
          (normT (srcT (W (Proc.devRef .tc main_arg1))) (dstT (W (Proc.devRef .tc main_arg1))) (W (Proc.devRef .tc main_arg2)))
          (W (Proc.devRef .tc main_arg0)) := by
  after_results_simp
  rfl

set_option maxHeartbeats 8000000 in
theorem host0_v89 (W : Valuation τ sig (Elt F)) :
    StableHlo.after hostOps0_2 (StableHlo.after hostOps0_1 (StableHlo.after hostOps0 W)) (Proc.devRef .tc main_v89)
      = biasRow64T (W (Proc.devRef .tc main_arg5)) := by
  after_results_simp
  rfl

set_option maxHeartbeats 4000000 in
theorem host1_v103 (W : Valuation τ sig (Elt F)) :
    StableHlo.after hostOps1 W (Proc.devRef .tc main_v103)
      = cheb1T (W (Proc.devRef .tc main_v1)) (W (Proc.devRef .tc main_v3)) (W (Proc.devRef .tc main_v27)) (W (Proc.devRef .tc main_v90)) := by
  after_results_simp
  rfl

set_option maxHeartbeats 4000000 in
theorem host1_v119 (W : Valuation τ sig (Elt F)) :
    StableHlo.after hostOps1 W (Proc.devRef .tc main_v119)
      = cheb2T (W (Proc.devRef .tc main_v1)) (W (Proc.devRef .tc main_v3)) (W (Proc.devRef .tc main_v27)) (W (Proc.devRef .tc main_v90)) := by
  after_results_simp
  rfl

set_option maxHeartbeats 4000000 in
theorem host1_v135 (W : Valuation τ sig (Elt F)) :
    StableHlo.after hostOps1 W (Proc.devRef .tc main_v135)
      = cheb3T (W (Proc.devRef .tc main_v1)) (W (Proc.devRef .tc main_v3)) (W (Proc.devRef .tc main_v27)) (W (Proc.devRef .tc main_v90)) := by
  after_results_simp
  rfl

set_option maxHeartbeats 4000000 in
theorem host1_v151 (W : Valuation τ sig (Elt F)) :
    StableHlo.after hostOps1 W (Proc.devRef .tc main_v151)
      = cheb4T (W (Proc.devRef .tc main_v1)) (W (Proc.devRef .tc main_v3)) (W (Proc.devRef .tc main_v27)) (W (Proc.devRef .tc main_v90)) := by
  after_results_simp
  rfl

set_option maxHeartbeats 4000000 in
theorem host1_v152 (W : Valuation τ sig (Elt F)) :
    StableHlo.after hostOps1 W (Proc.devRef .tc main_v152) = biasRow64T (W (Proc.devRef .tc main_arg7)) := by
  after_results_simp
  rfl

set_option maxHeartbeats 4000000 in
theorem host2_v166 (W : Valuation τ sig (Elt F)) :
    StableHlo.after hostOps2 W (Proc.devRef .tc main_v166)
      = cheb1T (W (Proc.devRef .tc main_v1)) (W (Proc.devRef .tc main_v3)) (W (Proc.devRef .tc main_v27)) (W (Proc.devRef .tc main_v153)) := by
  after_results_simp
  rfl

set_option maxHeartbeats 4000000 in
theorem host2_v182 (W : Valuation τ sig (Elt F)) :
    StableHlo.after hostOps2 W (Proc.devRef .tc main_v182)
      = cheb2T (W (Proc.devRef .tc main_v1)) (W (Proc.devRef .tc main_v3)) (W (Proc.devRef .tc main_v27)) (W (Proc.devRef .tc main_v153)) := by
  after_results_simp
  rfl

set_option maxHeartbeats 4000000 in
theorem host2_v198 (W : Valuation τ sig (Elt F)) :
    StableHlo.after hostOps2 W (Proc.devRef .tc main_v198)
      = cheb3T (W (Proc.devRef .tc main_v1)) (W (Proc.devRef .tc main_v3)) (W (Proc.devRef .tc main_v27)) (W (Proc.devRef .tc main_v153)) := by
  after_results_simp
  rfl

set_option maxHeartbeats 4000000 in
theorem host2_v214 (W : Valuation τ sig (Elt F)) :
    StableHlo.after hostOps2 W (Proc.devRef .tc main_v214)
      = cheb4T (W (Proc.devRef .tc main_v1)) (W (Proc.devRef .tc main_v3)) (W (Proc.devRef .tc main_v27)) (W (Proc.devRef .tc main_v153)) := by
  after_results_simp
  rfl

set_option maxHeartbeats 4000000 in
theorem host2_v215 (W : Valuation τ sig (Elt F)) :
    StableHlo.after hostOps2 W (Proc.devRef .tc main_v215) = biasRow128T (W (Proc.devRef .tc main_arg9)) := by
  after_results_simp
  rfl

theorem host3_v223 (W : Valuation τ sig (Elt F)) :
    StableHlo.after hostOps3 W (Proc.devRef .tc main_v223) = onehotT (W (Proc.devRef .tc main_arg3)) := by
  after_results_simp
  rfl

theorem host3_v225 (W : Valuation τ sig (Elt F)) :
    StableHlo.after hostOps3 W (Proc.devRef .tc main_v225) = countsT (W (Proc.devRef .tc main_arg3)) := by
  after_results_simp
  rfl

theorem host3_v226 (W : Valuation τ sig (Elt F)) :
    StableHlo.after hostOps3 W (Proc.devRef .tc main_v226) = biasRow2T (W (Proc.devRef .tc main_arg11)) := by
  after_results_simp
  rfl

abbrev host0W : List (Ref sig .tc) :=
  [
    main_v0, main_v1, main_v2, main_v3, main_cst, main_v4, main_v5, main_v6, main_cst_0, main_v7, main_v8, main_v9,
    main_cst_1, main_call0_v0, main_call0_v1, main_v10, main_c, main_v11, main_v12, main_c_2, main_v13, main_v14,
    main_v15, main_v16, main_v17, main_v18, main_v19, main_c_3, main_v20, main_v21, main_c_4, main_v22, main_v23,
    main_v24, main_v25, main_v26, main_v27, main_v28, main_c_5, main_v29, main_v30, main_c_6, main_v31, main_v32,
    main_v33, main_v34, main_v35, main_v36, main_v37, main_cst_7, main_v38, main_v39, main_v40, main_v41, main_c_8,
    main_v42, main_v43, main_c_9, main_v44, main_v45, main_v46, main_v47, main_v48, main_v49, main_v50, main_cst_10,
    main_v51, main_v52, main_v53, main_cst_11, main_v54, main_v55, main_v56, main_v57, main_c_12, main_v58,
    main_v59, main_c_13, main_v60, main_v61, main_v62, main_v63, main_v64, main_v65, main_v66, main_cst_14,
    main_v67, main_v68, main_v69, main_cst_15, main_v70, main_v71, main_v72, main_v73, main_c_16, main_v74,
    main_v75, main_c_17, main_v76, main_v77, main_v78, main_v79, main_v80, main_v81, main_v82, main_cst_18,
    main_v83, main_v84, main_v85, main_cst_19, main_v86, main_v87, main_v88, main_v89 ]

abbrev host1W : List (Ref sig .tc) :=
  [
    main_v91, main_c_20, main_v92, main_v93, main_c_21, main_v94, main_v95, main_v96, main_v97, main_v98, main_v99,
    main_v100, main_cst_22, main_v101, main_v102, main_v103, main_v104, main_c_23, main_v105, main_v106, main_c_24,
    main_v107, main_v108, main_v109, main_v110, main_v111, main_v112, main_v113, main_cst_25, main_v114, main_v115,
    main_v116, main_cst_26, main_v117, main_v118, main_v119, main_v120, main_c_27, main_v121, main_v122, main_c_28,
    main_v123, main_v124, main_v125, main_v126, main_v127, main_v128, main_v129, main_cst_29, main_v130, main_v131,
    main_v132, main_cst_30, main_v133, main_v134, main_v135, main_v136, main_c_31, main_v137, main_v138, main_c_32,
    main_v139, main_v140, main_v141, main_v142, main_v143, main_v144, main_v145, main_cst_33, main_v146, main_v147,
    main_v148, main_cst_34, main_v149, main_v150, main_v151, main_v152 ]

abbrev host2W : List (Ref sig .tc) :=
  [
    main_v154, main_c_35, main_v155, main_v156, main_c_36, main_v157, main_v158, main_v159, main_v160, main_v161,
    main_v162, main_v163, main_cst_37, main_v164, main_v165, main_v166, main_v167, main_c_38, main_v168, main_v169,
    main_c_39, main_v170, main_v171, main_v172, main_v173, main_v174, main_v175, main_v176, main_cst_40, main_v177,
    main_v178, main_v179, main_cst_41, main_v180, main_v181, main_v182, main_v183, main_c_42, main_v184, main_v185,
    main_c_43, main_v186, main_v187, main_v188, main_v189, main_v190, main_v191, main_v192, main_cst_44, main_v193,
    main_v194, main_v195, main_cst_45, main_v196, main_v197, main_v198, main_v199, main_c_46, main_v200, main_v201,
    main_c_47, main_v202, main_v203, main_v204, main_v205, main_v206, main_v207, main_v208, main_cst_48, main_v209,
    main_v210, main_v211, main_cst_49, main_v212, main_v213, main_v214, main_v215 ]

abbrev host3W : List (Ref sig .tc) :=
  [
    main_v217, main_v218, main_v219, main_v220, main_v221, main_v222, main_v223, main_cst_50, main_v224, main_v225,
    main_v226 ]

set_option maxHeartbeats 4000000 in
theorem hostOps0_writes : (hostOps0 : List (HloOp τ sig (Elt F))).Forall fun op => op.writes ⊆ (host0W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

set_option maxHeartbeats 4000000 in
theorem hostOps0_1_writes : (hostOps0_1 : List (HloOp τ sig (Elt F))).Forall fun op => op.writes ⊆ (host0W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

set_option maxHeartbeats 4000000 in
theorem hostOps0_2_writes : (hostOps0_2 : List (HloOp τ sig (Elt F))).Forall fun op => op.writes ⊆ (host0W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

set_option maxHeartbeats 4000000 in
theorem hostOps1_writes : (hostOps1 : List (HloOp τ sig (Elt F))).Forall fun op => op.writes ⊆ (host1W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

set_option maxHeartbeats 4000000 in
theorem hostOps2_writes : (hostOps2 : List (HloOp τ sig (Elt F))).Forall fun op => op.writes ⊆ (host2W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

set_option maxHeartbeats 4000000 in
theorem hostOps3_writes : (hostOps3 : List (HloOp τ sig (Elt F))).Forall fun op => op.writes ⊆ (host3W.map (Proc.devRef (τ := τ) .tc)).toFinset := by
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem host0_keep (W : Valuation τ sig (Elt F)) {r : Ref sig .tc} (h : r ∉ host0W) :
    StableHlo.after hostOps0_2 (StableHlo.after hostOps0_1 (StableHlo.after hostOps0 W)) (Proc.devRef .tc r) = W (Proc.devRef .tc r) :=
  ((StableHlo.after_of_writes_sub hostOps0_2 _ hostOps0_2_writes h).trans
    (StableHlo.after_of_writes_sub hostOps0_1 _ hostOps0_1_writes h)).trans
    (StableHlo.after_of_writes_sub hostOps0 _ hostOps0_writes h)

theorem host1_keep (W : Valuation τ sig (Elt F)) {r : Ref sig .tc} (h : r ∉ host1W) :
    StableHlo.after hostOps1 W (Proc.devRef .tc r) = W (Proc.devRef .tc r) :=
  StableHlo.after_of_writes_sub hostOps1 _ hostOps1_writes h

theorem host2_keep (W : Valuation τ sig (Elt F)) {r : Ref sig .tc} (h : r ∉ host2W) :
    StableHlo.after hostOps2 W (Proc.devRef .tc r) = W (Proc.devRef .tc r) :=
  StableHlo.after_of_writes_sub hostOps2 _ hostOps2_writes h

theorem host3_keep (W : Valuation τ sig (Elt F)) {r : Ref sig .tc} (h : r ∉ host3W) :
    StableHlo.after hostOps3 W (Proc.devRef .tc r) = W (Proc.devRef .tc r) :=
  StableHlo.after_of_writes_sub hostOps3 _ hostOps3_writes h

theorem host1_v1 (W : Valuation τ sig (Elt F)) : StableHlo.after hostOps1 W (Proc.devRef .tc main_v1) = W (Proc.devRef .tc main_v1) := host1_keep W (by decide)
theorem host1_v3 (W : Valuation τ sig (Elt F)) : StableHlo.after hostOps1 W (Proc.devRef .tc main_v3) = W (Proc.devRef .tc main_v3) := host1_keep W (by decide)
theorem host1_v27 (W : Valuation τ sig (Elt F)) : StableHlo.after hostOps1 W (Proc.devRef .tc main_v27) = W (Proc.devRef .tc main_v27) := host1_keep W (by decide)
theorem host1_v90 (W : Valuation τ sig (Elt F)) : StableHlo.after hostOps1 W (Proc.devRef .tc main_v90) = W (Proc.devRef .tc main_v90) := host1_keep W (by decide)
theorem host2_v1 (W : Valuation τ sig (Elt F)) : StableHlo.after hostOps2 W (Proc.devRef .tc main_v1) = W (Proc.devRef .tc main_v1) := host2_keep W (by decide)
theorem host2_v3 (W : Valuation τ sig (Elt F)) : StableHlo.after hostOps2 W (Proc.devRef .tc main_v3) = W (Proc.devRef .tc main_v3) := host2_keep W (by decide)
theorem host2_v27 (W : Valuation τ sig (Elt F)) : StableHlo.after hostOps2 W (Proc.devRef .tc main_v27) = W (Proc.devRef .tc main_v27) := host2_keep W (by decide)
theorem host2_v153 (W : Valuation τ sig (Elt F)) : StableHlo.after hostOps2 W (Proc.devRef .tc main_v153) = W (Proc.devRef .tc main_v153) := host2_keep W (by decide)
theorem host3_v216 (W : Valuation τ sig (Elt F)) : StableHlo.after hostOps3 W (Proc.devRef .tc main_v216) = W (Proc.devRef .tc main_v216) := host3_keep W (by decide)

end Cert.KernelIdeal.Hand
-- ==== Proof.KI.ChebPay.lean ====
import proofs.«410163_j48198122996027_1_alg».proof.Proof.Gen.KernelIdeal.Skeleton
import Idealize.ShloMosaic.Lib.KernelVsHost
import Idealize.ShloMosaic.Lib.StackMember
import Idealize.ShloMosaic.Lib.ValueLayout

noncomputable section

open scoped BigOperators

namespace Cert.KernelIdeal.Hand

open Cert.KernelIdeal Cert.KernelIdeal.Gen Idealize.ShloMosaic Idealize.ShloMosaic.ValueIdx

section
variable {m k n : ℕ}

/-- The product of a row block with a matrix carried under a leading unit axis, accumulated from zero. -/
def mmW (x : FVec Ideal ⟨2, ![m, k]⟩ .f32) (w : FVec Ideal ⟨3, ![1, k, n]⟩ .f32)
    (h : (⟨3, ![1, k, n]⟩ : Shape).ShapeCasts ⟨2, ![k, n]⟩) : FVec Ideal ⟨2, ![m, n]⟩ .f32 :=
  matmul (DotDims.plain m k n) none x (shapeCast ⟨2, ![k, n]⟩ w h) (constant ⟨2, ![m, n]⟩ .f32 0x00000000#32)

/-- An entry of a plain matrix product is the sum over the contracted coordinate. -/
theorem mmW_apply (x : FVec Ideal ⟨2, ![m, k]⟩ .f32) (w : FVec Ideal ⟨3, ![1, k, n]⟩ .f32)
    (h : (⟨3, ![1, k, n]⟩ : Shape).ShapeCasts ⟨2, ![k, n]⟩) (r : Fin m) (j : Fin n) :
    mmW x w h (ix2 r j) = ∑ c : Fin k, x (ix2 r c) * w (ix3 0 c j) := by
  unfold mmW
  rw [matmul_zero_eq_dotGeneral, StackMember.dotGeneral_plain_apply]
  simp only [shapeCast_1ab_ab_apply]

/-- Five such products summed left to right, a bias row added down the rows, the result cut off below at zero. -/
theorem chebPay_apply (x0 x1 x2 x3 x4 : FVec Ideal ⟨2, ![m, k]⟩ .f32) (w0 w1 w2 w3 w4 : FVec Ideal ⟨3, ![1, k, n]⟩ .f32)
    (b : FVec Ideal ⟨2, ![1, n]⟩ .f32) (h : (⟨3, ![1, k, n]⟩ : Shape).ShapeCasts ⟨2, ![k, n]⟩)
    (hb : (⟨2, ![1, n]⟩ : Shape).Broadcasts ⟨2, ![m, n]⟩) (r : Fin m) (j : Fin n) :
    maximumf (addf (addf (addf (addf (addf (mmW x0 w0 h) (mmW x1 w1 h)) (mmW x2 w2 h)) (mmW x3 w3 h)) (mmW x4 w4 h))
        (broadcastTo ⟨2, ![m, n]⟩ b hb)) (broadcast ⟨2, ![m, n]⟩ (Scalar.ofBits .f32 0x00000000#32)) (ix2 r j)
      = max ((((((∑ c : Fin k, x0 (ix2 r c) * w0 (ix3 0 c j)) + ∑ c : Fin k, x1 (ix2 r c) * w1 (ix3 0 c j))
          + ∑ c : Fin k, x2 (ix2 r c) * w2 (ix3 0 c j)) + ∑ c : Fin k, x3 (ix2 r c) * w3 (ix3 0 c j))
          + ∑ c : Fin k, x4 (ix2 r c) * w4 (ix3 0 c j)) + b (ix2 0 j)) 0 := by
  simp only [maximumf_apply, addf_apply, mmW_apply, broadcastTo_1b_ab_apply, broadcast_apply]
  exact congrArg _ Ideal.ofBits_zero_f32

end

theorem k0_pay_apply (v0 v1 v2 v3 v4 : Vec Ideal S2000x64 .f32) (w0 w1 w2 w3 w4 : Vec Ideal S1x64x64 .f32)
    (b : Vec Ideal S1x64 .f32) (r : Fin 2000) (j : Fin 64) :
    k0_pay1 (F := Ideal) (k0_pay2 v0 w0 v1 w1 v2 w2 v3 w3 v4 w4) b (ix2 r j)
      = max ((((((∑ k : Fin 64, v0 (ix2 r k) * w0 (ix3 0 k j)) + ∑ k : Fin 64, v1 (ix2 r k) * w1 (ix3 0 k j))
          + ∑ k : Fin 64, v2 (ix2 r k) * w2 (ix3 0 k j)) + ∑ k : Fin 64, v3 (ix2 r k) * w3 (ix3 0 k j))
          + ∑ k : Fin 64, v4 (ix2 r k) * w4 (ix3 0 k j)) + b (ix2 0 j)) 0 :=
  (chebPay_apply v0 _ _ _ _ w0 w1 w2 w3 w4 _ shapeCasts_S1x64x64_S64x64 broadcasts_S1x64_S2000x64 r j).trans
    (by simp only [shapeCast_self])

theorem k1_pay_apply (v0 v1 v2 v3 v4 : Vec Ideal S2000x64 .f32) (w0 w1 w2 w3 w4 : Vec Ideal S1x64x64 .f32)
    (b : Vec Ideal S1x64 .f32) (r : Fin 2000) (j : Fin 64) :
    k1_pay1 (F := Ideal) (k1_pay2 v0 w0 v1 w1 v2 w2 v3 w3 v4 w4) b (ix2 r j)
      = max ((((((∑ k : Fin 64, v0 (ix2 r k) * w0 (ix3 0 k j)) + ∑ k : Fin 64, v1 (ix2 r k) * w1 (ix3 0 k j))
          + ∑ k : Fin 64, v2 (ix2 r k) * w2 (ix3 0 k j)) + ∑ k : Fin 64, v3 (ix2 r k) * w3 (ix3 0 k j))
          + ∑ k : Fin 64, v4 (ix2 r k) * w4 (ix3 0 k j)) + b (ix2 0 j)) 0 :=
  (chebPay_apply _ _ _ _ _ w0 w1 w2 w3 w4 _ shapeCasts_S1x64x64_S64x64 broadcasts_S1x64_S2000x64 r j).trans
    (by simp only [shapeCast_self])

theorem k2_pay_apply (v0 v1 v2 v3 v4 : Vec Ideal S2000x64 .f32) (w0 w1 w2 w3 w4 : Vec Ideal S1x64x128 .f32)
    (b : Vec Ideal S1x128 .f32) (r : Fin 2000) (j : Fin 128) :
    k2_pay1 (F := Ideal) (k2_pay2 v0 w0 v1 w1 v2 w2 v3 w3 v4 w4) b (ix2 r j)
      = max ((((((∑ k : Fin 64, v0 (ix2 r k) * w0 (ix3 0 k j)) + ∑ k : Fin 64, v1 (ix2 r k) * w1 (ix3 0 k j))
          + ∑ k : Fin 64, v2 (ix2 r k) * w2 (ix3 0 k j)) + ∑ k : Fin 64, v3 (ix2 r k) * w3 (ix3 0 k j))
          + ∑ k : Fin 64, v4 (ix2 r k) * w4 (ix3 0 k j)) + b (ix2 0 j)) 0 :=
  (chebPay_apply _ _ _ _ _ w0 w1 w2 w3 w4 _ shapeCasts_S1x64x128_S64x128 broadcasts_S1x128_S2000x128 r j).trans
    (by simp only [shapeCast_self])

/-- Coordinates `(a R + p, b K + k)` with `a = t` and `b = 0` name row `t R + p`, column `k`. -/
theorem tile_idx {N K R a b t p : ℕ} {i : Shape.Idx ⟨2, ![N, K]⟩} {n : Fin N} {k : Fin K} (e : a = t ∧ b = 0)
    (hn : n.val = t * R + p) (h0 : (i 0).val = a * R + 1 * p) (h1 : (i 1).val = b * K + 1 * k.val) : i = ix2 n k := by
  obtain ⟨rfl, rfl⟩ := e
  exact Shape.idx_ext₂ (show (i 0).val = n.val by omega) (show (i 1).val = k.val by omega)

/-- In a block that is its whole array, slice `o` along the first axis at `(0, k, q)` is the array's `(o, k, q)`. -/
theorem stack_idx {A K H a b d : ℕ} {i : Shape.Idx ⟨3, ![A, K, H]⟩} {o : Fin A} {k : Fin K} {q : Fin H}
    (e : a = 0 ∧ b = 0 ∧ d = 0) (h0 : (i 0).val = a * A + 1 * (o.val + 1 * 0))
    (h1 : (i 1).val = b * K + 1 * (0 + 1 * k.val)) (h2 : (i 2).val = d * H + 1 * (0 + 1 * q.val)) : i = ix3 o k q := by
  obtain ⟨rfl, rfl, rfl⟩ := e
  rw [eq_ix3 i]
  congr 1 <;> apply Fin.ext <;> omega

end Cert.KernelIdeal.Hand
-- ==== Proof.KI.Spec.lean ====
import proofs.«410163_j48198122996027_1_alg».proof.KernelIdeal
import Idealize.ShloMosaic.Lib.ValueIdx
import Idealize.ShloMosaic.PureOps.Ideal

noncomputable section

open scoped BigOperators

namespace Cert.KernelIdeal.Hand

open Cert.KernelIdeal Idealize.ShloMosaic Idealize.ShloMosaic.ValueIdx

def dense64 (T0 T1 T2 T3 T4 : Vec Ideal S50000x64 .f32) (W : Vec Ideal S5x64x64 .f32) (b : Vec Ideal S1x64 .f32) :
    Vec Ideal S50000x64 .f32 := fun i =>
  max ((((((∑ k : Fin 64, T0 (ix2 (i 0) k) * W (ix3 0 k (i 1))) + ∑ k : Fin 64, T1 (ix2 (i 0) k) * W (ix3 1 k (i 1)))
      + ∑ k : Fin 64, T2 (ix2 (i 0) k) * W (ix3 2 k (i 1))) + ∑ k : Fin 64, T3 (ix2 (i 0) k) * W (ix3 3 k (i 1)))
      + ∑ k : Fin 64, T4 (ix2 (i 0) k) * W (ix3 4 k (i 1))) + b (ix2 0 (i 1))) 0

def dense128 (T0 T1 T2 T3 T4 : Vec Ideal S50000x64 .f32) (W : Vec Ideal S5x64x128 .f32) (b : Vec Ideal S1x128 .f32) :
    Vec Ideal S50000x128 .f32 := fun i =>
  max ((((((∑ k : Fin 64, T0 (ix2 (i 0) k) * W (ix3 0 k (i 1))) + ∑ k : Fin 64, T1 (ix2 (i 0) k) * W (ix3 1 k (i 1)))
      + ∑ k : Fin 64, T2 (ix2 (i 0) k) * W (ix3 2 k (i 1))) + ∑ k : Fin 64, T3 (ix2 (i 0) k) * W (ix3 3 k (i 1)))
      + ∑ k : Fin 64, T4 (ix2 (i 0) k) * W (ix3 4 k (i 1))) + b (ix2 0 (i 1))) 0

def poolSum (oh : Vec Ideal S50000x64 .f32) (h : Vec Ideal S50000x128 .f32) : Vec Ideal S64x128 .f32 := fun i =>
  ∑ n : Fin 50000, oh (ix2 n (i 0)) * h (ix2 n (i 1))

def poolHg (oh : Vec Ideal S50000x64 .f32) (h : Vec Ideal S50000x128 .f32) (cnt : Vec Ideal S64x1 .f32) : Vec Ideal S64x128 .f32 := fun i =>
  Ideal.div (poolSum oh h i) (max (cnt (ix2 (i 0) 0)) 1)

def poolOut (oh : Vec Ideal S50000x64 .f32) (h : Vec Ideal S50000x128 .f32) (cnt : Vec Ideal S64x1 .f32)
    (wl : Vec Ideal S128x2 .f32) (bl : Vec Ideal S1x2 .f32) : Vec Ideal S64x2 .f32 := fun i =>
  (∑ f : Fin 128, poolHg oh h cnt (ix2 (i 0) f) * wl (ix2 f (i 1))) + bl (ix2 0 (i 1))

end Cert.KernelIdeal.Hand

end
-- ==== Proof.KI.ChebVal.lean ====
import proofs.«410163_j48198122996027_1_alg».proof.Proof.KI.Cheb0
import proofs.«410163_j48198122996027_1_alg».proof.Proof.KI.ChebPay
import proofs.«410163_j48198122996027_1_alg».proof.Proof.KI.Spec
import Idealize.ShloMosaic.Lib.Pipeline.Value

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

local notation "SOut" => S2000x64
local notation "SArr" => S50000x64
local notation "SStack" => S5x64x64
local notation "SBias" => S1x64
local notation "HOut" => 64
local notation "layer" => dense64
local notation "aT0" => main_arg0
local notation "aT1" => main_v40
local notation "aT2" => main_v56
local notation "aT3" => main_v72
local notation "aT4" => main_v88
local notation "aW" => main_arg4
local notation "aB" => main_v89
local notation "aOut" => main_v90

theorem tile_zeros0 : (![0, 0] : Fin 2 → Nat) = fun _ => 0 := funext fun a => by fin_cases a <;> rfl

theorem tile_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 3) = 0 ∧ win0_5.index t (1 : Fin 3) = 0 ∧ win0_5.index t (2 : Fin 3) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- Row `p` of a Chebyshev term's block at point `t` is the term's row `2000 t + p`. -/
theorem iblk0_T_apply (c : Dev nD) (t : Fin cfg0.N) (p : Fin 2000) (h : t.val * 2000 + p.val < 50000) (k : Fin 64) :
    iblk0 V c 0 t (ix2 p k) = V c aT0 (ix2 ⟨_, h⟩ k) ∧ iblk0 V c 1 t (ix2 p k) = V c aT1 (ix2 ⟨_, h⟩ k)
      ∧ iblk0 V c 2 t (ix2 p k) = V c aT2 (ix2 ⟨_, h⟩ k) ∧ iblk0 V c 3 t (ix2 p k) = V c aT3 (ix2 ⟨_, h⟩ k)
      ∧ iblk0 V c 4 t (ix2 p k) = V c aT4 (ix2 ⟨_, h⟩ k) :=
  have e := tile_facts0 t
  ⟨congrArg (V c aT0) (tile_idx e.1 rfl rfl rfl), congrArg (V c aT1) (tile_idx e.2.1 rfl rfl rfl),
    congrArg (V c aT2) (tile_idx e.2.2.1 rfl rfl rfl), congrArg (V c aT3) (tile_idx e.2.2.2.1 rfl rfl rfl),
    congrArg (V c aT4) (tile_idx e.2.2.2.2.1 rfl rfl rfl)⟩

/-- The matrix of order `o` is the weight stack's slice at `o`. -/
theorem iblk0_W_apply (c : Dev nD) (t : Fin cfg0.N) (k : Fin 64) (q : Fin HOut) :
    View.ld (iblk0 V c 5 t) rW0_0 (ix3 0 k q) = V c aW (ix3 0 k q)
      ∧ View.ld (iblk0 V c 5 t) rW0_1 (ix3 0 k q) = V c aW (ix3 1 k q)
      ∧ View.ld (iblk0 V c 5 t) rW0_2 (ix3 0 k q) = V c aW (ix3 2 k q)
      ∧ View.ld (iblk0 V c 5 t) rW0_3 (ix3 0 k q) = V c aW (ix3 3 k q)
      ∧ View.ld (iblk0 V c 5 t) rW0_4 (ix3 0 k q) = V c aW (ix3 4 k q) :=
  have e := (tile_facts0 t).2.2.2.2.2.1
  ⟨congrArg (V c aW) (stack_idx e rfl rfl rfl), congrArg (V c aW) (stack_idx e rfl rfl rfl),
    congrArg (V c aW) (stack_idx e rfl rfl rfl), congrArg (V c aW) (stack_idx e rfl rfl rfl),
    congrArg (V c aW) (stack_idx e rfl rfl rfl)⟩

theorem iblk0_B_apply (c : Dev nD) (t : Fin cfg0.N) (q : Fin HOut) : iblk0 V c 6 t (ix2 0 q) = V c aB (ix2 0 q) :=
  congrArg (V c aB) (tile_idx (tile_facts0 t).2.2.2.2.2.2.1 rfl rfl rfl)

/-- Point `t`'s result is block `t` of the layer's formula applied to the whole arrays. -/
theorem flushed0_eq (c : Dev nD) (t : Fin cfg0.N) :
    (dat0 V c).flushed 7 t = ((cfg0.win 7).blk t).view.read (Elt Ideal) (layer (V c aT0) (V c aT1) (V c aT2) (V c aT3) (V c aT4) (V c aW) (V c aB)) := by
  show (cfg0.win 7).cut (grid0.coords t) ((dat0 V c).after 7 t) = _
  rw [after0_7]
  unfold out0_7
  rw [View.canon_unit_zero tile_zeros0]
  simp only [View.ld_unit_zero (S := S2000x64) tile_zeros0, View.ld_unit_zero (S := SBias) tile_zeros0]
  funext y
  obtain ⟨p, q, rfl⟩ : ∃ (p : Fin 2000) (q : Fin HOut), y = ix2 p q := ⟨y 0, y 1, eq_ix2 y⟩
  have h : t.val * 2000 + p.val < 50000 := by have := p.isLt; have := Nat.lt_of_lt_of_eq t.isLt N_0; omega
  refine (k0_pay_apply _ _ _ _ _ _ _ _ _ _ _ p q).trans ?_
  simp only [iblk0_T_apply V c t p h, iblk0_W_apply V c t, iblk0_B_apply V c t]
  rw [View.read_apply]
  refine Eq.trans (b := (layer (V c aT0) (V c aT1) (V c aT2) (V c aT3) (V c aT4) (V c aW) (V c aB)) (ix2 ⟨_, h⟩ q)) rfl ?_
  exact congrArg (layer (V c aT0) (V c aT1) (V c aT2) (V c aT3) (V c aT4) (V c aW) (V c aB)) (tile_idx (tile_facts0 t).2.2.2.2.2.2.2 rfl rfl rfl).symm

/-- Row `n` of the output array lies in the block of point `n / 2000`. -/
theorem cover0 (i : Shape.Idx SArr) : ∃ t : Fin cfg0.N, (cfg0.win 7).flush t = true ∧ i ∈ ((cfg0.win 7).blk t).view.set := by
  have hi0 : (i 0).val < 50000 := (i 0).isLt
  have hi1 : (i 1).val < HOut := (i 1).isLt
  let t : Fin cfg0.N := ⟨(i 0).val / 2000, by rw [show cfg0.N = 25 from N_0]; omega⟩
  have ht : t.val = (i 0).val / 2000 := rfl
  obtain ⟨e0, e1⟩ := (tile_facts0 t).2.2.2.2.2.2.2
  refine ⟨t, flush0_7 t, ?_⟩
  show i ∈ ((View.whole aOut).slice (win0_7.rect t)).set
  rw [View.set_slice_whole, Rect.mem_set_unit]
  intro a
  match a with
  | ⟨0, _⟩ =>
    show win0_7.index t (0 : Fin 2) * 2000 ≤ (i 0).val ∧ (i 0).val < win0_7.index t (0 : Fin 2) * 2000 + 2000
    omega
  | ⟨1, _⟩ =>
    show win0_7.index t (1 : Fin 2) * HOut ≤ (i 1).val ∧ (i 1).val < win0_7.index t (1 : Fin 2) * HOut + HOut
    omega

theorem arr0_7 (c : Dev nD) :
    (dat0 V c).arrAt 7 cfg0.N = layer (V c aT0) (V c aT1) (V c aT2) (V c aT3) (V c aT4) (V c aW) (V c aB) :=
  (dat0 V c).arrAt_eq_of_cover 7 _ (fun t _ => flushed0_eq V c t) cover0

end Cert.KernelIdeal.Hand

end
-- ==== Proof.KI.ChebVal1.lean ====
import proofs.«410163_j48198122996027_1_alg».proof.Proof.KI.Cheb1
import proofs.«410163_j48198122996027_1_alg».proof.Proof.KI.ChebPay
import proofs.«410163_j48198122996027_1_alg».proof.Proof.KI.Spec
import Idealize.ShloMosaic.Lib.Pipeline.Value

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

local notation "SOut" => S2000x64
local notation "SArr" => S50000x64
local notation "SStack" => S5x64x64
local notation "SBias" => S1x64
local notation "HOut" => 64
local notation "layer" => dense64
local notation "aT0" => main_v90
local notation "aT1" => main_v103
local notation "aT2" => main_v119
local notation "aT3" => main_v135
local notation "aT4" => main_v151
local notation "aW" => main_arg6
local notation "aB" => main_v152
local notation "aOut" => main_v153

theorem tile_zeros1 : (![0, 0] : Fin 2 → Nat) = fun _ => 0 := funext fun a => by fin_cases a <;> rfl

theorem tile_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 3) = 0 ∧ win1_5.index t (1 : Fin 3) = 0 ∧ win1_5.index t (2 : Fin 3) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-- Row `p` of a Chebyshev term's block at point `t` is the term's row `2000 t + p`. -/
theorem iblk1_T_apply (c : Dev nD) (t : Fin cfg1.N) (p : Fin 2000) (h : t.val * 2000 + p.val < 50000) (k : Fin 64) :
    iblk1 V c 0 t (ix2 p k) = V c aT0 (ix2 ⟨_, h⟩ k) ∧ iblk1 V c 1 t (ix2 p k) = V c aT1 (ix2 ⟨_, h⟩ k)
      ∧ iblk1 V c 2 t (ix2 p k) = V c aT2 (ix2 ⟨_, h⟩ k) ∧ iblk1 V c 3 t (ix2 p k) = V c aT3 (ix2 ⟨_, h⟩ k)
      ∧ iblk1 V c 4 t (ix2 p k) = V c aT4 (ix2 ⟨_, h⟩ k) :=
  have e := tile_facts1 t
  ⟨congrArg (V c aT0) (tile_idx e.1 rfl rfl rfl), congrArg (V c aT1) (tile_idx e.2.1 rfl rfl rfl),
    congrArg (V c aT2) (tile_idx e.2.2.1 rfl rfl rfl), congrArg (V c aT3) (tile_idx e.2.2.2.1 rfl rfl rfl),
    congrArg (V c aT4) (tile_idx e.2.2.2.2.1 rfl rfl rfl)⟩

/-- The matrix of order `o` is the weight stack's slice at `o`. -/
theorem iblk1_W_apply (c : Dev nD) (t : Fin cfg1.N) (k : Fin 64) (q : Fin HOut) :
    View.ld (iblk1 V c 5 t) rW1_0 (ix3 0 k q) = V c aW (ix3 0 k q)
      ∧ View.ld (iblk1 V c 5 t) rW1_1 (ix3 0 k q) = V c aW (ix3 1 k q)
      ∧ View.ld (iblk1 V c 5 t) rW1_2 (ix3 0 k q) = V c aW (ix3 2 k q)
      ∧ View.ld (iblk1 V c 5 t) rW1_3 (ix3 0 k q) = V c aW (ix3 3 k q)
      ∧ View.ld (iblk1 V c 5 t) rW1_4 (ix3 0 k q) = V c aW (ix3 4 k q) :=
  have e := (tile_facts1 t).2.2.2.2.2.1
  ⟨congrArg (V c aW) (stack_idx e rfl rfl rfl), congrArg (V c aW) (stack_idx e rfl rfl rfl),
    congrArg (V c aW) (stack_idx e rfl rfl rfl), congrArg (V c aW) (stack_idx e rfl rfl rfl),
    congrArg (V c aW) (stack_idx e rfl rfl rfl)⟩

theorem iblk1_B_apply (c : Dev nD) (t : Fin cfg1.N) (q : Fin HOut) : iblk1 V c 6 t (ix2 0 q) = V c aB (ix2 0 q) :=
  congrArg (V c aB) (tile_idx (tile_facts1 t).2.2.2.2.2.2.1 rfl rfl rfl)

/-- Point `t`'s result is block `t` of the layer's formula applied to the whole arrays. -/
theorem flushed1_eq (c : Dev nD) (t : Fin cfg1.N) :
    (dat1 V c).flushed 7 t = ((cfg1.win 7).blk t).view.read (Elt Ideal) (layer (V c aT0) (V c aT1) (V c aT2) (V c aT3) (V c aT4) (V c aW) (V c aB)) := by
  show (cfg1.win 7).cut (grid1.coords t) ((dat1 V c).after 7 t) = _
  rw [after1_7]
  unfold out1_7
  rw [View.canon_unit_zero tile_zeros1]
  simp only [View.ld_unit_zero (S := S2000x64) tile_zeros1, View.ld_unit_zero (S := SBias) tile_zeros1]
  funext y
  obtain ⟨p, q, rfl⟩ : ∃ (p : Fin 2000) (q : Fin HOut), y = ix2 p q := ⟨y 0, y 1, eq_ix2 y⟩
  have h : t.val * 2000 + p.val < 50000 := by have := p.isLt; have := Nat.lt_of_lt_of_eq t.isLt N_1; omega
  refine (k1_pay_apply _ _ _ _ _ _ _ _ _ _ _ p q).trans ?_
  simp only [iblk1_T_apply V c t p h, iblk1_W_apply V c t, iblk1_B_apply V c t]
  rw [View.read_apply]
  refine Eq.trans (b := (layer (V c aT0) (V c aT1) (V c aT2) (V c aT3) (V c aT4) (V c aW) (V c aB)) (ix2 ⟨_, h⟩ q)) rfl ?_
  exact congrArg (layer (V c aT0) (V c aT1) (V c aT2) (V c aT3) (V c aT4) (V c aW) (V c aB)) (tile_idx (tile_facts1 t).2.2.2.2.2.2.2 rfl rfl rfl).symm

/-- Row `n` of the output array lies in the block of point `n / 2000`. -/
theorem cover1 (i : Shape.Idx SArr) : ∃ t : Fin cfg1.N, (cfg1.win 7).flush t = true ∧ i ∈ ((cfg1.win 7).blk t).view.set := by
  have hi0 : (i 0).val < 50000 := (i 0).isLt
  have hi1 : (i 1).val < HOut := (i 1).isLt
  let t : Fin cfg1.N := ⟨(i 0).val / 2000, by rw [show cfg1.N = 25 from N_1]; omega⟩
  have ht : t.val = (i 0).val / 2000 := rfl
  obtain ⟨e0, e1⟩ := (tile_facts1 t).2.2.2.2.2.2.2
  refine ⟨t, flush1_7 t, ?_⟩
  show i ∈ ((View.whole aOut).slice (win1_7.rect t)).set
  rw [View.set_slice_whole, Rect.mem_set_unit]
  intro a
  match a with
  | ⟨0, _⟩ =>
    show win1_7.index t (0 : Fin 2) * 2000 ≤ (i 0).val ∧ (i 0).val < win1_7.index t (0 : Fin 2) * 2000 + 2000
    omega
  | ⟨1, _⟩ =>
    show win1_7.index t (1 : Fin 2) * HOut ≤ (i 1).val ∧ (i 1).val < win1_7.index t (1 : Fin 2) * HOut + HOut
    omega

theorem arr1_7 (c : Dev nD) :
    (dat1 V c).arrAt 7 cfg1.N = layer (V c aT0) (V c aT1) (V c aT2) (V c aT3) (V c aT4) (V c aW) (V c aB) :=
  (dat1 V c).arrAt_eq_of_cover 7 _ (fun t _ => flushed1_eq V c t) cover1

end Cert.KernelIdeal.Hand

end
-- ==== Proof.KI.ChebVal2.lean ====
import proofs.«410163_j48198122996027_1_alg».proof.Proof.KI.Cheb2
import proofs.«410163_j48198122996027_1_alg».proof.Proof.KI.ChebPay
import proofs.«410163_j48198122996027_1_alg».proof.Proof.KI.Spec
import Idealize.ShloMosaic.Lib.Pipeline.Value

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

local notation "SOut" => S2000x128
local notation "SArr" => S50000x128
local notation "SStack" => S5x64x128
local notation "SBias" => S1x128
local notation "HOut" => 128
local notation "layer" => dense128
local notation "aT0" => main_v153
local notation "aT1" => main_v166
local notation "aT2" => main_v182
local notation "aT3" => main_v198
local notation "aT4" => main_v214
local notation "aW" => main_arg8
local notation "aB" => main_v215
local notation "aOut" => main_v216

theorem tile_zeros2 : (![0, 0] : Fin 2 → Nat) = fun _ => 0 := funext fun a => by fin_cases a <;> rfl

theorem tile_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = t.val ∧ win2_4.index t (1 : Fin 2) = 0)
    ∧ (win2_5.index t (0 : Fin 3) = 0 ∧ win2_5.index t (1 : Fin 3) = 0 ∧ win2_5.index t (2 : Fin 3) = 0)
    ∧ (win2_6.index t (0 : Fin 2) = 0 ∧ win2_6.index t (1 : Fin 2) = 0)
    ∧ (win2_7.index t (0 : Fin 2) = t.val ∧ win2_7.index t (1 : Fin 2) = 0) :=
  (by decide +kernel : ∀ t : Fin grid2.N, _)

/-- Row `p` of a Chebyshev term's block at point `t` is the term's row `2000 t + p`. -/
theorem iblk2_T_apply (c : Dev nD) (t : Fin cfg2.N) (p : Fin 2000) (h : t.val * 2000 + p.val < 50000) (k : Fin 64) :
    iblk2 V c 0 t (ix2 p k) = V c aT0 (ix2 ⟨_, h⟩ k) ∧ iblk2 V c 1 t (ix2 p k) = V c aT1 (ix2 ⟨_, h⟩ k)
      ∧ iblk2 V c 2 t (ix2 p k) = V c aT2 (ix2 ⟨_, h⟩ k) ∧ iblk2 V c 3 t (ix2 p k) = V c aT3 (ix2 ⟨_, h⟩ k)
      ∧ iblk2 V c 4 t (ix2 p k) = V c aT4 (ix2 ⟨_, h⟩ k) :=
  have e := tile_facts2 t
  ⟨congrArg (V c aT0) (tile_idx e.1 rfl rfl rfl), congrArg (V c aT1) (tile_idx e.2.1 rfl rfl rfl),
    congrArg (V c aT2) (tile_idx e.2.2.1 rfl rfl rfl), congrArg (V c aT3) (tile_idx e.2.2.2.1 rfl rfl rfl),
    congrArg (V c aT4) (tile_idx e.2.2.2.2.1 rfl rfl rfl)⟩

/-- The matrix of order `o` is the weight stack's slice at `o`. -/
theorem iblk2_W_apply (c : Dev nD) (t : Fin cfg2.N) (k : Fin 64) (q : Fin HOut) :
    View.ld (iblk2 V c 5 t) rW2_0 (ix3 0 k q) = V c aW (ix3 0 k q)
      ∧ View.ld (iblk2 V c 5 t) rW2_1 (ix3 0 k q) = V c aW (ix3 1 k q)
      ∧ View.ld (iblk2 V c 5 t) rW2_2 (ix3 0 k q) = V c aW (ix3 2 k q)
      ∧ View.ld (iblk2 V c 5 t) rW2_3 (ix3 0 k q) = V c aW (ix3 3 k q)
      ∧ View.ld (iblk2 V c 5 t) rW2_4 (ix3 0 k q) = V c aW (ix3 4 k q) :=
  have e := (tile_facts2 t).2.2.2.2.2.1
  ⟨congrArg (V c aW) (stack_idx e rfl rfl rfl), congrArg (V c aW) (stack_idx e rfl rfl rfl),
    congrArg (V c aW) (stack_idx e rfl rfl rfl), congrArg (V c aW) (stack_idx e rfl rfl rfl),
    congrArg (V c aW) (stack_idx e rfl rfl rfl)⟩

theorem iblk2_B_apply (c : Dev nD) (t : Fin cfg2.N) (q : Fin HOut) : iblk2 V c 6 t (ix2 0 q) = V c aB (ix2 0 q) :=
  congrArg (V c aB) (tile_idx (tile_facts2 t).2.2.2.2.2.2.1 rfl rfl rfl)

/-- Point `t`'s result is block `t` of the layer's formula applied to the whole arrays. -/
theorem flushed2_eq (c : Dev nD) (t : Fin cfg2.N) :
    (dat2 V c).flushed 7 t = ((cfg2.win 7).blk t).view.read (Elt Ideal) (layer (V c aT0) (V c aT1) (V c aT2) (V c aT3) (V c aT4) (V c aW) (V c aB)) := by
  show (cfg2.win 7).cut (grid2.coords t) ((dat2 V c).after 7 t) = _
  rw [after2_7]
  unfold out2_7
  rw [View.canon_unit_zero tile_zeros2]
  simp only [View.ld_unit_zero (S := S2000x64) tile_zeros2, View.ld_unit_zero (S := SBias) tile_zeros2]
  funext y
  obtain ⟨p, q, rfl⟩ : ∃ (p : Fin 2000) (q : Fin HOut), y = ix2 p q := ⟨y 0, y 1, eq_ix2 y⟩
  have h : t.val * 2000 + p.val < 50000 := by have := p.isLt; have := Nat.lt_of_lt_of_eq t.isLt N_2; omega
  refine (k2_pay_apply _ _ _ _ _ _ _ _ _ _ _ p q).trans ?_
  simp only [iblk2_T_apply V c t p h, iblk2_W_apply V c t, iblk2_B_apply V c t]
  rw [View.read_apply]
  refine Eq.trans (b := (layer (V c aT0) (V c aT1) (V c aT2) (V c aT3) (V c aT4) (V c aW) (V c aB)) (ix2 ⟨_, h⟩ q)) rfl ?_
  exact congrArg (layer (V c aT0) (V c aT1) (V c aT2) (V c aT3) (V c aT4) (V c aW) (V c aB)) (tile_idx (tile_facts2 t).2.2.2.2.2.2.2 rfl rfl rfl).symm

/-- Row `n` of the output array lies in the block of point `n / 2000`. -/
theorem cover2 (i : Shape.Idx SArr) : ∃ t : Fin cfg2.N, (cfg2.win 7).flush t = true ∧ i ∈ ((cfg2.win 7).blk t).view.set := by
  have hi0 : (i 0).val < 50000 := (i 0).isLt
  have hi1 : (i 1).val < HOut := (i 1).isLt
  let t : Fin cfg2.N := ⟨(i 0).val / 2000, by rw [show cfg2.N = 25 from N_2]; omega⟩
  have ht : t.val = (i 0).val / 2000 := rfl
  obtain ⟨e0, e1⟩ := (tile_facts2 t).2.2.2.2.2.2.2
  refine ⟨t, flush2_7 t, ?_⟩
  show i ∈ ((View.whole aOut).slice (win2_7.rect t)).set
  rw [View.set_slice_whole, Rect.mem_set_unit]
  intro a
  match a with
  | ⟨0, _⟩ =>
    show win2_7.index t (0 : Fin 2) * 2000 ≤ (i 0).val ∧ (i 0).val < win2_7.index t (0 : Fin 2) * 2000 + 2000
    omega
  | ⟨1, _⟩ =>
    show win2_7.index t (1 : Fin 2) * HOut ≤ (i 1).val ∧ (i 1).val < win2_7.index t (1 : Fin 2) * HOut + HOut
    omega

theorem arr2_7 (c : Dev nD) :
    (dat2 V c).arrAt 7 cfg2.N = layer (V c aT0) (V c aT1) (V c aT2) (V c aT3) (V c aT4) (V c aW) (V c aB) :=
  (dat2 V c).arrAt_eq_of_cover 7 _ (fun t _ => flushed2_eq V c t) cover2

end Cert.KernelIdeal.Hand

end
-- ==== Proof.KI.PoolPay.lean ====
import proofs.«410163_j48198122996027_1_alg».proof.Proof.Gen.KernelIdeal.Skeleton
import Idealize.ShloMosaic.Lib.KernelVsHost
import Idealize.ShloMosaic.Lib.StackMember
import Idealize.ShloMosaic.Lib.ValueLayout
import Idealize.ShloMosaic.Lib.IdealHost

noncomputable section

open scoped BigOperators

namespace Cert.KernelIdeal.Hand

open Cert.KernelIdeal Cert.KernelIdeal.Gen Idealize.ShloMosaic Idealize.ShloMosaic.ValueIdx

theorem k3_pay1_apply (g : Fin 64) (f : Fin 128) : k3_pay1 (F := Ideal) (ix2 g f) = 0 := by
  simp only [k3_pay1, shapeCast_self, broadcast_apply]
  exact Ideal.ofBits_zero_f32

/-- Both operands are contracted along their rows: entry `(g, f)` sums `x0[r, g] * x1[r, f]` over the rows `r`. -/
theorem mmP_apply (x0 : FVec Ideal S2000x64 .f32) (x1 : FVec Ideal S2000x128 .f32) (g : Fin 64) (f : Fin 128) :
    matmul (F := Ideal) dot_S2000x64_S2000x128_S64x128_0_0_1_1_n_n none x0 x1 (constant (F := Ideal) S64x128 .f32 0x00000000#32) (ix2 g f)
      = ∑ r : Fin 2000, x0 (ix2 r g) * x1 (ix2 r f) := by
  simp only [matmul]
  rw [Ideal.matmul_constant_zero_apply, ← Equiv.sum_comp (contrEquiv1 dot_S2000x64_S2000x128_S64x128_0_0_1_1_n_n 2000 rfl rfl).symm]
  refine Finset.sum_congr rfl fun r _ => ?_
  have hr := contrEquiv1_symm_val dot_S2000x64_S2000x128_S64x128_0_0_1_1_n_n 2000 rfl rfl r
  rw [show dot_S2000x64_S2000x128_S64x128_0_0_1_1_n_n.lhsIdx (ix2 g f) ((contrEquiv1 dot_S2000x64_S2000x128_S64x128_0_0_1_1_n_n 2000 rfl rfl).symm r) = ix2 r g from Shape.idx_ext₂ hr rfl,
    show dot_S2000x64_S2000x128_S64x128_0_0_1_1_n_n.rhsIdx (ix2 g f) ((contrEquiv1 dot_S2000x64_S2000x128_S64x128_0_0_1_1_n_n 2000 rfl rfl).symm r) = ix2 r f from Shape.idx_ext₂ hr rfl]

theorem k3_pay2_apply (s : Vec Ideal S64x128 .f32) (x0 : Vec Ideal S2000x64 .f32) (x1 : Vec Ideal S2000x128 .f32)
    (g : Fin 64) (f : Fin 128) :
    k3_pay2 (F := Ideal) s x0 x1 (ix2 g f) = s (ix2 g f) + ∑ r : Fin 2000, x0 (ix2 r g) * x1 (ix2 r f) := by
  simp only [k3_pay2, shapeCast_self, addf_apply, mmP_apply]

/-- A column repeated across the columns: `(p, c)` reads the column's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem k3_pay3_apply (a : Vec Ideal S64x128 .f32) (cnt : Vec Ideal S64x1 .f32) (g : Fin 64) (f : Fin 128) :
    k3_pay3 (F := Ideal) a cnt (ix2 g f) = Ideal.div (a (ix2 g f)) (max (cnt (ix2 g 0)) 1) := by
  simp only [k3_pay3, divf_apply, broadcastTo_a1_ab_apply, maximumf_apply, shapeCast_self, broadcast_apply]
  exact congrArg (fun z => Ideal.div _ (max _ z)) Ideal.ofBits_one_f32

theorem k3_pay4_apply (a : Vec Ideal S64x128 .f32) (cnt : Vec Ideal S64x1 .f32) (wl : Vec Ideal S128x2 .f32)
    (bl : Vec Ideal S1x2 .f32) (g : Fin 64) (k : Fin 2) :
    k3_pay4 (F := Ideal) a cnt wl bl (ix2 g k)
      = (∑ f : Fin 128, k3_pay3 (F := Ideal) a cnt (ix2 g f) * wl (ix2 f k)) + bl (ix2 0 k) := by
  unfold k3_pay4
  show matmul (F := Ideal) (DotDims.plain 64 128 2) none (k3_pay3 (F := Ideal) a cnt) wl
      (constant (F := Ideal) S64x2 .f32 0x00000000#32) (ix2 g k)
    + broadcastTo S64x2 (shapeCast S1x2 bl shapeCasts_S1x2_S1x2) broadcasts_S1x2_S64x2 (ix2 g k) = _
  rw [matmul_zero_eq_dotGeneral, StackMember.dotGeneral_plain_apply, broadcastTo_1b_ab_apply, shapeCast_self]

end Cert.KernelIdeal.Hand
-- ==== Proof.KI.PoolVal.lean ====
import proofs.«410163_j48198122996027_1_alg».proof.Proof.KI.Pool
import proofs.«410163_j48198122996027_1_alg».proof.Proof.KI.PoolPay
import proofs.«410163_j48198122996027_1_alg».proof.Proof.KI.Spec
import Idealize.ShloMosaic.Lib.Pipeline.Value

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem funext_ix2 {α : Type} {n0 n1 : ℕ} {A B : (⟨2, ![n0, n1]⟩ : Shape).Idx → α}
    (h : ∀ (a : Fin n0) (b : Fin n1), A (ix2 a b) = B (ix2 a b)) : A = B :=
  funext fun j => by rw [eq_ix2 j]; exact h _ _

theorem tile_facts3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0) :=
  (by decide +kernel : ∀ t : Fin grid3.N, _)

/-- Coordinates `(a R + p, b K + k)` with `a = t` and `b = 0` name row `t R + p`, column `k`. -/
theorem tile_idx3 {N K R a b t p : ℕ} {i : Shape.Idx ⟨2, ![N, K]⟩} {n : Fin N} {k : Fin K} (e : a = t ∧ b = 0)
    (hn : n.val = t * R + p) (h0 : (i 0).val = a * R + 1 * p) (h1 : (i 1).val = b * K + 1 * k.val) : i = ix2 n k := by
  obtain ⟨rfl, rfl⟩ := e
  exact Shape.idx_ext₂ (show (i 0).val = n.val by omega) (show (i 1).val = k.val by omega)

/-- In a block that is its whole array an element keeps its coordinates. -/
theorem whole_idx3 {N K a b : ℕ} {i j : Shape.Idx ⟨2, ![N, K]⟩} (e : a = 0 ∧ b = 0)
    (h0 : (i 0).val = a * N + 1 * (j 0).val) (h1 : (i 1).val = b * K + 1 * (j 1).val) : i = j := by
  obtain ⟨rfl, rfl⟩ := e
  exact Shape.idx_ext₂ (by omega) (by omega)

theorem node_lt (t : Fin cfg3.N) (r : Fin 2000) : t.val * 2000 + r.val < 50000 := by
  have h1 : t.val < 25 := lt_of_lt_of_eq t.isLt (show cfg3.N = 25 from N_3)
  have h2 := r.isLt
  omega

theorem iblk3_0_apply (c : Dev nD) (t : Fin cfg3.N) (r : Fin 2000) (g : Fin 64) :
    iblk3 V c 0 t (ix2 r g) = V c main_v223 (ix2 ⟨_, node_lt t r⟩ g) :=
  congrArg (V c main_v223) (tile_idx3 (tile_facts3 t).1 rfl rfl rfl)

theorem iblk3_1_apply (c : Dev nD) (t : Fin cfg3.N) (r : Fin 2000) (f : Fin 128) :
    iblk3 V c 1 t (ix2 r f) = V c main_v216 (ix2 ⟨_, node_lt t r⟩ f) :=
  congrArg (V c main_v216) (tile_idx3 (tile_facts3 t).2.1 rfl rfl rfl)

theorem iblk3_2_eq (c : Dev nD) (t : Fin cfg3.N) : iblk3 V c 2 t = V c main_arg10 :=
  funext fun j => congrArg (V c main_arg10) (whole_idx3 (tile_facts3 t).2.2.1 rfl rfl)

theorem iblk3_3_eq (c : Dev nD) (t : Fin cfg3.N) : iblk3 V c 3 t = V c main_v226 :=
  funext fun j => congrArg (V c main_v226) (whole_idx3 (tile_facts3 t).2.2.2.1 rfl rfl)

theorem iblk3_4_eq (c : Dev nD) (t : Fin cfg3.N) : iblk3 V c 4 t = V c main_v225 :=
  funext fun j => congrArg (V c main_v225) (whole_idx3 (tile_facts3 t).2.2.2.2.1 rfl rfl)

/-- Node `s`'s membership in graph `g` times its feature `f`, extended by zero beyond the 50000 nodes. -/
def term3 (oh : Vec Ideal S50000x64 .f32) (hh : Vec Ideal S50000x128 .f32) (g : Fin 64) (f : Fin 128) (s : ℕ) : Ideal .f32 :=
  if h : s < 50000 then oh (ix2 ⟨s, h⟩ g) * hh (ix2 ⟨s, h⟩ f) else 0

/-- A step adds the 2000 terms of its tile. -/
theorem step_sum (c : Dev nD) (t : Fin cfg3.N) (g : Fin 64) (f : Fin 128) (s : Vec Ideal S64x128 .f32) :
    k3_pay2 (F := Ideal) s (iblk3 V c 0 t) (iblk3 V c 1 t) (ix2 g f)
      = s (ix2 g f) + ∑ x ∈ Finset.range 2000, term3 (V c main_v223) (V c main_v216) g f (t.val * 2000 + x) := by
  rw [k3_pay2_apply, ← Fin.sum_univ_eq_sum_range (fun x => term3 (V c main_v223) (V c main_v216) g f (t.val * 2000 + x)) 2000]
  refine congrArg (fun z => s (ix2 g f) + z) (Finset.sum_congr rfl fun r _ => ?_)
  rw [iblk3_0_apply, iblk3_1_apply]
  unfold term3
  rw [dif_pos (node_lt t r)]

/-- By induction on the points: after point `n` the accumulator is the sum of the first `2000 (n + 1)` terms. -/
theorem acc3_partial (c : Dev nD) (g : Fin 64) (f : Fin 128) :
    ∀ (n : ℕ) (h : n < cfg3.N), acc3 V c n h (ix2 g f)
      = ∑ x ∈ Finset.range ((n + 1) * 2000), term3 (V c main_v223) (V c main_v216) g f x
  | 0, h => by
    rw [acc3.eq_1, step_sum V c ⟨0, h⟩ g f, k3_pay1_apply, zero_add]
    refine Finset.sum_congr (by norm_num) fun x _ => ?_
    show term3 _ _ g f (0 * 2000 + x) = _
    rw [Nat.zero_mul, Nat.zero_add]
  | n + 1, h => by
    rw [acc3.eq_2, step_sum V c ⟨n + 1, h⟩ g f, acc3_partial c g f n (Nat.lt_of_succ_lt h),
      show (n + 1 + 1) * 2000 = (n + 1) * 2000 + 2000 from by ring, Finset.sum_range_add]

/-- Twenty-five tiles of 2000 nodes exhaust the 50000 nodes. -/
theorem acc3_eq_poolSum (c : Dev nD) : acc3 V c 24 lt24 = poolSum (V c main_v223) (V c main_v216) :=
  funext_ix2 (n0 := 64) (n1 := 128) fun g f => by
    rw [acc3_partial V c g f 24 lt24, show (24 + 1) * 2000 = 50000 from by norm_num,
      ← Fin.sum_univ_eq_sum_range (term3 (V c main_v223) (V c main_v216) g f) 50000]
    exact Finset.sum_congr rfl fun n _ => dif_pos n.isLt

theorem pay3_last (c : Dev nD) :
    k3_pay3 (F := Ideal) (acc3 V c 24 lt24) (iblk3 V c 4 ⟨24, lt24⟩) = poolHg (V c main_v223) (V c main_v216) (V c main_v225) :=
  funext_ix2 (n0 := 64) (n1 := 128) fun g f => by
    rw [k3_pay3_apply, acc3_eq_poolSum, iblk3_4_eq]
    rfl

theorem pay4_last (c : Dev nD) :
    k3_pay4 (F := Ideal) (acc3 V c 24 lt24) (iblk3 V c 4 ⟨24, lt24⟩) (iblk3 V c 2 ⟨24, lt24⟩) (iblk3 V c 3 ⟨24, lt24⟩)
      = poolOut (V c main_v223) (V c main_v216) (V c main_v225) (V c main_arg10) (V c main_v226) :=
  funext_ix2 (n0 := 64) (n1 := 2) fun g k => by
    rw [k3_pay4_apply, pay3_last, iblk3_2_eq, iblk3_3_eq]
    rfl

/-- Each result window has a single block, the whole array. -/
theorem read_blk3_6 (t : Fin cfg3.N) (G : Vec Ideal S64x128 .f32) : ((cfg3.win 6).blk t).view.read (Elt Ideal) G = G :=
  funext fun j => congrArg G (whole_idx3 (tile_facts3 t).2.2.2.2.2.2 rfl rfl)

theorem read_blk3_5 (t : Fin cfg3.N) (G : Vec Ideal S64x2 .f32) : ((cfg3.win 5).blk t).view.read (Elt Ideal) G = G :=
  funext fun j => congrArg G (whole_idx3 (tile_facts3 t).2.2.2.2.2.1 rfl rfl)

theorem mem_blk3_6 (t : Fin cfg3.N) (i : S64x128.Idx) : i ∈ ((cfg3.win 6).blk t).view.set :=
  (whole_idx3 (tile_facts3 t).2.2.2.2.2.2 rfl rfl : ((cfg3.win 6).blk t).view.emb i = i) ▸ View.emb_mem_set _ i

theorem mem_blk3_5 (t : Fin cfg3.N) (i : S64x2.Idx) : i ∈ ((cfg3.win 5).blk t).view.set :=
  (whole_idx3 (tile_facts3 t).2.2.2.2.2.1 rfl rfl : ((cfg3.win 5).blk t).view.emb i = i) ▸ View.emb_mem_set _ i

theorem last_of_flush (t : Fin cfg3.N) (h : t.val % 25 = 24) : t = ⟨24, lt24⟩ := by
  apply Fin.ext
  have h1 : t.val < 25 := lt_of_lt_of_eq t.isLt (show cfg3.N = 25 from N_3)
  show t.val = 24
  omega

theorem arr3_6 (c : Dev nD) :
    (dat3 V c).arrAt 6 cfg3.N = poolHg (V c main_v223) (V c main_v216) (V c main_v225) := by
  refine (dat3 V c).arrAt_eq_of_cover 6 _ (fun t hf => ?_) (fun i => ⟨⟨24, lt24⟩, (flush3_6 _).mpr rfl, mem_blk3_6 _ i⟩)
  obtain rfl := last_of_flush t ((flush3_6 t).mp hf)
  rw [read_blk3_6]
  show (cfg3.win 6).cut (grid3.coords _) ((dat3 V c).after 6 _) = _
  rw [after3_6]
  exact pay3_last V c

theorem arr3_5 (c : Dev nD) :
    (dat3 V c).arrAt 5 cfg3.N = poolOut (V c main_v223) (V c main_v216) (V c main_v225) (V c main_arg10) (V c main_v226) := by
  refine (dat3 V c).arrAt_eq_of_cover 5 _ (fun t hf => ?_) (fun i => ⟨⟨24, lt24⟩, (flush3_5 _).mpr rfl, mem_blk3_5 _ i⟩)
  obtain rfl := last_of_flush t ((flush3_5 t).mp hf)
  rw [read_blk3_5]
  show (cfg3.win 5).cut (grid3.coords _) ((dat3 V c).after 5 _) = _
  rw [after3_5]
  exact pay4_last V c

end Cert.KernelIdeal.Hand

end
-- ==== Proof.KI.Net.lean ====
import proofs.«410163_j48198122996027_1_alg».proof.Proof.KI.Spec
import proofs.«410163_j48198122996027_1_alg».proof.Proof.KI.HostSpec

noncomputable section

namespace Cert.KernelIdeal.Hand

open Cert.KernelIdeal Idealize.ShloMosaic

def layer64 (ei : Vec Ideal S2x800000 .i32) (ea : Vec Ideal S800000 .f32) (z : Vec Ideal S50000x64 .f32)
    (w : Vec Ideal S5x64x64 .f32) (b : Vec Ideal S64 .f32) : Vec Ideal S50000x64 .f32 :=
  dense64 z (cheb1T (srcT ei) (dstT ei) (normT (srcT ei) (dstT ei) ea) z) (cheb2T (srcT ei) (dstT ei) (normT (srcT ei) (dstT ei) ea) z)
    (cheb3T (srcT ei) (dstT ei) (normT (srcT ei) (dstT ei) ea) z) (cheb4T (srcT ei) (dstT ei) (normT (srcT ei) (dstT ei) ea) z) w (biasRow64T b)

def layer128 (ei : Vec Ideal S2x800000 .i32) (ea : Vec Ideal S800000 .f32) (z : Vec Ideal S50000x64 .f32)
    (w : Vec Ideal S5x64x128 .f32) (b : Vec Ideal S128 .f32) : Vec Ideal S50000x128 .f32 :=
  dense128 z (cheb1T (srcT ei) (dstT ei) (normT (srcT ei) (dstT ei) ea) z) (cheb2T (srcT ei) (dstT ei) (normT (srcT ei) (dstT ei) ea) z)
    (cheb3T (srcT ei) (dstT ei) (normT (srcT ei) (dstT ei) ea) z) (cheb4T (srcT ei) (dstT ei) (normT (srcT ei) (dstT ei) ea) z) w (biasRow128T b)

def feat3 (x : Vec Ideal S50000x64 .f32) (ei : Vec Ideal S2x800000 .i32) (ea : Vec Ideal S800000 .f32)
    (w1 : Vec Ideal S5x64x64 .f32) (b1 : Vec Ideal S64 .f32) (w2 : Vec Ideal S5x64x64 .f32) (b2 : Vec Ideal S64 .f32)
    (w3 : Vec Ideal S5x64x128 .f32) (b3 : Vec Ideal S128 .f32) : Vec Ideal S50000x128 .f32 :=
  layer128 ei ea (layer64 ei ea (layer64 ei ea x w1 b1) w2 b2) w3 b3

def netHg (x : Vec Ideal S50000x64 .f32) (ei : Vec Ideal S2x800000 .i32) (ea : Vec Ideal S800000 .f32) (bt : Vec Ideal S50000 .i32)
    (w1 : Vec Ideal S5x64x64 .f32) (b1 : Vec Ideal S64 .f32) (w2 : Vec Ideal S5x64x64 .f32) (b2 : Vec Ideal S64 .f32)
    (w3 : Vec Ideal S5x64x128 .f32) (b3 : Vec Ideal S128 .f32) : Vec Ideal S64x128 .f32 :=
  poolHg (onehotT bt) (feat3 x ei ea w1 b1 w2 b2 w3 b3) (countsT bt)

def netOut (x : Vec Ideal S50000x64 .f32) (ei : Vec Ideal S2x800000 .i32) (ea : Vec Ideal S800000 .f32) (bt : Vec Ideal S50000 .i32)
    (w1 : Vec Ideal S5x64x64 .f32) (b1 : Vec Ideal S64 .f32) (w2 : Vec Ideal S5x64x64 .f32) (b2 : Vec Ideal S64 .f32)
    (w3 : Vec Ideal S5x64x128 .f32) (b3 : Vec Ideal S128 .f32) (wl : Vec Ideal S128x2 .f32) (bl : Vec Ideal S2 .f32) : Vec Ideal S64x2 .f32 :=
  poolOut (onehotT bt) (feat3 x ei ea w1 b1 w2 b2 w3 b3) (countsT bt) wl (biasRow2T bl)

end Cert.KernelIdeal.Hand

end
-- ==== Proof.KI.KernelValue.lean ====
import proofs.«410163_j48198122996027_1_alg».proof.Proof.KI.Args
import proofs.«410163_j48198122996027_1_alg».proof.Proof.KI.HostK
import proofs.«410163_j48198122996027_1_alg».proof.Proof.KI.ChebVal
import proofs.«410163_j48198122996027_1_alg».proof.Proof.KI.ChebVal1
import proofs.«410163_j48198122996027_1_alg».proof.Proof.KI.ChebVal2
import proofs.«410163_j48198122996027_1_alg».proof.Proof.KI.PoolVal
import proofs.«410163_j48198122996027_1_alg».proof.Proof.KI.Net

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

abbrev aX := m ((c : Thread nD τ).loc main_arg0)
abbrev aEi := m ((c : Thread nD τ).loc main_arg1)
abbrev aEa := m ((c : Thread nD τ).loc main_arg2)
abbrev aBt := m ((c : Thread nD τ).loc main_arg3)
abbrev aW1 := m ((c : Thread nD τ).loc main_arg4)
abbrev aB1 := m ((c : Thread nD τ).loc main_arg5)
abbrev aW2 := m ((c : Thread nD τ).loc main_arg6)
abbrev aB2 := m ((c : Thread nD τ).loc main_arg7)
abbrev aW3 := m ((c : Thread nD τ).loc main_arg8)
abbrev aB3 := m ((c : Thread nD τ).loc main_arg9)
abbrev aWl := m ((c : Thread nD τ).loc main_arg10)
abbrev aBl := m ((c : Thread nD τ).loc main_arg11)

abbrev eS : Vec Ideal S800000 .i32 := srcT (F := Ideal) (m ((c : Thread nD τ).loc main_arg1))
abbrev eD : Vec Ideal S800000 .i32 := dstT (F := Ideal) (m ((c : Thread nD τ).loc main_arg1))
abbrev eN : Vec Ideal S800000 .f32 := normT (F := Ideal) (srcT (m ((c : Thread nD τ).loc main_arg1))) (dstT (m ((c : Thread nD τ).loc main_arg1))) (m ((c : Thread nD τ).loc main_arg2))

abbrev fH1 : Vec Ideal S50000x64 .f32 := layer64 (m ((c : Thread nD τ).loc main_arg1)) (m ((c : Thread nD τ).loc main_arg2)) (m ((c : Thread nD τ).loc main_arg0)) (m ((c : Thread nD τ).loc main_arg4)) (m ((c : Thread nD τ).loc main_arg5))
abbrev fH2 : Vec Ideal S50000x64 .f32 := layer64 (m ((c : Thread nD τ).loc main_arg1)) (m ((c : Thread nD τ).loc main_arg2)) (layer64 (m ((c : Thread nD τ).loc main_arg1)) (m ((c : Thread nD τ).loc main_arg2)) (m ((c : Thread nD τ).loc main_arg0)) (m ((c : Thread nD τ).loc main_arg4)) (m ((c : Thread nD τ).loc main_arg5))) (m ((c : Thread nD τ).loc main_arg6)) (m ((c : Thread nD τ).loc main_arg7))
abbrev fH3 : Vec Ideal S50000x128 .f32 := feat3 (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem e0_v1 : W3 m ρ c (Proc.devRef .tc main_v1) = (eS m c) := host0_v1 (W0 m ρ c)
theorem e0_v3 : W3 m ρ c (Proc.devRef .tc main_v3) = (eD m c) := host0_v3 (W0 m ρ c)
theorem e0_v27 : W3 m ρ c (Proc.devRef .tc main_v27) = (eN m c) := host0_v27 (W0 m ρ c)
theorem e0_v40 : W3 m ρ c (Proc.devRef .tc main_v40) = cheb1T (eS m c) (eD m c) (eN m c) (aX m c) := host0_v40 (W0 m ρ c)
theorem e0_v56 : W3 m ρ c (Proc.devRef .tc main_v56) = cheb2T (eS m c) (eD m c) (eN m c) (aX m c) := host0_v56 (W0 m ρ c)
theorem e0_v72 : W3 m ρ c (Proc.devRef .tc main_v72) = cheb3T (eS m c) (eD m c) (eN m c) (aX m c) := host0_v72 (W0 m ρ c)
theorem e0_v88 : W3 m ρ c (Proc.devRef .tc main_v88) = cheb4T (eS m c) (eD m c) (eN m c) (aX m c) := host0_v88 (W0 m ρ c)
theorem e0_v89 : W3 m ρ c (Proc.devRef .tc main_v89) = biasRow64T (aB1 m c) := host0_v89 (W0 m ρ c)

theorem out0 : (dat0 (V3 m ρ) c).arrAt 7 cfg0.N = (fH1 m c) := by
  refine (arr0_7 (V3 m ρ) c).trans ?_
  show dense64 (W3 m ρ c (Proc.devRef .tc main_arg0)) (W3 m ρ c (Proc.devRef .tc main_v40)) (W3 m ρ c (Proc.devRef .tc main_v56))
    (W3 m ρ c (Proc.devRef .tc main_v72)) (W3 m ρ c (Proc.devRef .tc main_v88)) (W3 m ρ c (Proc.devRef .tc main_arg4))
    (W3 m ρ c (Proc.devRef .tc main_v89)) = _
  rw [W3_arg m ρ c main_arg0 (by decide), W3_arg m ρ c main_arg4 (by decide), e0_v40, e0_v56, e0_v72, e0_v88, e0_v89]
  rfl

theorem x0_v90 : W4 m ρ c (Proc.devRef .tc main_v90) = (fH1 m c) := (W4_arr m ρ c 7).trans (out0 m ρ c)
theorem x0_v1 : W4 m ρ c (Proc.devRef .tc main_v1) = (eS m c) := (W4_of_ne m ρ c main_v1 (by decide)).trans (e0_v1 m ρ c)
theorem x0_v3 : W4 m ρ c (Proc.devRef .tc main_v3) = (eD m c) := (W4_of_ne m ρ c main_v3 (by decide)).trans (e0_v3 m ρ c)
theorem x0_v27 : W4 m ρ c (Proc.devRef .tc main_v27) = (eN m c) := (W4_of_ne m ρ c main_v27 (by decide)).trans (e0_v27 m ρ c)

theorem e1_v90 : W5 m ρ c (Proc.devRef .tc main_v90) = (fH1 m c) := (host1_v90 (W4 m ρ c)).trans (x0_v90 m ρ c)
theorem e1_v1 : W5 m ρ c (Proc.devRef .tc main_v1) = (eS m c) := (host1_v1 (W4 m ρ c)).trans (x0_v1 m ρ c)
theorem e1_v3 : W5 m ρ c (Proc.devRef .tc main_v3) = (eD m c) := (host1_v3 (W4 m ρ c)).trans (x0_v3 m ρ c)
theorem e1_v27 : W5 m ρ c (Proc.devRef .tc main_v27) = (eN m c) := (host1_v27 (W4 m ρ c)).trans (x0_v27 m ρ c)
theorem e1_v103 : W5 m ρ c (Proc.devRef .tc main_v103) = cheb1T (eS m c) (eD m c) (eN m c) (fH1 m c) := by
  refine (host1_v103 (W4 m ρ c)).trans ?_; rw [x0_v1, x0_v3, x0_v27, x0_v90]
theorem e1_v119 : W5 m ρ c (Proc.devRef .tc main_v119) = cheb2T (eS m c) (eD m c) (eN m c) (fH1 m c) := by
  refine (host1_v119 (W4 m ρ c)).trans ?_; rw [x0_v1, x0_v3, x0_v27, x0_v90]
theorem e1_v135 : W5 m ρ c (Proc.devRef .tc main_v135) = cheb3T (eS m c) (eD m c) (eN m c) (fH1 m c) := by
  refine (host1_v135 (W4 m ρ c)).trans ?_; rw [x0_v1, x0_v3, x0_v27, x0_v90]
theorem e1_v151 : W5 m ρ c (Proc.devRef .tc main_v151) = cheb4T (eS m c) (eD m c) (eN m c) (fH1 m c) := by
  refine (host1_v151 (W4 m ρ c)).trans ?_; rw [x0_v1, x0_v3, x0_v27, x0_v90]
theorem e1_v152 : W5 m ρ c (Proc.devRef .tc main_v152) = biasRow64T (aB2 m c) := by
  refine (host1_v152 (W4 m ρ c)).trans ?_; rw [W4_arg m ρ c main_arg7 (by decide)]

theorem out1 : (dat1 (V5 m ρ) c).arrAt 7 cfg1.N = (fH2 m c) := by
  refine (arr1_7 (V5 m ρ) c).trans ?_
  show dense64 (W5 m ρ c (Proc.devRef .tc main_v90)) (W5 m ρ c (Proc.devRef .tc main_v103)) (W5 m ρ c (Proc.devRef .tc main_v119))
    (W5 m ρ c (Proc.devRef .tc main_v135)) (W5 m ρ c (Proc.devRef .tc main_v151)) (W5 m ρ c (Proc.devRef .tc main_arg6))
    (W5 m ρ c (Proc.devRef .tc main_v152)) = _
  rw [e1_v90, W5_arg m ρ c main_arg6 (by decide), e1_v103, e1_v119, e1_v135, e1_v151, e1_v152]
  rfl

theorem x1_v153 : W6 m ρ c (Proc.devRef .tc main_v153) = (fH2 m c) := (W6_arr m ρ c 7).trans (out1 m ρ c)
theorem x1_v1 : W6 m ρ c (Proc.devRef .tc main_v1) = (eS m c) := (W6_of_ne m ρ c main_v1 (by decide)).trans (e1_v1 m ρ c)
theorem x1_v3 : W6 m ρ c (Proc.devRef .tc main_v3) = (eD m c) := (W6_of_ne m ρ c main_v3 (by decide)).trans (e1_v3 m ρ c)
theorem x1_v27 : W6 m ρ c (Proc.devRef .tc main_v27) = (eN m c) := (W6_of_ne m ρ c main_v27 (by decide)).trans (e1_v27 m ρ c)

theorem e2_v153 : W7 m ρ c (Proc.devRef .tc main_v153) = (fH2 m c) := (host2_v153 (W6 m ρ c)).trans (x1_v153 m ρ c)
theorem e2_v166 : W7 m ρ c (Proc.devRef .tc main_v166) = cheb1T (eS m c) (eD m c) (eN m c) (fH2 m c) := by
  refine (host2_v166 (W6 m ρ c)).trans ?_; rw [x1_v1, x1_v3, x1_v27, x1_v153]
theorem e2_v182 : W7 m ρ c (Proc.devRef .tc main_v182) = cheb2T (eS m c) (eD m c) (eN m c) (fH2 m c) := by
  refine (host2_v182 (W6 m ρ c)).trans ?_; rw [x1_v1, x1_v3, x1_v27, x1_v153]
theorem e2_v198 : W7 m ρ c (Proc.devRef .tc main_v198) = cheb3T (eS m c) (eD m c) (eN m c) (fH2 m c) := by
  refine (host2_v198 (W6 m ρ c)).trans ?_; rw [x1_v1, x1_v3, x1_v27, x1_v153]
theorem e2_v214 : W7 m ρ c (Proc.devRef .tc main_v214) = cheb4T (eS m c) (eD m c) (eN m c) (fH2 m c) := by
  refine (host2_v214 (W6 m ρ c)).trans ?_; rw [x1_v1, x1_v3, x1_v27, x1_v153]
theorem e2_v215 : W7 m ρ c (Proc.devRef .tc main_v215) = biasRow128T (aB3 m c) := by
  refine (host2_v215 (W6 m ρ c)).trans ?_; rw [W6_arg m ρ c main_arg9 (by decide)]

theorem out2 : (dat2 (V7 m ρ) c).arrAt 7 cfg2.N = (fH3 m c) := by
  refine (arr2_7 (V7 m ρ) c).trans ?_
  show dense128 (W7 m ρ c (Proc.devRef .tc main_v153)) (W7 m ρ c (Proc.devRef .tc main_v166)) (W7 m ρ c (Proc.devRef .tc main_v182))
    (W7 m ρ c (Proc.devRef .tc main_v198)) (W7 m ρ c (Proc.devRef .tc main_v214)) (W7 m ρ c (Proc.devRef .tc main_arg8))
    (W7 m ρ c (Proc.devRef .tc main_v215)) = _
  rw [e2_v153, W7_arg m ρ c main_arg8 (by decide), e2_v166, e2_v182, e2_v198, e2_v214, e2_v215]
  rfl

theorem x2_v216 : W8 m ρ c (Proc.devRef .tc main_v216) = (fH3 m c) := (W8_arr m ρ c 7).trans (out2 m ρ c)
theorem e3_v216 : W9 m ρ c (Proc.devRef .tc main_v216) = (fH3 m c) := (host3_v216 (W8 m ρ c)).trans (x2_v216 m ρ c)
theorem e3_v223 : W9 m ρ c (Proc.devRef .tc main_v223) = onehotT (aBt m c) := by
  refine (host3_v223 (W8 m ρ c)).trans ?_; rw [W8_arg m ρ c main_arg3 (by decide)]
theorem e3_v225 : W9 m ρ c (Proc.devRef .tc main_v225) = countsT (aBt m c) := by
  refine (host3_v225 (W8 m ρ c)).trans ?_; rw [W8_arg m ρ c main_arg3 (by decide)]
theorem e3_v226 : W9 m ρ c (Proc.devRef .tc main_v226) = biasRow2T (aBl m c) := by
  refine (host3_v226 (W8 m ρ c)).trans ?_; rw [W8_arg m ρ c main_arg11 (by decide)]

theorem out3_hg : (dat3 (V9 m ρ) c).arrAt 6 cfg3.N = netHg (aX m c) (aEi m c) (aEa m c) (aBt m c) (aW1 m c) (aB1 m c) (aW2 m c) (aB2 m c) (aW3 m c) (aB3 m c) := by
  refine (arr3_6 (V9 m ρ) c).trans ?_
  show poolHg (W9 m ρ c (Proc.devRef .tc main_v223)) (W9 m ρ c (Proc.devRef .tc main_v216)) (W9 m ρ c (Proc.devRef .tc main_v225)) = _
  rw [e3_v223, e3_v216, e3_v225]
  rfl

theorem out3_out : (dat3 (V9 m ρ) c).arrAt 5 cfg3.N = netOut (aX m c) (aEi m c) (aEa m c) (aBt m c) (aW1 m c) (aB1 m c) (aW2 m c) (aB2 m c) (aW3 m c) (aB3 m c) (aWl m c) (aBl m c) := by
  refine (arr3_5 (V9 m ρ) c).trans ?_
  show poolOut (W9 m ρ c (Proc.devRef .tc main_v223)) (W9 m ρ c (Proc.devRef .tc main_v216)) (W9 m ρ c (Proc.devRef .tc main_v225))
    (W9 m ρ c (Proc.devRef .tc main_arg10)) (W9 m ρ c (Proc.devRef .tc main_v226)) = _
  rw [e3_v223, e3_v216, e3_v225, W9_arg m ρ c main_arg10 (by decide), e3_v226]
  rfl

theorem res_out : W10 m ρ c (Proc.devRef .tc main_v227_0) = netOut (aX m c) (aEi m c) (aEa m c) (aBt m c) (aW1 m c) (aB1 m c) (aW2 m c) (aB2 m c) (aW3 m c) (aB3 m c) (aWl m c) (aBl m c) :=
  (W10_arr m ρ c 5).trans (out3_out m ρ c)
theorem res_hg : W10 m ρ c (Proc.devRef .tc main_v227_1) = netHg (aX m c) (aEi m c) (aEa m c) (aBt m c) (aW1 m c) (aB1 m c) (aW2 m c) (aB2 m c) (aW3 m c) (aB3 m c) :=
  (W10_arr m ρ c 6).trans (out3_hg m ρ c)

end Cert.KernelIdeal.Hand

end
-- ==== Proof.RefRun.lean ====
import proofs.«410163_j48198122996027_1_alg».proof.Proof.RefRead
import Idealize.ShloMosaic.Lib.StableHlo.Run
import Idealize.ShloMosaic.Lib.Pipeline.Regions
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem wsub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- A stretch whose operations touch only the program's own buffers, allocate nothing, and write only buffers of `W`. -/
structure Ok (ops : List (HloOp τ sig (Elt F))) (W : List (Ref sig .tc)) : Prop where
  sub : ops.Forall fun op => op.bufs ⊆ tcRefs τ sig
  fresh : ops.Forall fun op => op.fresh = ∅
  writes : ops.Forall fun op => op.writes ⊆ (W.map (Proc.devRef (τ := τ) .tc)).toFinset

theorem Ok.keep {ops : List (HloOp τ sig (Elt F))} {W : List (Ref sig .tc)} (h : Ok ops W) {V : Valuation τ sig (Elt F)}
    {r : Ref sig .tc} (hr : r ∉ W) : after ops V (Proc.devRef .tc r) = V (Proc.devRef .tc r) :=
  after_of_writes_sub ops V h.writes hr

/-- The two facts the run of a whole line asks of it; they pass to a concatenation. -/
def Line (ops : List (HloOp τ sig (Elt F))) : Prop :=
  (ops.Forall fun op => op.bufs ⊆ tcRefs τ sig) ∧ ops.Forall fun op => op.fresh = ∅

theorem Ok.line {ops : List (HloOp τ sig (Elt F))} {W : List (Ref sig .tc)} (h : Ok ops W) : Line ops := ⟨h.sub, h.fresh⟩

theorem Line.append {l₁ l₂ : List (HloOp τ sig (Elt F))} (h₁ : Line l₁) (h₂ : Line l₂) : Line (l₁ ++ l₂) :=
  ⟨List.forall_append.mpr ⟨h₁.1, h₂.1⟩, List.forall_append.mpr ⟨h₁.2, h₂.2⟩⟩

/-- Values for @main's twelve arguments. -/
structure Args (F : FTy → Type) where
  x0 : (⟨S50000x64, .f32⟩ : BufTy).Contents (Elt F)
  x1 : (⟨S2x800000, .i32⟩ : BufTy).Contents (Elt F)
  x2 : (⟨S800000, .f32⟩ : BufTy).Contents (Elt F)
  x3 : (⟨S50000, .i32⟩ : BufTy).Contents (Elt F)
  x4 : (⟨S5x64x64, .f32⟩ : BufTy).Contents (Elt F)
  x5 : (⟨S64, .f32⟩ : BufTy).Contents (Elt F)
  x6 : (⟨S5x64x64, .f32⟩ : BufTy).Contents (Elt F)
  x7 : (⟨S64, .f32⟩ : BufTy).Contents (Elt F)
  x8 : (⟨S5x64x128, .f32⟩ : BufTy).Contents (Elt F)
  x9 : (⟨S128, .f32⟩ : BufTy).Contents (Elt F)
  x10 : (⟨S128x2, .f32⟩ : BufTy).Contents (Elt F)
  x11 : (⟨S2, .f32⟩ : BufTy).Contents (Elt F)

def ArgsAt (X : Args F) (V : Valuation τ sig (Elt F)) : Prop :=
  V (Proc.devRef .tc main_arg0) = X.x0
  ∧ V (Proc.devRef .tc main_arg1) = X.x1
  ∧ V (Proc.devRef .tc main_arg2) = X.x2
  ∧ V (Proc.devRef .tc main_arg3) = X.x3
  ∧ V (Proc.devRef .tc main_arg4) = X.x4
  ∧ V (Proc.devRef .tc main_arg5) = X.x5
  ∧ V (Proc.devRef .tc main_arg6) = X.x6
  ∧ V (Proc.devRef .tc main_arg7) = X.x7
  ∧ V (Proc.devRef .tc main_arg8) = X.x8
  ∧ V (Proc.devRef .tc main_arg9) = X.x9
  ∧ V (Proc.devRef .tc main_arg10) = X.x10
  ∧ V (Proc.devRef .tc main_arg11) = X.x11

/-- Operations that write none of the arguments leave them as they were. -/
theorem ArgsAt.step {X : Args F} {ops : List (HloOp τ sig (Elt F))} {W : List (Ref sig .tc)} {V : Valuation τ sig (Elt F)}
    (h : ArgsAt X V) (hW : Ok ops W)
    (d : main_arg0 ∉ W ∧ main_arg1 ∉ W ∧ main_arg2 ∉ W ∧ main_arg3 ∉ W ∧ main_arg4 ∉ W ∧ main_arg5 ∉ W ∧ main_arg6 ∉ W ∧ main_arg7 ∉ W ∧ main_arg8 ∉ W ∧ main_arg9 ∉ W ∧ main_arg10 ∉ W ∧ main_arg11 ∉ W) :
    ArgsAt X (after ops V) := by
  obtain ⟨a0, a1, a2, a3, a4, a5, a6, a7, a8, a9, a10, a11⟩ := h
  obtain ⟨d0, d1, d2, d3, d4, d5, d6, d7, d8, d9, d10, d11⟩ := d
  exact ⟨(hW.keep d0).trans a0, (hW.keep d1).trans a1, (hW.keep d2).trans a2, (hW.keep d3).trans a3, (hW.keep d4).trans a4, (hW.keep d5).trans a5, (hW.keep d6).trans a6, (hW.keep d7).trans a7, (hW.keep d8).trans a8, (hW.keep d9).trans a9, (hW.keep d10).trans a10, (hW.keep d11).trans a11⟩

/-- The arguments and the three edge arrays every later stretch reads hold their values. -/
def BaseAt (X : Args F) (V : Valuation τ sig (Elt F)) : Prop :=
  ArgsAt X V ∧ V (Proc.devRef .tc main_v1) = ReadP.val_main_v1 (F := F) X.x1
  ∧ V (Proc.devRef .tc main_v3) = ReadP.val_main_v3 (F := F) X.x1
  ∧ V (Proc.devRef .tc main_v27) = ReadP.val_main_v27 (F := F) X.x1 X.x2

theorem BaseAt.step {X : Args F} {ops : List (HloOp τ sig (Elt F))} {W : List (Ref sig .tc)} {V : Valuation τ sig (Elt F)}
    (h : BaseAt X V) (hW : Ok ops W)
    (d : (main_arg0 ∉ W ∧ main_arg1 ∉ W ∧ main_arg2 ∉ W ∧ main_arg3 ∉ W ∧ main_arg4 ∉ W ∧ main_arg5 ∉ W ∧ main_arg6 ∉ W ∧ main_arg7 ∉ W ∧ main_arg8 ∉ W ∧ main_arg9 ∉ W ∧ main_arg10 ∉ W ∧ main_arg11 ∉ W) ∧ main_v1 ∉ W ∧ main_v3 ∉ W ∧ main_v27 ∉ W) :
    BaseAt X (after ops V) :=
  ⟨h.1.step hW d.1, (hW.keep d.2.1).trans h.2.1, (hW.keep d.2.2.1).trans h.2.2.1, (hW.keep d.2.2.2).trans h.2.2.2⟩

variable (X : Args F)

abbrev s0 : List (HloOp τ sig (Elt F)) :=
  [ unary main_arg1 main_v0 (extractStridedSlice S1x800000 ![0, 0] · slices_S2x800000_S1x800000_0_0),
    reshape main_v0 main_v1 rfl shapeCasts_S1x800000_S800000,
    unary main_arg1 main_v2 (extractStridedSlice S1x800000 ![1, 0] · slices_S2x800000_S1x800000_1_0),
    reshape main_v2 main_v3 rfl shapeCasts_S1x800000_S800000,
    nullary main_cst (constant S_ .f32 0x00000000#32),
    unary main_cst main_v4 (broadcastInDim S50000 ![] bcast_S_S50000),
    unary main_v1 main_v5 (broadcastInDim S800000x1 ![0] bcast_S800000_S800000x1_0),
    ternary main_v4 main_v5 main_arg2 main_v6 (fun x i u => Host.scatterAdd scatter_S50000_S800000x1_S800000_n_0_0_1 x i u) ]
abbrev w0 : List (Ref sig .tc) := [main_v0, main_v1, main_v2, main_v3, main_cst, main_v4, main_v5, main_v6]
theorem s0_ok : Ok (F := F) s0 w0 :=
  ⟨⟨unary_bufs_sub .., reshape_bufs_sub .., unary_bufs_sub .., reshape_bufs_sub .., nullary_bufs_sub .., unary_bufs_sub .., unary_bufs_sub .., ternary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step0 (V : Valuation τ sig (Elt F))
    (h : ArgsAt X V) :
    after s0 V (Proc.devRef .tc main_v1) = ReadP.val_main_v1 (F := F) X.x1
    ∧ after s0 V (Proc.devRef .tc main_v3) = ReadP.val_main_v3 (F := F) X.x1
    ∧ after s0 V (Proc.devRef .tc main_v6) = ReadP.val_main_v6 (F := F) X.x1 X.x2
    ∧ ArgsAt X (after s0 V) := by
  have hA := h
  obtain ⟨a0, a1, a2, a3, a4, a5, a6, a7, a8, a9, a10, a11⟩ := id hA
  exact ⟨by after_results_simp; rw [a1]; rfl,
    by after_results_simp; rw [a1]; rfl,
    by after_results_simp; rw [a1, a2]; rfl,
    hA.step s0_ok (by decide)⟩

abbrev s1 : List (HloOp τ sig (Elt F)) :=
  [ nullary main_cst_0 (constant S_ .f32 0x00000000#32),
    unary main_cst_0 main_v7 (broadcastInDim S50000 ![] bcast_S_S50000),
    binary main_v6 main_v7 main_v8 (cmpf .ogt),
    unary main_v6 main_v9 (Host.rsqrt),
    nullary main_cst_1 (constant S_ .f32 0x00000000#32),
    TRef.unary (TRef.of (T := ⟨S_, .f32⟩) main_cst_1) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v8) (TRef.of (T := ⟨S50000, .f32⟩) main_v9) (TRef.of (T := ⟨S50000, .f32⟩) main_call0_v1) (TRef.of (T := ⟨S50000, .f32⟩) main_v10) select ]
abbrev w1 : List (Ref sig .tc) := [main_cst_0, main_v7, main_v8, main_v9, main_cst_1, main_call0_v0, main_call0_v1, main_v10]
theorem s1_ok : Ok (F := F) s1 w1 :=
  ⟨⟨nullary_bufs_sub .., unary_bufs_sub .., binary_bufs_sub .., unary_bufs_sub .., nullary_bufs_sub .., unary_bufs_sub .., unary_bufs_sub .., ternary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step1 (V : Valuation τ sig (Elt F))
    (h : V (Proc.devRef .tc main_v1) = ReadP.val_main_v1 (F := F) X.x1
      ∧ V (Proc.devRef .tc main_v3) = ReadP.val_main_v3 (F := F) X.x1
      ∧ V (Proc.devRef .tc main_v6) = ReadP.val_main_v6 (F := F) X.x1 X.x2
      ∧ ArgsAt X V) :
    after s1 V (Proc.devRef .tc main_v1) = ReadP.val_main_v1 (F := F) X.x1
    ∧ after s1 V (Proc.devRef .tc main_v3) = ReadP.val_main_v3 (F := F) X.x1
    ∧ after s1 V (Proc.devRef .tc main_v10) = ReadP.val_main_v10 (F := F) X.x1 X.x2
    ∧ ArgsAt X (after s1 V) := by
  obtain ⟨h_main_v1, h_main_v3, h_main_v6, hA⟩ := h
  exact ⟨(s1_ok.keep (by decide)).trans h_main_v1,
    (s1_ok.keep (by decide)).trans h_main_v3,
    by after_results_simp; rw [h_main_v6]; rfl,
    hA.step s1_ok (by decide)⟩

abbrev s2 : List (HloOp τ sig (Elt F)) :=
  [ nullary main_c (constantI S_ 32 0#32),
    unary main_c main_v11 (broadcastInDim S800000 ![] bcast_S_S800000),
    binary main_v1 main_v11 main_v12 (cmpi .slt),
    nullary main_c_2 (constantI S_ 32 50000#32),
    unary main_c_2 main_v13 (broadcastInDim S800000 ![] bcast_S_S800000),
    binary main_v1 main_v13 main_v14 (addi),
    ternary main_v12 main_v14 main_v1 main_v15 (select),
    unary main_v15 main_v16 (broadcastInDim S800000x1 ![0] bcast_S800000_S800000x1_0) ]
abbrev w2 : List (Ref sig .tc) := [main_c, main_v11, main_v12, main_c_2, main_v13, main_v14, main_v15, main_v16]
theorem s2_ok : Ok (F := F) s2 w2 :=
  ⟨⟨nullary_bufs_sub .., unary_bufs_sub .., binary_bufs_sub .., nullary_bufs_sub .., unary_bufs_sub .., binary_bufs_sub .., ternary_bufs_sub .., unary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step2 (V : Valuation τ sig (Elt F))
    (h : V (Proc.devRef .tc main_v1) = ReadP.val_main_v1 (F := F) X.x1
      ∧ V (Proc.devRef .tc main_v3) = ReadP.val_main_v3 (F := F) X.x1
      ∧ V (Proc.devRef .tc main_v10) = ReadP.val_main_v10 (F := F) X.x1 X.x2
      ∧ ArgsAt X V) :
    after s2 V (Proc.devRef .tc main_v1) = ReadP.val_main_v1 (F := F) X.x1
    ∧ after s2 V (Proc.devRef .tc main_v3) = ReadP.val_main_v3 (F := F) X.x1
    ∧ after s2 V (Proc.devRef .tc main_v10) = ReadP.val_main_v10 (F := F) X.x1 X.x2
    ∧ after s2 V (Proc.devRef .tc main_v16) = ReadP.val_main_v16 (F := F) X.x1
    ∧ ArgsAt X (after s2 V) := by
  obtain ⟨h_main_v1, h_main_v3, h_main_v10, hA⟩ := h
  exact ⟨(s2_ok.keep (by decide)).trans h_main_v1,
    (s2_ok.keep (by decide)).trans h_main_v3,
    (s2_ok.keep (by decide)).trans h_main_v10,
    by after_results_simp; rw [h_main_v1]; rfl,
    hA.step s2_ok (by decide)⟩

abbrev s3 : List (HloOp τ sig (Elt F)) :=
  [ binary main_v10 main_v16 main_v17 (fun x i => Host.gather gather_S50000_S800000x1_S800000_n_0_n_n_0_1_1 x i),
    unary main_v17 main_v18 (Host.negf),
    binary main_v18 main_arg2 main_v19 (mulf),
    nullary main_c_3 (constantI S_ 32 0#32),
    unary main_c_3 main_v20 (broadcastInDim S800000 ![] bcast_S_S800000),
    binary main_v3 main_v20 main_v21 (cmpi .slt),
    nullary main_c_4 (constantI S_ 32 50000#32),
    unary main_c_4 main_v22 (broadcastInDim S800000 ![] bcast_S_S800000) ]
abbrev w3 : List (Ref sig .tc) := [main_v17, main_v18, main_v19, main_c_3, main_v20, main_v21, main_c_4, main_v22]
theorem s3_ok : Ok (F := F) s3 w3 :=
  ⟨⟨binary_bufs_sub .., unary_bufs_sub .., binary_bufs_sub .., nullary_bufs_sub .., unary_bufs_sub .., binary_bufs_sub .., nullary_bufs_sub .., unary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step3 (V : Valuation τ sig (Elt F))
    (h : V (Proc.devRef .tc main_v1) = ReadP.val_main_v1 (F := F) X.x1
      ∧ V (Proc.devRef .tc main_v3) = ReadP.val_main_v3 (F := F) X.x1
      ∧ V (Proc.devRef .tc main_v10) = ReadP.val_main_v10 (F := F) X.x1 X.x2
      ∧ V (Proc.devRef .tc main_v16) = ReadP.val_main_v16 (F := F) X.x1
      ∧ ArgsAt X V) :
    after s3 V (Proc.devRef .tc main_v1) = ReadP.val_main_v1 (F := F) X.x1
    ∧ after s3 V (Proc.devRef .tc main_v3) = ReadP.val_main_v3 (F := F) X.x1
    ∧ after s3 V (Proc.devRef .tc main_v10) = ReadP.val_main_v10 (F := F) X.x1 X.x2
    ∧ after s3 V (Proc.devRef .tc main_v19) = ReadP.val_main_v19 (F := F) X.x1 X.x2
    ∧ after s3 V (Proc.devRef .tc main_v21) = ReadP.val_main_v21 (F := F) X.x1
    ∧ after s3 V (Proc.devRef .tc main_v22) = ReadP.val_main_v22 (F := F)
    ∧ ArgsAt X (after s3 V) := by
  obtain ⟨h_main_v1, h_main_v3, h_main_v10, h_main_v16, hA⟩ := h
  obtain ⟨a0, a1, a2, a3, a4, a5, a6, a7, a8, a9, a10, a11⟩ := id hA
  exact ⟨(s3_ok.keep (by decide)).trans h_main_v1,
    (s3_ok.keep (by decide)).trans h_main_v3,
    (s3_ok.keep (by decide)).trans h_main_v10,
    by after_results_simp; rw [h_main_v10, h_main_v16, a2]; rfl,
    by after_results_simp; rw [h_main_v3]; rfl,
    by after_results_simp; rfl,
    hA.step s3_ok (by decide)⟩

abbrev s4 : List (HloOp τ sig (Elt F)) :=
  [ binary main_v3 main_v22 main_v23 (addi),
    ternary main_v21 main_v23 main_v3 main_v24 (select),
    unary main_v24 main_v25 (broadcastInDim S800000x1 ![0] bcast_S800000_S800000x1_0),
    binary main_v10 main_v25 main_v26 (fun x i => Host.gather gather_S50000_S800000x1_S800000_n_0_n_n_0_1_1 x i),
    binary main_v19 main_v26 main_v27 (mulf),
    unary main_arg4 main_v28 (extractStridedSlice S1x64x64 ![0, 0, 0] · slices_S5x64x64_S1x64x64_0_0_0),
    reshape main_v28 main_v29 rfl shapeCasts_S1x64x64_S64x64,
    binary main_arg0 main_v29 main_v30 (fun l r => Host.dotGeneral dot_S50000x64_S64x64_S50000x64_1_0_0_1_n_n none l r) ]
abbrev w4 : List (Ref sig .tc) := [main_v23, main_v24, main_v25, main_v26, main_v27, main_v28, main_v29, main_v30]
theorem s4_ok : Ok (F := F) s4 w4 :=
  ⟨⟨binary_bufs_sub .., ternary_bufs_sub .., unary_bufs_sub .., binary_bufs_sub .., binary_bufs_sub .., unary_bufs_sub .., reshape_bufs_sub .., binary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step4 (V : Valuation τ sig (Elt F))
    (h : V (Proc.devRef .tc main_v1) = ReadP.val_main_v1 (F := F) X.x1
      ∧ V (Proc.devRef .tc main_v3) = ReadP.val_main_v3 (F := F) X.x1
      ∧ V (Proc.devRef .tc main_v10) = ReadP.val_main_v10 (F := F) X.x1 X.x2
      ∧ V (Proc.devRef .tc main_v19) = ReadP.val_main_v19 (F := F) X.x1 X.x2
      ∧ V (Proc.devRef .tc main_v21) = ReadP.val_main_v21 (F := F) X.x1
      ∧ V (Proc.devRef .tc main_v22) = ReadP.val_main_v22 (F := F)
      ∧ ArgsAt X V) :
    after s4 V (Proc.devRef .tc main_v30) = ReadP.val_main_v30 (F := F) X.x0 X.x4
    ∧ BaseAt X (after s4 V) := by
  obtain ⟨h_main_v1, h_main_v3, h_main_v10, h_main_v19, h_main_v21, h_main_v22, hA⟩ := h
  obtain ⟨a0, a1, a2, a3, a4, a5, a6, a7, a8, a9, a10, a11⟩ := id hA
  exact ⟨by after_results_simp; rw [a0, a4]; rfl,
    ⟨hA.step s4_ok (by decide), (s4_ok.keep (by decide)).trans h_main_v1, (s4_ok.keep (by decide)).trans h_main_v3, by after_results_simp; rw [h_main_v19, h_main_v10, h_main_v21, h_main_v3, h_main_v22]; rfl⟩⟩

abbrev s5 : List (HloOp τ sig (Elt F)) :=
  [ unary main_v27 main_v31 (broadcastInDim S800000x1 ![0] bcast_S800000_S800000x1_0),
    nullary main_c_5 (constantI S_ 32 0#32),
    unary main_c_5 main_v32 (broadcastInDim S800000 ![] bcast_S_S800000),
    binary main_v1 main_v32 main_v33 (cmpi .slt),
    nullary main_c_6 (constantI S_ 32 50000#32),
    unary main_c_6 main_v34 (broadcastInDim S800000 ![] bcast_S_S800000),
    binary main_v1 main_v34 main_v35 (addi),
    ternary main_v33 main_v35 main_v1 main_v36 (select) ]
abbrev w5 : List (Ref sig .tc) := [main_v31, main_c_5, main_v32, main_v33, main_c_6, main_v34, main_v35, main_v36]
theorem s5_ok : Ok (F := F) s5 w5 :=
  ⟨⟨unary_bufs_sub .., nullary_bufs_sub .., unary_bufs_sub .., binary_bufs_sub .., nullary_bufs_sub .., unary_bufs_sub .., binary_bufs_sub .., ternary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step5 (V : Valuation τ sig (Elt F))
    (h : V (Proc.devRef .tc main_v30) = ReadP.val_main_v30 (F := F) X.x0 X.x4
      ∧ BaseAt X V) :
    after s5 V (Proc.devRef .tc main_v30) = ReadP.val_main_v30 (F := F) X.x0 X.x4
    ∧ after s5 V (Proc.devRef .tc main_v31) = ReadP.val_main_v31 (F := F) X.x1 X.x2
    ∧ after s5 V (Proc.devRef .tc main_v36) = ReadP.val_main_v36 (F := F) X.x1
    ∧ BaseAt X (after s5 V) := by
  obtain ⟨h_main_v30, hB⟩ := h
  obtain ⟨hA, h_main_v1, h_main_v3, h_main_v27⟩ := id hB
  exact ⟨(s5_ok.keep (by decide)).trans h_main_v30,
    by after_results_simp; rw [h_main_v27]; rfl,
    by after_results_simp; rw [h_main_v1]; rfl,
    hB.step s5_ok (by decide)⟩

abbrev s6 : List (HloOp τ sig (Elt F)) :=
  [ unary main_v36 main_v37 (broadcastInDim S800000x1 ![0] bcast_S800000_S800000x1_0),
    binary main_arg0 main_v37 main_v38 (fun x i => Host.gather gather_S50000x64_S800000x1_S800000x64_1_0_n_n_0_1_164 x i),
    unary main_v31 main_v39 (broadcastInDim S800000x64 ![0, 1] bcast_S800000x1_S800000x64_0_1),
    binary main_v39 main_v38 main_v40 (mulf),
    nullary main_cst_7 (constant S_ .f32 0x00000000#32),
    unary main_cst_7 main_v41 (broadcastInDim S50000x64 ![] bcast_S_S50000x64),
    unary main_v3 main_v42 (broadcastInDim S800000x1 ![0] bcast_S800000_S800000x1_0) ]
abbrev w6 : List (Ref sig .tc) := [main_v37, main_v38, main_v39, main_v40, main_cst_7, main_v41, main_v42]
theorem s6_ok : Ok (F := F) s6 w6 :=
  ⟨⟨unary_bufs_sub .., binary_bufs_sub .., unary_bufs_sub .., binary_bufs_sub .., nullary_bufs_sub .., unary_bufs_sub .., unary_bufs_sub ..⟩,
    ⟨rfl, rfl, rfl, rfl, rfl, rfl, rfl⟩,
    ⟨wsub (by decide), wsub (by decide), wsub (by decide), wsub (by decide), wsub (by decide), wsub (by decide), wsub (by decide)⟩⟩

set_option maxRecDepth 8192 in
theorem step6 (V : Valuation τ sig (Elt F))
    (h : V (Proc.devRef .tc main_v30) = ReadP.val_main_v30 (F := F) X.x0 X.x4
      ∧ V (Proc.devRef .tc main_v31) = ReadP.val_main_v31 (F := F) X.x1 X.x2
      ∧ V (Proc.devRef .tc main_v36) = ReadP.val_main_v36 (F := F) X.x1
      ∧ BaseAt X V) :
    after s6 V (Proc.devRef .tc main_v30) = ReadP.val_main_v30 (F := F) X.x0 X.x4
    ∧ after s6 V (Proc.devRef .tc main_v40) = ReadP.val_main_v40 (F := F) X.x0 X.x1 X.x2
    ∧ after s6 V (Proc.devRef .tc main_v41) = ReadP.val_main_v41 (F := F)
    ∧ after s6 V (Proc.devRef .tc main_v42) = ReadP.val_main_v42 (F := F) X.x1
    ∧ BaseAt X (after s6 V) := by
  obtain ⟨h_main_v30, h_main_v31, h_main_v36, hB⟩ := h
  obtain ⟨hA, h_main_v1, h_main_v3, h_main_v27⟩ := id hB
  obtain ⟨a0, a1, a2, a3, a4, a5, a6, a7, a8, a9, a10, a11⟩ := id hA
  exact ⟨(s6_ok.keep (by decide)).trans h_main_v30,
    by after_results_simp; rw [h_main_v31, a0, h_main_v36]; rfl,
    by after_results_simp; rfl,
    by after_results_simp; rw [h_main_v3]; rfl,
    hB.step s6_ok (by decide)⟩

abbrev s7 : List (HloOp τ sig (Elt F)) :=
  [ ternary main_v41 main_v42 main_v40 main_v43 (fun x i u => Host.scatterAdd scatter_S50000x64_S800000x1_S800000x64_1_0_0_1 x i u),
    unary main_arg4 main_v44 (extractStridedSlice S1x64x64 ![1, 0, 0] · slices_S5x64x64_S1x64x64_1_0_0),
    reshape main_v44 main_v45 rfl shapeCasts_S1x64x64_S64x64,
    binary main_v43 main_v45 main_v46 (fun l r => Host.dotGeneral dot_S50000x64_S64x64_S50000x64_1_0_0_1_n_n none l r),
    binary main_v30 main_v46 main_v47 (addf),
    unary main_v27 main_v48 (broadcastInDim S800000x1 ![0] bcast_S800000_S800000x1_0),
    nullary main_c_8 (constantI S_ 32 0#32) ]
abbrev w7 : List (Ref sig .tc) := [main_v43, main_v44, main_v45, main_v46, main_v47, main_v48, main_c_8]
theorem s7_ok : Ok (F := F) s7 w7 :=
  ⟨⟨ternary_bufs_sub .., unary_bufs_sub .., reshape_bufs_sub .., binary_bufs_sub .., binary_bufs_sub .., unary_bufs_sub .., nullary_bufs_sub ..⟩,
    ⟨rfl, rfl, rfl, rfl, rfl, rfl, rfl⟩,
    ⟨wsub (by decide), wsub (by decide), wsub (by decide), wsub (by decide), wsub (by decide), wsub (by decide), wsub (by decide)⟩⟩

set_option maxRecDepth 8192 in
theorem step7 (V : Valuation τ sig (Elt F))
    (h : V (Proc.devRef .tc main_v30) = ReadP.val_main_v30 (F := F) X.x0 X.x4
      ∧ V (Proc.devRef .tc main_v40) = ReadP.val_main_v40 (F := F) X.x0 X.x1 X.x2
      ∧ V (Proc.devRef .tc main_v41) = ReadP.val_main_v41 (F := F)
      ∧ V (Proc.devRef .tc main_v42) = ReadP.val_main_v42 (F := F) X.x1
      ∧ BaseAt X V) :
    after s7 V (Proc.devRef .tc main_v43) = ReadP.val_main_v43 (F := F) X.x0 X.x1 X.x2
    ∧ after s7 V (Proc.devRef .tc main_v47) = ReadP.val_main_v47 (F := F) X.x0 X.x1 X.x2 X.x4
    ∧ after s7 V (Proc.devRef .tc main_v48) = ReadP.val_main_v48 (F := F) X.x1 X.x2
    ∧ after s7 V (Proc.devRef .tc main_c_8) = ReadP.val_main_c_8 (F := F)
    ∧ BaseAt X (after s7 V) := by
  obtain ⟨h_main_v30, h_main_v40, h_main_v41, h_main_v42, hB⟩ := h
  obtain ⟨hA, h_main_v1, h_main_v3, h_main_v27⟩ := id hB
  obtain ⟨a0, a1, a2, a3, a4, a5, a6, a7, a8, a9, a10, a11⟩ := id hA
  exact ⟨by after_results_simp; rw [h_main_v41, h_main_v42, h_main_v40]; rfl,
    by after_results_simp; rw [h_main_v30, h_main_v41, h_main_v42, h_main_v40, a4]; rfl,
    by after_results_simp; rw [h_main_v27]; rfl,
    by after_results_simp; rfl,
    hB.step s7_ok (by decide)⟩

set_option maxRecDepth 8192 in
theorem main_part0_eq (c : Dev nD) : main_part0 (F := F) c = seq (s0 ++ (s1 ++ (s2 ++ (s3 ++ (s4 ++ (s5 ++ (s6 ++ (s7)))))))) := by chain_rfl

abbrev s8 : List (HloOp τ sig (Elt F)) :=
  [ unary main_c_8 main_v49 (broadcastInDim S800000 ![] bcast_S_S800000),
    binary main_v1 main_v49 main_v50 (cmpi .slt),
    nullary main_c_9 (constantI S_ 32 50000#32),
    unary main_c_9 main_v51 (broadcastInDim S800000 ![] bcast_S_S800000),
    binary main_v1 main_v51 main_v52 (addi),
    ternary main_v50 main_v52 main_v1 main_v53 (select),
    unary main_v53 main_v54 (broadcastInDim S800000x1 ![0] bcast_S800000_S800000x1_0),
    binary main_v43 main_v54 main_v55 (fun x i => Host.gather gather_S50000x64_S800000x1_S800000x64_1_0_n_n_0_1_164 x i) ]
abbrev w8 : List (Ref sig .tc) := [main_v49, main_v50, main_c_9, main_v51, main_v52, main_v53, main_v54, main_v55]
theorem s8_ok : Ok (F := F) s8 w8 :=
  ⟨⟨unary_bufs_sub .., binary_bufs_sub .., nullary_bufs_sub .., unary_bufs_sub .., binary_bufs_sub .., ternary_bufs_sub .., unary_bufs_sub .., binary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step8 (V : Valuation τ sig (Elt F))
    (h : V (Proc.devRef .tc main_v43) = ReadP.val_main_v43 (F := F) X.x0 X.x1 X.x2
      ∧ V (Proc.devRef .tc main_v47) = ReadP.val_main_v47 (F := F) X.x0 X.x1 X.x2 X.x4
      ∧ V (Proc.devRef .tc main_v48) = ReadP.val_main_v48 (F := F) X.x1 X.x2
      ∧ V (Proc.devRef .tc main_c_8) = ReadP.val_main_c_8 (F := F)
      ∧ BaseAt X V) :
    after s8 V (Proc.devRef .tc main_v43) = ReadP.val_main_v43 (F := F) X.x0 X.x1 X.x2
    ∧ after s8 V (Proc.devRef .tc main_v47) = ReadP.val_main_v47 (F := F) X.x0 X.x1 X.x2 X.x4
    ∧ after s8 V (Proc.devRef .tc main_v48) = ReadP.val_main_v48 (F := F) X.x1 X.x2
    ∧ after s8 V (Proc.devRef .tc main_v55) = ReadP.val_main_v55 (F := F) X.x0 X.x1 X.x2
    ∧ BaseAt X (after s8 V) := by
  obtain ⟨h_main_v43, h_main_v47, h_main_v48, h_main_c_8, hB⟩ := h
  obtain ⟨hA, h_main_v1, h_main_v3, h_main_v27⟩ := id hB
  exact ⟨(s8_ok.keep (by decide)).trans h_main_v43,
    (s8_ok.keep (by decide)).trans h_main_v47,
    (s8_ok.keep (by decide)).trans h_main_v48,
    by after_results_simp; rw [h_main_v43, h_main_v1, h_main_c_8]; rfl,
    hB.step s8_ok (by decide)⟩

abbrev s9 : List (HloOp τ sig (Elt F)) :=
  [ unary main_v48 main_v56 (broadcastInDim S800000x64 ![0, 1] bcast_S800000x1_S800000x64_0_1),
    binary main_v56 main_v55 main_v57 (mulf),
    nullary main_cst_10 (constant S_ .f32 0x00000000#32),
    unary main_cst_10 main_v58 (broadcastInDim S50000x64 ![] bcast_S_S50000x64),
    unary main_v3 main_v59 (broadcastInDim S800000x1 ![0] bcast_S800000_S800000x1_0),
    ternary main_v58 main_v59 main_v57 main_v60 (fun x i u => Host.scatterAdd scatter_S50000x64_S800000x1_S800000x64_1_0_0_1 x i u),
    nullary main_cst_11 (constant S_ .f32 0x40000000#32),
    unary main_cst_11 main_v61 (broadcastInDim S50000x64 ![] bcast_S_S50000x64) ]
abbrev w9 : List (Ref sig .tc) := [main_v56, main_v57, main_cst_10, main_v58, main_v59, main_v60, main_cst_11, main_v61]
theorem s9_ok : Ok (F := F) s9 w9 :=
  ⟨⟨unary_bufs_sub .., binary_bufs_sub .., nullary_bufs_sub .., unary_bufs_sub .., unary_bufs_sub .., ternary_bufs_sub .., nullary_bufs_sub .., unary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step9 (V : Valuation τ sig (Elt F))
    (h : V (Proc.devRef .tc main_v43) = ReadP.val_main_v43 (F := F) X.x0 X.x1 X.x2
      ∧ V (Proc.devRef .tc main_v47) = ReadP.val_main_v47 (F := F) X.x0 X.x1 X.x2 X.x4
      ∧ V (Proc.devRef .tc main_v48) = ReadP.val_main_v48 (F := F) X.x1 X.x2
      ∧ V (Proc.devRef .tc main_v55) = ReadP.val_main_v55 (F := F) X.x0 X.x1 X.x2
      ∧ BaseAt X V) :
    after s9 V (Proc.devRef .tc main_v43) = ReadP.val_main_v43 (F := F) X.x0 X.x1 X.x2
    ∧ after s9 V (Proc.devRef .tc main_v47) = ReadP.val_main_v47 (F := F) X.x0 X.x1 X.x2 X.x4
    ∧ after s9 V (Proc.devRef .tc main_v60) = ReadP.val_main_v60 (F := F) X.x0 X.x1 X.x2
    ∧ after s9 V (Proc.devRef .tc main_v61) = ReadP.val_main_v61 (F := F)
    ∧ BaseAt X (after s9 V) := by
  obtain ⟨h_main_v43, h_main_v47, h_main_v48, h_main_v55, hB⟩ := h
  obtain ⟨hA, h_main_v1, h_main_v3, h_main_v27⟩ := id hB
  exact ⟨(s9_ok.keep (by decide)).trans h_main_v43,
    (s9_ok.keep (by decide)).trans h_main_v47,
    by after_results_simp; rw [h_main_v3, h_main_v48, h_main_v55]; rfl,
    by after_results_simp; rfl,
    hB.step s9_ok (by decide)⟩

abbrev s10 : List (HloOp τ sig (Elt F)) :=
  [ binary main_v61 main_v60 main_v62 (mulf),
    binary main_v62 main_arg0 main_v63 (subf),
    unary main_arg4 main_v64 (extractStridedSlice S1x64x64 ![2, 0, 0] · slices_S5x64x64_S1x64x64_2_0_0),
    reshape main_v64 main_v65 rfl shapeCasts_S1x64x64_S64x64,
    binary main_v63 main_v65 main_v66 (fun l r => Host.dotGeneral dot_S50000x64_S64x64_S50000x64_1_0_0_1_n_n none l r),
    binary main_v47 main_v66 main_v67 (addf),
    unary main_v27 main_v68 (broadcastInDim S800000x1 ![0] bcast_S800000_S800000x1_0),
    nullary main_c_12 (constantI S_ 32 0#32) ]
abbrev w10 : List (Ref sig .tc) := [main_v62, main_v63, main_v64, main_v65, main_v66, main_v67, main_v68, main_c_12]
theorem s10_ok : Ok (F := F) s10 w10 :=
  ⟨⟨binary_bufs_sub .., binary_bufs_sub .., unary_bufs_sub .., reshape_bufs_sub .., binary_bufs_sub .., binary_bufs_sub .., unary_bufs_sub .., nullary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step10 (V : Valuation τ sig (Elt F))
    (h : V (Proc.devRef .tc main_v43) = ReadP.val_main_v43 (F := F) X.x0 X.x1 X.x2
      ∧ V (Proc.devRef .tc main_v47) = ReadP.val_main_v47 (F := F) X.x0 X.x1 X.x2 X.x4
      ∧ V (Proc.devRef .tc main_v60) = ReadP.val_main_v60 (F := F) X.x0 X.x1 X.x2
      ∧ V (Proc.devRef .tc main_v61) = ReadP.val_main_v61 (F := F)
      ∧ BaseAt X V) :
    after s10 V (Proc.devRef .tc main_v43) = ReadP.val_main_v43 (F := F) X.x0 X.x1 X.x2
    ∧ after s10 V (Proc.devRef .tc main_v63) = ReadP.val_main_v63 (F := F) X.x0 X.x1 X.x2
    ∧ after s10 V (Proc.devRef .tc main_v67) = ReadP.val_main_v67 (F := F) X.x0 X.x1 X.x2 X.x4
    ∧ after s10 V (Proc.devRef .tc main_v68) = ReadP.val_main_v68 (F := F) X.x1 X.x2
    ∧ after s10 V (Proc.devRef .tc main_c_12) = ReadP.val_main_c_12 (F := F)
    ∧ BaseAt X (after s10 V) := by
  obtain ⟨h_main_v43, h_main_v47, h_main_v60, h_main_v61, hB⟩ := h
  obtain ⟨hA, h_main_v1, h_main_v3, h_main_v27⟩ := id hB
  obtain ⟨a0, a1, a2, a3, a4, a5, a6, a7, a8, a9, a10, a11⟩ := id hA
  exact ⟨(s10_ok.keep (by decide)).trans h_main_v43,
    by after_results_simp; rw [h_main_v61, h_main_v60, a0]; rfl,
    by after_results_simp; rw [h_main_v47, h_main_v61, h_main_v60, a0, a4]; rfl,
    by after_results_simp; rw [h_main_v27]; rfl,
    by after_results_simp; rfl,
    hB.step s10_ok (by decide)⟩

abbrev s11 : List (HloOp τ sig (Elt F)) :=
  [ unary main_c_12 main_v69 (broadcastInDim S800000 ![] bcast_S_S800000),
    binary main_v1 main_v69 main_v70 (cmpi .slt),
    nullary main_c_13 (constantI S_ 32 50000#32),
    unary main_c_13 main_v71 (broadcastInDim S800000 ![] bcast_S_S800000),
    binary main_v1 main_v71 main_v72 (addi),
    ternary main_v70 main_v72 main_v1 main_v73 (select),
    unary main_v73 main_v74 (broadcastInDim S800000x1 ![0] bcast_S800000_S800000x1_0),
    binary main_v63 main_v74 main_v75 (fun x i => Host.gather gather_S50000x64_S800000x1_S800000x64_1_0_n_n_0_1_164 x i) ]
abbrev w11 : List (Ref sig .tc) := [main_v69, main_v70, main_c_13, main_v71, main_v72, main_v73, main_v74, main_v75]
theorem s11_ok : Ok (F := F) s11 w11 :=
  ⟨⟨unary_bufs_sub .., binary_bufs_sub .., nullary_bufs_sub .., unary_bufs_sub .., binary_bufs_sub .., ternary_bufs_sub .., unary_bufs_sub .., binary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step11 (V : Valuation τ sig (Elt F))
    (h : V (Proc.devRef .tc main_v43) = ReadP.val_main_v43 (F := F) X.x0 X.x1 X.x2
      ∧ V (Proc.devRef .tc main_v63) = ReadP.val_main_v63 (F := F) X.x0 X.x1 X.x2
      ∧ V (Proc.devRef .tc main_v67) = ReadP.val_main_v67 (F := F) X.x0 X.x1 X.x2 X.x4
      ∧ V (Proc.devRef .tc main_v68) = ReadP.val_main_v68 (F := F) X.x1 X.x2
      ∧ V (Proc.devRef .tc main_c_12) = ReadP.val_main_c_12 (F := F)
      ∧ BaseAt X V) :
    after s11 V (Proc.devRef .tc main_v43) = ReadP.val_main_v43 (F := F) X.x0 X.x1 X.x2
    ∧ after s11 V (Proc.devRef .tc main_v63) = ReadP.val_main_v63 (F := F) X.x0 X.x1 X.x2
    ∧ after s11 V (Proc.devRef .tc main_v67) = ReadP.val_main_v67 (F := F) X.x0 X.x1 X.x2 X.x4
    ∧ after s11 V (Proc.devRef .tc main_v68) = ReadP.val_main_v68 (F := F) X.x1 X.x2
    ∧ after s11 V (Proc.devRef .tc main_v75) = ReadP.val_main_v75 (F := F) X.x0 X.x1 X.x2
    ∧ BaseAt X (after s11 V) := by
  obtain ⟨h_main_v43, h_main_v63, h_main_v67, h_main_v68, h_main_c_12, hB⟩ := h
  obtain ⟨hA, h_main_v1, h_main_v3, h_main_v27⟩ := id hB
  exact ⟨(s11_ok.keep (by decide)).trans h_main_v43,
    (s11_ok.keep (by decide)).trans h_main_v63,
    (s11_ok.keep (by decide)).trans h_main_v67,
    (s11_ok.keep (by decide)).trans h_main_v68,
    by after_results_simp; rw [h_main_v63, h_main_v1, h_main_c_12]; rfl,
    hB.step s11_ok (by decide)⟩

abbrev s12 : List (HloOp τ sig (Elt F)) :=
  [ unary main_v68 main_v76 (broadcastInDim S800000x64 ![0, 1] bcast_S800000x1_S800000x64_0_1),
    binary main_v76 main_v75 main_v77 (mulf),
    nullary main_cst_14 (constant S_ .f32 0x00000000#32),
    unary main_cst_14 main_v78 (broadcastInDim S50000x64 ![] bcast_S_S50000x64),
    unary main_v3 main_v79 (broadcastInDim S800000x1 ![0] bcast_S800000_S800000x1_0),
    ternary main_v78 main_v79 main_v77 main_v80 (fun x i u => Host.scatterAdd scatter_S50000x64_S800000x1_S800000x64_1_0_0_1 x i u),
    nullary main_cst_15 (constant S_ .f32 0x40000000#32) ]
abbrev w12 : List (Ref sig .tc) := [main_v76, main_v77, main_cst_14, main_v78, main_v79, main_v80, main_cst_15]
theorem s12_ok : Ok (F := F) s12 w12 :=
  ⟨⟨unary_bufs_sub .., binary_bufs_sub .., nullary_bufs_sub .., unary_bufs_sub .., unary_bufs_sub .., ternary_bufs_sub .., nullary_bufs_sub ..⟩,
    ⟨rfl, rfl, rfl, rfl, rfl, rfl, rfl⟩,
    ⟨wsub (by decide), wsub (by decide), wsub (by decide), wsub (by decide), wsub (by decide), wsub (by decide), wsub (by decide)⟩⟩

set_option maxRecDepth 8192 in
theorem step12 (V : Valuation τ sig (Elt F))
    (h : V (Proc.devRef .tc main_v43) = ReadP.val_main_v43 (F := F) X.x0 X.x1 X.x2
      ∧ V (Proc.devRef .tc main_v63) = ReadP.val_main_v63 (F := F) X.x0 X.x1 X.x2
      ∧ V (Proc.devRef .tc main_v67) = ReadP.val_main_v67 (F := F) X.x0 X.x1 X.x2 X.x4
      ∧ V (Proc.devRef .tc main_v68) = ReadP.val_main_v68 (F := F) X.x1 X.x2
      ∧ V (Proc.devRef .tc main_v75) = ReadP.val_main_v75 (F := F) X.x0 X.x1 X.x2
      ∧ BaseAt X V) :
    after s12 V (Proc.devRef .tc main_v43) = ReadP.val_main_v43 (F := F) X.x0 X.x1 X.x2
    ∧ after s12 V (Proc.devRef .tc main_v63) = ReadP.val_main_v63 (F := F) X.x0 X.x1 X.x2
    ∧ after s12 V (Proc.devRef .tc main_v67) = ReadP.val_main_v67 (F := F) X.x0 X.x1 X.x2 X.x4
    ∧ after s12 V (Proc.devRef .tc main_v80) = ReadP.val_main_v80 (F := F) X.x0 X.x1 X.x2
    ∧ after s12 V (Proc.devRef .tc main_cst_15) = ReadP.val_main_cst_15 (F := F)
    ∧ BaseAt X (after s12 V) := by
  obtain ⟨h_main_v43, h_main_v63, h_main_v67, h_main_v68, h_main_v75, hB⟩ := h
  obtain ⟨hA, h_main_v1, h_main_v3, h_main_v27⟩ := id hB
  exact ⟨(s12_ok.keep (by decide)).trans h_main_v43,
    (s12_ok.keep (by decide)).trans h_main_v63,
    (s12_ok.keep (by decide)).trans h_main_v67,
    by after_results_simp; rw [h_main_v3, h_main_v68, h_main_v75]; rfl,
    by after_results_simp; rfl,
    hB.step s12_ok (by decide)⟩

abbrev s13 : List (HloOp τ sig (Elt F)) :=
  [ unary main_cst_15 main_v81 (broadcastInDim S50000x64 ![] bcast_S_S50000x64),
    binary main_v81 main_v80 main_v82 (mulf),
    binary main_v82 main_v43 main_v83 (subf),
    unary main_arg4 main_v84 (extractStridedSlice S1x64x64 ![3, 0, 0] · slices_S5x64x64_S1x64x64_3_0_0),
    reshape main_v84 main_v85 rfl shapeCasts_S1x64x64_S64x64,
    binary main_v83 main_v85 main_v86 (fun l r => Host.dotGeneral dot_S50000x64_S64x64_S50000x64_1_0_0_1_n_n none l r),
    binary main_v67 main_v86 main_v87 (addf) ]
abbrev w13 : List (Ref sig .tc) := [main_v81, main_v82, main_v83, main_v84, main_v85, main_v86, main_v87]
theorem s13_ok : Ok (F := F) s13 w13 :=
  ⟨⟨unary_bufs_sub .., binary_bufs_sub .., binary_bufs_sub .., unary_bufs_sub .., reshape_bufs_sub .., binary_bufs_sub .., binary_bufs_sub ..⟩,
    ⟨rfl, rfl, rfl, rfl, rfl, rfl, rfl⟩,
    ⟨wsub (by decide), wsub (by decide), wsub (by decide), wsub (by decide), wsub (by decide), wsub (by decide), wsub (by decide)⟩⟩

set_option maxRecDepth 8192 in
theorem step13 (V : Valuation τ sig (Elt F))
    (h : V (Proc.devRef .tc main_v43) = ReadP.val_main_v43 (F := F) X.x0 X.x1 X.x2
      ∧ V (Proc.devRef .tc main_v63) = ReadP.val_main_v63 (F := F) X.x0 X.x1 X.x2
      ∧ V (Proc.devRef .tc main_v67) = ReadP.val_main_v67 (F := F) X.x0 X.x1 X.x2 X.x4
      ∧ V (Proc.devRef .tc main_v80) = ReadP.val_main_v80 (F := F) X.x0 X.x1 X.x2
      ∧ V (Proc.devRef .tc main_cst_15) = ReadP.val_main_cst_15 (F := F)
      ∧ BaseAt X V) :
    after s13 V (Proc.devRef .tc main_v63) = ReadP.val_main_v63 (F := F) X.x0 X.x1 X.x2
    ∧ after s13 V (Proc.devRef .tc main_v83) = ReadP.val_main_v83 (F := F) X.x0 X.x1 X.x2
    ∧ after s13 V (Proc.devRef .tc main_v87) = ReadP.val_main_v87 (F := F) X.x0 X.x1 X.x2 X.x4
    ∧ BaseAt X (after s13 V) := by
  obtain ⟨h_main_v43, h_main_v63, h_main_v67, h_main_v80, h_main_cst_15, hB⟩ := h
  obtain ⟨hA, h_main_v1, h_main_v3, h_main_v27⟩ := id hB
  obtain ⟨a0, a1, a2, a3, a4, a5, a6, a7, a8, a9, a10, a11⟩ := id hA
  exact ⟨(s13_ok.keep (by decide)).trans h_main_v63,
    by after_results_simp; rw [h_main_cst_15, h_main_v80, h_main_v43]; rfl,
    by after_results_simp; rw [h_main_v67, h_main_cst_15, h_main_v80, h_main_v43, a4]; rfl,
    hB.step s13_ok (by decide)⟩

abbrev s14 : List (HloOp τ sig (Elt F)) :=
  [ unary main_v27 main_v88 (broadcastInDim S800000x1 ![0] bcast_S800000_S800000x1_0),
    nullary main_c_16 (constantI S_ 32 0#32),
    unary main_c_16 main_v89 (broadcastInDim S800000 ![] bcast_S_S800000),
    binary main_v1 main_v89 main_v90 (cmpi .slt),
    nullary main_c_17 (constantI S_ 32 50000#32),
    unary main_c_17 main_v91 (broadcastInDim S800000 ![] bcast_S_S800000),
    binary main_v1 main_v91 main_v92 (addi) ]
abbrev w14 : List (Ref sig .tc) := [main_v88, main_c_16, main_v89, main_v90, main_c_17, main_v91, main_v92]
theorem s14_ok : Ok (F := F) s14 w14 :=
  ⟨⟨unary_bufs_sub .., nullary_bufs_sub .., unary_bufs_sub .., binary_bufs_sub .., nullary_bufs_sub .., unary_bufs_sub .., binary_bufs_sub ..⟩,
    ⟨rfl, rfl, rfl, rfl, rfl, rfl, rfl⟩,
    ⟨wsub (by decide), wsub (by decide), wsub (by decide), wsub (by decide), wsub (by decide), wsub (by decide), wsub (by decide)⟩⟩

set_option maxRecDepth 8192 in
theorem step14 (V : Valuation τ sig (Elt F))
    (h : V (Proc.devRef .tc main_v63) = ReadP.val_main_v63 (F := F) X.x0 X.x1 X.x2
      ∧ V (Proc.devRef .tc main_v83) = ReadP.val_main_v83 (F := F) X.x0 X.x1 X.x2
      ∧ V (Proc.devRef .tc main_v87) = ReadP.val_main_v87 (F := F) X.x0 X.x1 X.x2 X.x4
      ∧ BaseAt X V) :
    after s14 V (Proc.devRef .tc main_v63) = ReadP.val_main_v63 (F := F) X.x0 X.x1 X.x2
    ∧ after s14 V (Proc.devRef .tc main_v83) = ReadP.val_main_v83 (F := F) X.x0 X.x1 X.x2
    ∧ after s14 V (Proc.devRef .tc main_v87) = ReadP.val_main_v87 (F := F) X.x0 X.x1 X.x2 X.x4
    ∧ after s14 V (Proc.devRef .tc main_v88) = ReadP.val_main_v88 (F := F) X.x1 X.x2
    ∧ after s14 V (Proc.devRef .tc main_v90) = ReadP.val_main_v90 (F := F) X.x1
    ∧ after s14 V (Proc.devRef .tc main_v92) = ReadP.val_main_v92 (F := F) X.x1
    ∧ BaseAt X (after s14 V) := by
  obtain ⟨h_main_v63, h_main_v83, h_main_v87, hB⟩ := h
  obtain ⟨hA, h_main_v1, h_main_v3, h_main_v27⟩ := id hB
  exact ⟨(s14_ok.keep (by decide)).trans h_main_v63,
    (s14_ok.keep (by decide)).trans h_main_v83,
    (s14_ok.keep (by decide)).trans h_main_v87,
    by after_results_simp; rw [h_main_v27]; rfl,
    by after_results_simp; rw [h_main_v1]; rfl,
    by after_results_simp; rw [h_main_v1]; rfl,
    hB.step s14_ok (by decide)⟩

abbrev s15 : List (HloOp τ sig (Elt F)) :=
  [ ternary main_v90 main_v92 main_v1 main_v93 (select),
    unary main_v93 main_v94 (broadcastInDim S800000x1 ![0] bcast_S800000_S800000x1_0),
    binary main_v83 main_v94 main_v95 (fun x i => Host.gather gather_S50000x64_S800000x1_S800000x64_1_0_n_n_0_1_164 x i),
    unary main_v88 main_v96 (broadcastInDim S800000x64 ![0, 1] bcast_S800000x1_S800000x64_0_1),
    binary main_v96 main_v95 main_v97 (mulf),
    nullary main_cst_18 (constant S_ .f32 0x00000000#32),
    unary main_cst_18 main_v98 (broadcastInDim S50000x64 ![] bcast_S_S50000x64) ]
abbrev w15 : List (Ref sig .tc) := [main_v93, main_v94, main_v95, main_v96, main_v97, main_cst_18, main_v98]
theorem s15_ok : Ok (F := F) s15 w15 :=
  ⟨⟨ternary_bufs_sub .., unary_bufs_sub .., binary_bufs_sub .., unary_bufs_sub .., binary_bufs_sub .., nullary_bufs_sub .., unary_bufs_sub ..⟩,
    ⟨rfl, rfl, rfl, rfl, rfl, rfl, rfl⟩,
    ⟨wsub (by decide), wsub (by decide), wsub (by decide), wsub (by decide), wsub (by decide), wsub (by decide), wsub (by decide)⟩⟩

set_option maxRecDepth 8192 in
theorem step15 (V : Valuation τ sig (Elt F))
    (h : V (Proc.devRef .tc main_v63) = ReadP.val_main_v63 (F := F) X.x0 X.x1 X.x2
      ∧ V (Proc.devRef .tc main_v83) = ReadP.val_main_v83 (F := F) X.x0 X.x1 X.x2
      ∧ V (Proc.devRef .tc main_v87) = ReadP.val_main_v87 (F := F) X.x0 X.x1 X.x2 X.x4
      ∧ V (Proc.devRef .tc main_v88) = ReadP.val_main_v88 (F := F) X.x1 X.x2
      ∧ V (Proc.devRef .tc main_v90) = ReadP.val_main_v90 (F := F) X.x1
      ∧ V (Proc.devRef .tc main_v92) = ReadP.val_main_v92 (F := F) X.x1
      ∧ BaseAt X V) :
    after s15 V (Proc.devRef .tc main_v63) = ReadP.val_main_v63 (F := F) X.x0 X.x1 X.x2
    ∧ after s15 V (Proc.devRef .tc main_v87) = ReadP.val_main_v87 (F := F) X.x0 X.x1 X.x2 X.x4
    ∧ after s15 V (Proc.devRef .tc main_v97) = ReadP.val_main_v97 (F := F) X.x0 X.x1 X.x2
    ∧ after s15 V (Proc.devRef .tc main_v98) = ReadP.val_main_v98 (F := F)
    ∧ BaseAt X (after s15 V) := by
  obtain ⟨h_main_v63, h_main_v83, h_main_v87, h_main_v88, h_main_v90, h_main_v92, hB⟩ := h
  obtain ⟨hA, h_main_v1, h_main_v3, h_main_v27⟩ := id hB
  exact ⟨(s15_ok.keep (by decide)).trans h_main_v63,
    (s15_ok.keep (by decide)).trans h_main_v87,
    by after_results_simp; rw [h_main_v88, h_main_v83, h_main_v90, h_main_v92, h_main_v1]; rfl,
    by after_results_simp; rfl,
    hB.step s15_ok (by decide)⟩

set_option maxRecDepth 8192 in
theorem main_part1_eq (c : Dev nD) : main_part1 (F := F) c = seq (s8 ++ (s9 ++ (s10 ++ (s11 ++ (s12 ++ (s13 ++ (s14 ++ (s15)))))))) := by chain_rfl

abbrev s16 : List (HloOp τ sig (Elt F)) :=
  [ unary main_v3 main_v99 (broadcastInDim S800000x1 ![0] bcast_S800000_S800000x1_0),
    ternary main_v98 main_v99 main_v97 main_v100 (fun x i u => Host.scatterAdd scatter_S50000x64_S800000x1_S800000x64_1_0_0_1 x i u),
    nullary main_cst_19 (constant S_ .f32 0x40000000#32),
    unary main_cst_19 main_v101 (broadcastInDim S50000x64 ![] bcast_S_S50000x64),
    binary main_v101 main_v100 main_v102 (mulf),
    binary main_v102 main_v63 main_v103 (subf),
    unary main_arg4 main_v104 (extractStridedSlice S1x64x64 ![4, 0, 0] · slices_S5x64x64_S1x64x64_4_0_0),
    reshape main_v104 main_v105 rfl shapeCasts_S1x64x64_S64x64 ]
abbrev w16 : List (Ref sig .tc) := [main_v99, main_v100, main_cst_19, main_v101, main_v102, main_v103, main_v104, main_v105]
theorem s16_ok : Ok (F := F) s16 w16 :=
  ⟨⟨unary_bufs_sub .., ternary_bufs_sub .., nullary_bufs_sub .., unary_bufs_sub .., binary_bufs_sub .., binary_bufs_sub .., unary_bufs_sub .., reshape_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step16 (V : Valuation τ sig (Elt F))
    (h : V (Proc.devRef .tc main_v63) = ReadP.val_main_v63 (F := F) X.x0 X.x1 X.x2
      ∧ V (Proc.devRef .tc main_v87) = ReadP.val_main_v87 (F := F) X.x0 X.x1 X.x2 X.x4
      ∧ V (Proc.devRef .tc main_v97) = ReadP.val_main_v97 (F := F) X.x0 X.x1 X.x2
      ∧ V (Proc.devRef .tc main_v98) = ReadP.val_main_v98 (F := F)
      ∧ BaseAt X V) :
    after s16 V (Proc.devRef .tc main_v87) = ReadP.val_main_v87 (F := F) X.x0 X.x1 X.x2 X.x4
    ∧ after s16 V (Proc.devRef .tc main_v103) = ReadP.val_main_v103 (F := F) X.x0 X.x1 X.x2
    ∧ after s16 V (Proc.devRef .tc main_v105) = ReadP.val_main_v105 (F := F) X.x4
    ∧ BaseAt X (after s16 V) := by
  obtain ⟨h_main_v63, h_main_v87, h_main_v97, h_main_v98, hB⟩ := h
  obtain ⟨hA, h_main_v1, h_main_v3, h_main_v27⟩ := id hB
  obtain ⟨a0, a1, a2, a3, a4, a5, a6, a7, a8, a9, a10, a11⟩ := id hA
  exact ⟨(s16_ok.keep (by decide)).trans h_main_v87,
    by after_results_simp; rw [h_main_v98, h_main_v3, h_main_v97, h_main_v63]; rfl,
    by after_results_simp; rw [a4]; rfl,
    hB.step s16_ok (by decide)⟩

abbrev s17 : List (HloOp τ sig (Elt F)) :=
  [ binary main_v103 main_v105 main_v106 (fun l r => Host.dotGeneral dot_S50000x64_S64x64_S50000x64_1_0_0_1_n_n none l r),
    binary main_v87 main_v106 main_v107 (addf),
    unary main_arg5 main_v108 (broadcastInDim S1x64 ![1] bcast_S64_S1x64_1),
    unary main_v108 main_v109 (broadcastInDim S50000x64 ![0, 1] bcast_S1x64_S50000x64_0_1),
    binary main_v107 main_v109 main_v110 (addf),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v110) (TRef.of (T := ⟨S50000x64, .f32⟩) main_call1_v0) (TRef.of (T := ⟨S50000x64, .f32⟩) main_v111) maximumf ]
abbrev w17 : List (Ref sig .tc) := [main_v106, main_v107, main_v108, main_v109, main_v110, main_call1_cst, main_call1_v0, main_v111]
theorem s17_ok : Ok (F := F) s17 w17 :=
  ⟨⟨binary_bufs_sub .., binary_bufs_sub .., unary_bufs_sub .., unary_bufs_sub .., binary_bufs_sub .., nullary_bufs_sub .., unary_bufs_sub .., binary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step17 (V : Valuation τ sig (Elt F))
    (h : V (Proc.devRef .tc main_v87) = ReadP.val_main_v87 (F := F) X.x0 X.x1 X.x2 X.x4
      ∧ V (Proc.devRef .tc main_v103) = ReadP.val_main_v103 (F := F) X.x0 X.x1 X.x2
      ∧ V (Proc.devRef .tc main_v105) = ReadP.val_main_v105 (F := F) X.x4
      ∧ BaseAt X V) :
    after s17 V (Proc.devRef .tc main_v111) = ReadP.val_main_v111 (F := F) X.x0 X.x1 X.x2 X.x4 X.x5
    ∧ BaseAt X (after s17 V) := by
  obtain ⟨h_main_v87, h_main_v103, h_main_v105, hB⟩ := h
  obtain ⟨hA, h_main_v1, h_main_v3, h_main_v27⟩ := id hB
  obtain ⟨a0, a1, a2, a3, a4, a5, a6, a7, a8, a9, a10, a11⟩ := id hA
  exact ⟨by after_results_simp; rw [h_main_v87, h_main_v103, h_main_v105, a5]; rfl,
    hB.step s17_ok (by decide)⟩

abbrev s18 : List (HloOp τ sig (Elt F)) :=
  [ unary main_arg6 main_v112 (extractStridedSlice S1x64x64 ![0, 0, 0] · slices_S5x64x64_S1x64x64_0_0_0),
    reshape main_v112 main_v113 rfl shapeCasts_S1x64x64_S64x64,
    binary main_v111 main_v113 main_v114 (fun l r => Host.dotGeneral dot_S50000x64_S64x64_S50000x64_1_0_0_1_n_n none l r),
    unary main_v27 main_v115 (broadcastInDim S800000x1 ![0] bcast_S800000_S800000x1_0),
    nullary main_c_20 (constantI S_ 32 0#32),
    unary main_c_20 main_v116 (broadcastInDim S800000 ![] bcast_S_S800000),
    binary main_v1 main_v116 main_v117 (cmpi .slt),
    nullary main_c_21 (constantI S_ 32 50000#32) ]
abbrev w18 : List (Ref sig .tc) := [main_v112, main_v113, main_v114, main_v115, main_c_20, main_v116, main_v117, main_c_21]
theorem s18_ok : Ok (F := F) s18 w18 :=
  ⟨⟨unary_bufs_sub .., reshape_bufs_sub .., binary_bufs_sub .., unary_bufs_sub .., nullary_bufs_sub .., unary_bufs_sub .., binary_bufs_sub .., nullary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step18 (V : Valuation τ sig (Elt F))
    (h : V (Proc.devRef .tc main_v111) = ReadP.val_main_v111 (F := F) X.x0 X.x1 X.x2 X.x4 X.x5
      ∧ BaseAt X V) :
    after s18 V (Proc.devRef .tc main_v111) = ReadP.val_main_v111 (F := F) X.x0 X.x1 X.x2 X.x4 X.x5
    ∧ after s18 V (Proc.devRef .tc main_v114) = ReadP.val_main_v114 (F := F) X.x0 X.x1 X.x2 X.x4 X.x5 X.x6
    ∧ after s18 V (Proc.devRef .tc main_v115) = ReadP.val_main_v115 (F := F) X.x1 X.x2
    ∧ after s18 V (Proc.devRef .tc main_v117) = ReadP.val_main_v117 (F := F) X.x1
    ∧ after s18 V (Proc.devRef .tc main_c_21) = ReadP.val_main_c_21 (F := F)
    ∧ BaseAt X (after s18 V) := by
  obtain ⟨h_main_v111, hB⟩ := h
  obtain ⟨hA, h_main_v1, h_main_v3, h_main_v27⟩ := id hB
  obtain ⟨a0, a1, a2, a3, a4, a5, a6, a7, a8, a9, a10, a11⟩ := id hA
  exact ⟨(s18_ok.keep (by decide)).trans h_main_v111,
    by after_results_simp; rw [h_main_v111, a6]; rfl,
    by after_results_simp; rw [h_main_v27]; rfl,
    by after_results_simp; rw [h_main_v1]; rfl,
    by after_results_simp; rfl,
    hB.step s18_ok (by decide)⟩

abbrev s19 : List (HloOp τ sig (Elt F)) :=
  [ unary main_c_21 main_v118 (broadcastInDim S800000 ![] bcast_S_S800000),
    binary main_v1 main_v118 main_v119 (addi),
    ternary main_v117 main_v119 main_v1 main_v120 (select),
    unary main_v120 main_v121 (broadcastInDim S800000x1 ![0] bcast_S800000_S800000x1_0),
    binary main_v111 main_v121 main_v122 (fun x i => Host.gather gather_S50000x64_S800000x1_S800000x64_1_0_n_n_0_1_164 x i),
    unary main_v115 main_v123 (broadcastInDim S800000x64 ![0, 1] bcast_S800000x1_S800000x64_0_1),
    binary main_v123 main_v122 main_v124 (mulf),
    nullary main_cst_22 (constant S_ .f32 0x00000000#32) ]
abbrev w19 : List (Ref sig .tc) := [main_v118, main_v119, main_v120, main_v121, main_v122, main_v123, main_v124, main_cst_22]
theorem s19_ok : Ok (F := F) s19 w19 :=
  ⟨⟨unary_bufs_sub .., binary_bufs_sub .., ternary_bufs_sub .., unary_bufs_sub .., binary_bufs_sub .., unary_bufs_sub .., binary_bufs_sub .., nullary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step19 (V : Valuation τ sig (Elt F))
    (h : V (Proc.devRef .tc main_v111) = ReadP.val_main_v111 (F := F) X.x0 X.x1 X.x2 X.x4 X.x5
      ∧ V (Proc.devRef .tc main_v114) = ReadP.val_main_v114 (F := F) X.x0 X.x1 X.x2 X.x4 X.x5 X.x6
      ∧ V (Proc.devRef .tc main_v115) = ReadP.val_main_v115 (F := F) X.x1 X.x2
      ∧ V (Proc.devRef .tc main_v117) = ReadP.val_main_v117 (F := F) X.x1
      ∧ V (Proc.devRef .tc main_c_21) = ReadP.val_main_c_21 (F := F)
      ∧ BaseAt X V) :
    after s19 V (Proc.devRef .tc main_v111) = ReadP.val_main_v111 (F := F) X.x0 X.x1 X.x2 X.x4 X.x5
    ∧ after s19 V (Proc.devRef .tc main_v114) = ReadP.val_main_v114 (F := F) X.x0 X.x1 X.x2 X.x4 X.x5 X.x6
    ∧ after s19 V (Proc.devRef .tc main_v124) = ReadP.val_main_v124 (F := F) X.x0 X.x1 X.x2 X.x4 X.x5
    ∧ after s19 V (Proc.devRef .tc main_cst_22) = ReadP.val_main_cst_22 (F := F)
    ∧ BaseAt X (after s19 V) := by
  obtain ⟨h_main_v111, h_main_v114, h_main_v115, h_main_v117, h_main_c_21, hB⟩ := h
  obtain ⟨hA, h_main_v1, h_main_v3, h_main_v27⟩ := id hB
  exact ⟨(s19_ok.keep (by decide)).trans h_main_v111,
    (s19_ok.keep (by decide)).trans h_main_v114,
    by after_results_simp; rw [h_main_v115, h_main_v111, h_main_v117, h_main_v1, h_main_c_21]; rfl,
    by after_results_simp; rfl,
    hB.step s19_ok (by decide)⟩

abbrev s20 : List (HloOp τ sig (Elt F)) :=
  [ unary main_cst_22 main_v125 (broadcastInDim S50000x64 ![] bcast_S_S50000x64),
    unary main_v3 main_v126 (broadcastInDim S800000x1 ![0] bcast_S800000_S800000x1_0),
    ternary main_v125 main_v126 main_v124 main_v127 (fun x i u => Host.scatterAdd scatter_S50000x64_S800000x1_S800000x64_1_0_0_1 x i u),
    unary main_arg6 main_v128 (extractStridedSlice S1x64x64 ![1, 0, 0] · slices_S5x64x64_S1x64x64_1_0_0),
    reshape main_v128 main_v129 rfl shapeCasts_S1x64x64_S64x64,
    binary main_v127 main_v129 main_v130 (fun l r => Host.dotGeneral dot_S50000x64_S64x64_S50000x64_1_0_0_1_n_n none l r),
    binary main_v114 main_v130 main_v131 (addf),
    unary main_v27 main_v132 (broadcastInDim S800000x1 ![0] bcast_S800000_S800000x1_0) ]
abbrev w20 : List (Ref sig .tc) := [main_v125, main_v126, main_v127, main_v128, main_v129, main_v130, main_v131, main_v132]
theorem s20_ok : Ok (F := F) s20 w20 :=
  ⟨⟨unary_bufs_sub .., unary_bufs_sub .., ternary_bufs_sub .., unary_bufs_sub .., reshape_bufs_sub .., binary_bufs_sub .., binary_bufs_sub .., unary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step20 (V : Valuation τ sig (Elt F))
    (h : V (Proc.devRef .tc main_v111) = ReadP.val_main_v111 (F := F) X.x0 X.x1 X.x2 X.x4 X.x5
      ∧ V (Proc.devRef .tc main_v114) = ReadP.val_main_v114 (F := F) X.x0 X.x1 X.x2 X.x4 X.x5 X.x6
      ∧ V (Proc.devRef .tc main_v124) = ReadP.val_main_v124 (F := F) X.x0 X.x1 X.x2 X.x4 X.x5
      ∧ V (Proc.devRef .tc main_cst_22) = ReadP.val_main_cst_22 (F := F)
      ∧ BaseAt X V) :
    after s20 V (Proc.devRef .tc main_v111) = ReadP.val_main_v111 (F := F) X.x0 X.x1 X.x2 X.x4 X.x5
    ∧ after s20 V (Proc.devRef .tc main_v127) = ReadP.val_main_v127 (F := F) X.x0 X.x1 X.x2 X.x4 X.x5
    ∧ after s20 V (Proc.devRef .tc main_v131) = ReadP.val_main_v131 (F := F) X.x0 X.x1 X.x2 X.x4 X.x5 X.x6
    ∧ after s20 V (Proc.devRef .tc main_v132) = ReadP.val_main_v132 (F := F) X.x1 X.x2
    ∧ BaseAt X (after s20 V) := by
  obtain ⟨h_main_v111, h_main_v114, h_main_v124, h_main_cst_22, hB⟩ := h
  obtain ⟨hA, h_main_v1, h_main_v3, h_main_v27⟩ := id hB
  obtain ⟨a0, a1, a2, a3, a4, a5, a6, a7, a8, a9, a10, a11⟩ := id hA
  exact ⟨(s20_ok.keep (by decide)).trans h_main_v111,
    by after_results_simp; rw [h_main_cst_22, h_main_v3, h_main_v124]; rfl,
    by after_results_simp; rw [h_main_v114, h_main_cst_22, h_main_v3, h_main_v124, a6]; rfl,
    by after_results_simp; rw [h_main_v27]; rfl,
    hB.step s20_ok (by decide)⟩

abbrev s21 : List (HloOp τ sig (Elt F)) :=
  [ nullary main_c_23 (constantI S_ 32 0#32),
    unary main_c_23 main_v133 (broadcastInDim S800000 ![] bcast_S_S800000),
    binary main_v1 main_v133 main_v134 (cmpi .slt),
    nullary main_c_24 (constantI S_ 32 50000#32),
    unary main_c_24 main_v135 (broadcastInDim S800000 ![] bcast_S_S800000),
    binary main_v1 main_v135 main_v136 (addi),
    ternary main_v134 main_v136 main_v1 main_v137 (select),
    unary main_v137 main_v138 (broadcastInDim S800000x1 ![0] bcast_S800000_S800000x1_0) ]
abbrev w21 : List (Ref sig .tc) := [main_c_23, main_v133, main_v134, main_c_24, main_v135, main_v136, main_v137, main_v138]
theorem s21_ok : Ok (F := F) s21 w21 :=
  ⟨⟨nullary_bufs_sub .., unary_bufs_sub .., binary_bufs_sub .., nullary_bufs_sub .., unary_bufs_sub .., binary_bufs_sub .., ternary_bufs_sub .., unary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step21 (V : Valuation τ sig (Elt F))
    (h : V (Proc.devRef .tc main_v111) = ReadP.val_main_v111 (F := F) X.x0 X.x1 X.x2 X.x4 X.x5
      ∧ V (Proc.devRef .tc main_v127) = ReadP.val_main_v127 (F := F) X.x0 X.x1 X.x2 X.x4 X.x5
      ∧ V (Proc.devRef .tc main_v131) = ReadP.val_main_v131 (F := F) X.x0 X.x1 X.x2 X.x4 X.x5 X.x6
      ∧ V (Proc.devRef .tc main_v132) = ReadP.val_main_v132 (F := F) X.x1 X.x2
      ∧ BaseAt X V) :
    after s21 V (Proc.devRef .tc main_v111) = ReadP.val_main_v111 (F := F) X.x0 X.x1 X.x2 X.x4 X.x5
    ∧ after s21 V (Proc.devRef .tc main_v127) = ReadP.val_main_v127 (F := F) X.x0 X.x1 X.x2 X.x4 X.x5
    ∧ after s21 V (Proc.devRef .tc main_v131) = ReadP.val_main_v131 (F := F) X.x0 X.x1 X.x2 X.x4 X.x5 X.x6
    ∧ after s21 V (Proc.devRef .tc main_v132) = ReadP.val_main_v132 (F := F) X.x1 X.x2
    ∧ after s21 V (Proc.devRef .tc main_v138) = ReadP.val_main_v138 (F := F) X.x1
    ∧ BaseAt X (after s21 V) := by
  obtain ⟨h_main_v111, h_main_v127, h_main_v131, h_main_v132, hB⟩ := h
  obtain ⟨hA, h_main_v1, h_main_v3, h_main_v27⟩ := id hB
  exact ⟨(s21_ok.keep (by decide)).trans h_main_v111,
    (s21_ok.keep (by decide)).trans h_main_v127,
    (s21_ok.keep (by decide)).trans h_main_v131,
    (s21_ok.keep (by decide)).trans h_main_v132,
    by after_results_simp; rw [h_main_v1]; rfl,
    hB.step s21_ok (by decide)⟩

abbrev s22 : List (HloOp τ sig (Elt F)) :=
  [ binary main_v127 main_v138 main_v139 (fun x i => Host.gather gather_S50000x64_S800000x1_S800000x64_1_0_n_n_0_1_164 x i),
    unary main_v132 main_v140 (broadcastInDim S800000x64 ![0, 1] bcast_S800000x1_S800000x64_0_1),
    binary main_v140 main_v139 main_v141 (mulf),
    nullary main_cst_25 (constant S_ .f32 0x00000000#32),
    unary main_cst_25 main_v142 (broadcastInDim S50000x64 ![] bcast_S_S50000x64),
    unary main_v3 main_v143 (broadcastInDim S800000x1 ![0] bcast_S800000_S800000x1_0),
    ternary main_v142 main_v143 main_v141 main_v144 (fun x i u => Host.scatterAdd scatter_S50000x64_S800000x1_S800000x64_1_0_0_1 x i u) ]
abbrev w22 : List (Ref sig .tc) := [main_v139, main_v140, main_v141, main_cst_25, main_v142, main_v143, main_v144]
theorem s22_ok : Ok (F := F) s22 w22 :=
  ⟨⟨binary_bufs_sub .., unary_bufs_sub .., binary_bufs_sub .., nullary_bufs_sub .., unary_bufs_sub .., unary_bufs_sub .., ternary_bufs_sub ..⟩,
    ⟨rfl, rfl, rfl, rfl, rfl, rfl, rfl⟩,
    ⟨wsub (by decide), wsub (by decide), wsub (by decide), wsub (by decide), wsub (by decide), wsub (by decide), wsub (by decide)⟩⟩

set_option maxRecDepth 8192 in
theorem step22 (V : Valuation τ sig (Elt F))
    (h : V (Proc.devRef .tc main_v111) = ReadP.val_main_v111 (F := F) X.x0 X.x1 X.x2 X.x4 X.x5
      ∧ V (Proc.devRef .tc main_v127) = ReadP.val_main_v127 (F := F) X.x0 X.x1 X.x2 X.x4 X.x5
      ∧ V (Proc.devRef .tc main_v131) = ReadP.val_main_v131 (F := F) X.x0 X.x1 X.x2 X.x4 X.x5 X.x6
      ∧ V (Proc.devRef .tc main_v132) = ReadP.val_main_v132 (F := F) X.x1 X.x2
      ∧ V (Proc.devRef .tc main_v138) = ReadP.val_main_v138 (F := F) X.x1
      ∧ BaseAt X V) :
    after s22 V (Proc.devRef .tc main_v111) = ReadP.val_main_v111 (F := F) X.x0 X.x1 X.x2 X.x4 X.x5
    ∧ after s22 V (Proc.devRef .tc main_v127) = ReadP.val_main_v127 (F := F) X.x0 X.x1 X.x2 X.x4 X.x5
    ∧ after s22 V (Proc.devRef .tc main_v131) = ReadP.val_main_v131 (F := F) X.x0 X.x1 X.x2 X.x4 X.x5 X.x6
    ∧ after s22 V (Proc.devRef .tc main_v144) = ReadP.val_main_v144 (F := F) X.x0 X.x1 X.x2 X.x4 X.x5
    ∧ BaseAt X (after s22 V) := by
  obtain ⟨h_main_v111, h_main_v127, h_main_v131, h_main_v132, h_main_v138, hB⟩ := h
  obtain ⟨hA, h_main_v1, h_main_v3, h_main_v27⟩ := id hB
  exact ⟨(s22_ok.keep (by decide)).trans h_main_v111,
    (s22_ok.keep (by decide)).trans h_main_v127,
    (s22_ok.keep (by decide)).trans h_main_v131,
    by after_results_simp; rw [h_main_v3, h_main_v132, h_main_v127, h_main_v138]; rfl,
    hB.step s22_ok (by decide)⟩

abbrev s23 : List (HloOp τ sig (Elt F)) :=
  [ nullary main_cst_26 (constant S_ .f32 0x40000000#32),
    unary main_cst_26 main_v145 (broadcastInDim S50000x64 ![] bcast_S_S50000x64),
    binary main_v145 main_v144 main_v146 (mulf),
    binary main_v146 main_v111 main_v147 (subf),
    unary main_arg6 main_v148 (extractStridedSlice S1x64x64 ![2, 0, 0] · slices_S5x64x64_S1x64x64_2_0_0),
    reshape main_v148 main_v149 rfl shapeCasts_S1x64x64_S64x64,
    binary main_v147 main_v149 main_v150 (fun l r => Host.dotGeneral dot_S50000x64_S64x64_S50000x64_1_0_0_1_n_n none l r) ]
abbrev w23 : List (Ref sig .tc) := [main_cst_26, main_v145, main_v146, main_v147, main_v148, main_v149, main_v150]
theorem s23_ok : Ok (F := F) s23 w23 :=
  ⟨⟨nullary_bufs_sub .., unary_bufs_sub .., binary_bufs_sub .., binary_bufs_sub .., unary_bufs_sub .., reshape_bufs_sub .., binary_bufs_sub ..⟩,
    ⟨rfl, rfl, rfl, rfl, rfl, rfl, rfl⟩,
    ⟨wsub (by decide), wsub (by decide), wsub (by decide), wsub (by decide), wsub (by decide), wsub (by decide), wsub (by decide)⟩⟩

set_option maxRecDepth 8192 in
theorem step23 (V : Valuation τ sig (Elt F))
    (h : V (Proc.devRef .tc main_v111) = ReadP.val_main_v111 (F := F) X.x0 X.x1 X.x2 X.x4 X.x5
      ∧ V (Proc.devRef .tc main_v127) = ReadP.val_main_v127 (F := F) X.x0 X.x1 X.x2 X.x4 X.x5
      ∧ V (Proc.devRef .tc main_v131) = ReadP.val_main_v131 (F := F) X.x0 X.x1 X.x2 X.x4 X.x5 X.x6
      ∧ V (Proc.devRef .tc main_v144) = ReadP.val_main_v144 (F := F) X.x0 X.x1 X.x2 X.x4 X.x5
      ∧ BaseAt X V) :
    after s23 V (Proc.devRef .tc main_v127) = ReadP.val_main_v127 (F := F) X.x0 X.x1 X.x2 X.x4 X.x5
    ∧ after s23 V (Proc.devRef .tc main_v131) = ReadP.val_main_v131 (F := F) X.x0 X.x1 X.x2 X.x4 X.x5 X.x6
    ∧ after s23 V (Proc.devRef .tc main_v147) = ReadP.val_main_v147 (F := F) X.x0 X.x1 X.x2 X.x4 X.x5
    ∧ after s23 V (Proc.devRef .tc main_v150) = ReadP.val_main_v150 (F := F) X.x0 X.x1 X.x2 X.x4 X.x5 X.x6
    ∧ BaseAt X (after s23 V) := by
  obtain ⟨h_main_v111, h_main_v127, h_main_v131, h_main_v144, hB⟩ := h
  obtain ⟨hA, h_main_v1, h_main_v3, h_main_v27⟩ := id hB
  obtain ⟨a0, a1, a2, a3, a4, a5, a6, a7, a8, a9, a10, a11⟩ := id hA
  exact ⟨(s23_ok.keep (by decide)).trans h_main_v127,
    (s23_ok.keep (by decide)).trans h_main_v131,
    by after_results_simp; rw [h_main_v144, h_main_v111]; rfl,
    by after_results_simp; rw [h_main_v144, h_main_v111, a6]; rfl,
    hB.step s23_ok (by decide)⟩

set_option maxRecDepth 8192 in
theorem main_part2_eq (c : Dev nD) : main_part2 (F := F) c = seq (s16 ++ (s17 ++ (s18 ++ (s19 ++ (s20 ++ (s21 ++ (s22 ++ (s23)))))))) := by chain_rfl

abbrev s24 : List (HloOp τ sig (Elt F)) :=
  [ binary main_v131 main_v150 main_v151 (addf),
    unary main_v27 main_v152 (broadcastInDim S800000x1 ![0] bcast_S800000_S800000x1_0),
    nullary main_c_27 (constantI S_ 32 0#32),
    unary main_c_27 main_v153 (broadcastInDim S800000 ![] bcast_S_S800000),
    binary main_v1 main_v153 main_v154 (cmpi .slt),
    nullary main_c_28 (constantI S_ 32 50000#32),
    unary main_c_28 main_v155 (broadcastInDim S800000 ![] bcast_S_S800000),
    binary main_v1 main_v155 main_v156 (addi) ]
abbrev w24 : List (Ref sig .tc) := [main_v151, main_v152, main_c_27, main_v153, main_v154, main_c_28, main_v155, main_v156]
theorem s24_ok : Ok (F := F) s24 w24 :=
  ⟨⟨binary_bufs_sub .., unary_bufs_sub .., nullary_bufs_sub .., unary_bufs_sub .., binary_bufs_sub .., nullary_bufs_sub .., unary_bufs_sub .., binary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step24 (V : Valuation τ sig (Elt F))
    (h : V (Proc.devRef .tc main_v127) = ReadP.val_main_v127 (F := F) X.x0 X.x1 X.x2 X.x4 X.x5
      ∧ V (Proc.devRef .tc main_v131) = ReadP.val_main_v131 (F := F) X.x0 X.x1 X.x2 X.x4 X.x5 X.x6
      ∧ V (Proc.devRef .tc main_v147) = ReadP.val_main_v147 (F := F) X.x0 X.x1 X.x2 X.x4 X.x5
      ∧ V (Proc.devRef .tc main_v150) = ReadP.val_main_v150 (F := F) X.x0 X.x1 X.x2 X.x4 X.x5 X.x6
      ∧ BaseAt X V) :
    after s24 V (Proc.devRef .tc main_v127) = ReadP.val_main_v127 (F := F) X.x0 X.x1 X.x2 X.x4 X.x5
    ∧ after s24 V (Proc.devRef .tc main_v147) = ReadP.val_main_v147 (F := F) X.x0 X.x1 X.x2 X.x4 X.x5
    ∧ after s24 V (Proc.devRef .tc main_v151) = ReadP.val_main_v151 (F := F) X.x0 X.x1 X.x2 X.x4 X.x5 X.x6
    ∧ after s24 V (Proc.devRef .tc main_v152) = ReadP.val_main_v152 (F := F) X.x1 X.x2
    ∧ after s24 V (Proc.devRef .tc main_v154) = ReadP.val_main_v154 (F := F) X.x1
    ∧ after s24 V (Proc.devRef .tc main_v156) = ReadP.val_main_v156 (F := F) X.x1
    ∧ BaseAt X (after s24 V) := by
  obtain ⟨h_main_v127, h_main_v131, h_main_v147, h_main_v150, hB⟩ := h
  obtain ⟨hA, h_main_v1, h_main_v3, h_main_v27⟩ := id hB
  exact ⟨(s24_ok.keep (by decide)).trans h_main_v127,
    (s24_ok.keep (by decide)).trans h_main_v147,
    by after_results_simp; rw [h_main_v131, h_main_v150]; rfl,
    by after_results_simp; rw [h_main_v27]; rfl,
    by after_results_simp; rw [h_main_v1]; rfl,
    by after_results_simp; rw [h_main_v1]; rfl,
    hB.step s24_ok (by decide)⟩

abbrev s25 : List (HloOp τ sig (Elt F)) :=
  [ ternary main_v154 main_v156 main_v1 main_v157 (select),
    unary main_v157 main_v158 (broadcastInDim S800000x1 ![0] bcast_S800000_S800000x1_0),
    binary main_v147 main_v158 main_v159 (fun x i => Host.gather gather_S50000x64_S800000x1_S800000x64_1_0_n_n_0_1_164 x i),
    unary main_v152 main_v160 (broadcastInDim S800000x64 ![0, 1] bcast_S800000x1_S800000x64_0_1),
    binary main_v160 main_v159 main_v161 (mulf),
    nullary main_cst_29 (constant S_ .f32 0x00000000#32),
    unary main_cst_29 main_v162 (broadcastInDim S50000x64 ![] bcast_S_S50000x64),
    unary main_v3 main_v163 (broadcastInDim S800000x1 ![0] bcast_S800000_S800000x1_0) ]
abbrev w25 : List (Ref sig .tc) := [main_v157, main_v158, main_v159, main_v160, main_v161, main_cst_29, main_v162, main_v163]
theorem s25_ok : Ok (F := F) s25 w25 :=
  ⟨⟨ternary_bufs_sub .., unary_bufs_sub .., binary_bufs_sub .., unary_bufs_sub .., binary_bufs_sub .., nullary_bufs_sub .., unary_bufs_sub .., unary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step25 (V : Valuation τ sig (Elt F))
    (h : V (Proc.devRef .tc main_v127) = ReadP.val_main_v127 (F := F) X.x0 X.x1 X.x2 X.x4 X.x5
      ∧ V (Proc.devRef .tc main_v147) = ReadP.val_main_v147 (F := F) X.x0 X.x1 X.x2 X.x4 X.x5
      ∧ V (Proc.devRef .tc main_v151) = ReadP.val_main_v151 (F := F) X.x0 X.x1 X.x2 X.x4 X.x5 X.x6
      ∧ V (Proc.devRef .tc main_v152) = ReadP.val_main_v152 (F := F) X.x1 X.x2
      ∧ V (Proc.devRef .tc main_v154) = ReadP.val_main_v154 (F := F) X.x1
      ∧ V (Proc.devRef .tc main_v156) = ReadP.val_main_v156 (F := F) X.x1
      ∧ BaseAt X V) :
    after s25 V (Proc.devRef .tc main_v127) = ReadP.val_main_v127 (F := F) X.x0 X.x1 X.x2 X.x4 X.x5
    ∧ after s25 V (Proc.devRef .tc main_v147) = ReadP.val_main_v147 (F := F) X.x0 X.x1 X.x2 X.x4 X.x5
    ∧ after s25 V (Proc.devRef .tc main_v151) = ReadP.val_main_v151 (F := F) X.x0 X.x1 X.x2 X.x4 X.x5 X.x6
    ∧ after s25 V (Proc.devRef .tc main_v161) = ReadP.val_main_v161 (F := F) X.x0 X.x1 X.x2 X.x4 X.x5
    ∧ after s25 V (Proc.devRef .tc main_v162) = ReadP.val_main_v162 (F := F)
    ∧ after s25 V (Proc.devRef .tc main_v163) = ReadP.val_main_v163 (F := F) X.x1
    ∧ BaseAt X (after s25 V) := by
  obtain ⟨h_main_v127, h_main_v147, h_main_v151, h_main_v152, h_main_v154, h_main_v156, hB⟩ := h
  obtain ⟨hA, h_main_v1, h_main_v3, h_main_v27⟩ := id hB
  exact ⟨(s25_ok.keep (by decide)).trans h_main_v127,
    (s25_ok.keep (by decide)).trans h_main_v147,
    (s25_ok.keep (by decide)).trans h_main_v151,
    by after_results_simp; rw [h_main_v152, h_main_v147, h_main_v154, h_main_v156, h_main_v1]; rfl,
    by after_results_simp; rfl,
    by after_results_simp; rw [h_main_v3]; rfl,
    hB.step s25_ok (by decide)⟩

abbrev s26 : List (HloOp τ sig (Elt F)) :=
  [ ternary main_v162 main_v163 main_v161 main_v164 (fun x i u => Host.scatterAdd scatter_S50000x64_S800000x1_S800000x64_1_0_0_1 x i u),
    nullary main_cst_30 (constant S_ .f32 0x40000000#32),
    unary main_cst_30 main_v165 (broadcastInDim S50000x64 ![] bcast_S_S50000x64),
    binary main_v165 main_v164 main_v166 (mulf),
    binary main_v166 main_v127 main_v167 (subf),
    unary main_arg6 main_v168 (extractStridedSlice S1x64x64 ![3, 0, 0] · slices_S5x64x64_S1x64x64_3_0_0),
    reshape main_v168 main_v169 rfl shapeCasts_S1x64x64_S64x64,
    binary main_v167 main_v169 main_v170 (fun l r => Host.dotGeneral dot_S50000x64_S64x64_S50000x64_1_0_0_1_n_n none l r) ]
abbrev w26 : List (Ref sig .tc) := [main_v164, main_cst_30, main_v165, main_v166, main_v167, main_v168, main_v169, main_v170]
theorem s26_ok : Ok (F := F) s26 w26 :=
  ⟨⟨ternary_bufs_sub .., nullary_bufs_sub .., unary_bufs_sub .., binary_bufs_sub .., binary_bufs_sub .., unary_bufs_sub .., reshape_bufs_sub .., binary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step26 (V : Valuation τ sig (Elt F))
    (h : V (Proc.devRef .tc main_v127) = ReadP.val_main_v127 (F := F) X.x0 X.x1 X.x2 X.x4 X.x5
      ∧ V (Proc.devRef .tc main_v147) = ReadP.val_main_v147 (F := F) X.x0 X.x1 X.x2 X.x4 X.x5
      ∧ V (Proc.devRef .tc main_v151) = ReadP.val_main_v151 (F := F) X.x0 X.x1 X.x2 X.x4 X.x5 X.x6
      ∧ V (Proc.devRef .tc main_v161) = ReadP.val_main_v161 (F := F) X.x0 X.x1 X.x2 X.x4 X.x5
      ∧ V (Proc.devRef .tc main_v162) = ReadP.val_main_v162 (F := F)
      ∧ V (Proc.devRef .tc main_v163) = ReadP.val_main_v163 (F := F) X.x1
      ∧ BaseAt X V) :
    after s26 V (Proc.devRef .tc main_v147) = ReadP.val_main_v147 (F := F) X.x0 X.x1 X.x2 X.x4 X.x5
    ∧ after s26 V (Proc.devRef .tc main_v151) = ReadP.val_main_v151 (F := F) X.x0 X.x1 X.x2 X.x4 X.x5 X.x6
    ∧ after s26 V (Proc.devRef .tc main_v167) = ReadP.val_main_v167 (F := F) X.x0 X.x1 X.x2 X.x4 X.x5
    ∧ after s26 V (Proc.devRef .tc main_v170) = ReadP.val_main_v170 (F := F) X.x0 X.x1 X.x2 X.x4 X.x5 X.x6
    ∧ BaseAt X (after s26 V) := by
  obtain ⟨h_main_v127, h_main_v147, h_main_v151, h_main_v161, h_main_v162, h_main_v163, hB⟩ := h
  obtain ⟨hA, h_main_v1, h_main_v3, h_main_v27⟩ := id hB
  obtain ⟨a0, a1, a2, a3, a4, a5, a6, a7, a8, a9, a10, a11⟩ := id hA
  exact ⟨(s26_ok.keep (by decide)).trans h_main_v147,
    (s26_ok.keep (by decide)).trans h_main_v151,
    by after_results_simp; rw [h_main_v162, h_main_v163, h_main_v161, h_main_v127]; rfl,
    by after_results_simp; rw [h_main_v162, h_main_v163, h_main_v161, h_main_v127, a6]; rfl,
    hB.step s26_ok (by decide)⟩

abbrev s27 : List (HloOp τ sig (Elt F)) :=
  [ binary main_v151 main_v170 main_v171 (addf),
    unary main_v27 main_v172 (broadcastInDim S800000x1 ![0] bcast_S800000_S800000x1_0),
    nullary main_c_31 (constantI S_ 32 0#32),
    unary main_c_31 main_v173 (broadcastInDim S800000 ![] bcast_S_S800000),
    binary main_v1 main_v173 main_v174 (cmpi .slt),
    nullary main_c_32 (constantI S_ 32 50000#32),
    unary main_c_32 main_v175 (broadcastInDim S800000 ![] bcast_S_S800000),
    binary main_v1 main_v175 main_v176 (addi) ]
abbrev w27 : List (Ref sig .tc) := [main_v171, main_v172, main_c_31, main_v173, main_v174, main_c_32, main_v175, main_v176]
theorem s27_ok : Ok (F := F) s27 w27 :=
  ⟨⟨binary_bufs_sub .., unary_bufs_sub .., nullary_bufs_sub .., unary_bufs_sub .., binary_bufs_sub .., nullary_bufs_sub .., unary_bufs_sub .., binary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step27 (V : Valuation τ sig (Elt F))
    (h : V (Proc.devRef .tc main_v147) = ReadP.val_main_v147 (F := F) X.x0 X.x1 X.x2 X.x4 X.x5
      ∧ V (Proc.devRef .tc main_v151) = ReadP.val_main_v151 (F := F) X.x0 X.x1 X.x2 X.x4 X.x5 X.x6
      ∧ V (Proc.devRef .tc main_v167) = ReadP.val_main_v167 (F := F) X.x0 X.x1 X.x2 X.x4 X.x5
      ∧ V (Proc.devRef .tc main_v170) = ReadP.val_main_v170 (F := F) X.x0 X.x1 X.x2 X.x4 X.x5 X.x6
      ∧ BaseAt X V) :
    after s27 V (Proc.devRef .tc main_v147) = ReadP.val_main_v147 (F := F) X.x0 X.x1 X.x2 X.x4 X.x5
    ∧ after s27 V (Proc.devRef .tc main_v167) = ReadP.val_main_v167 (F := F) X.x0 X.x1 X.x2 X.x4 X.x5
    ∧ after s27 V (Proc.devRef .tc main_v171) = ReadP.val_main_v171 (F := F) X.x0 X.x1 X.x2 X.x4 X.x5 X.x6
    ∧ after s27 V (Proc.devRef .tc main_v172) = ReadP.val_main_v172 (F := F) X.x1 X.x2
    ∧ after s27 V (Proc.devRef .tc main_v174) = ReadP.val_main_v174 (F := F) X.x1
    ∧ after s27 V (Proc.devRef .tc main_v176) = ReadP.val_main_v176 (F := F) X.x1
    ∧ BaseAt X (after s27 V) := by
  obtain ⟨h_main_v147, h_main_v151, h_main_v167, h_main_v170, hB⟩ := h
  obtain ⟨hA, h_main_v1, h_main_v3, h_main_v27⟩ := id hB
  exact ⟨(s27_ok.keep (by decide)).trans h_main_v147,
    (s27_ok.keep (by decide)).trans h_main_v167,
    by after_results_simp; rw [h_main_v151, h_main_v170]; rfl,
    by after_results_simp; rw [h_main_v27]; rfl,
    by after_results_simp; rw [h_main_v1]; rfl,
    by after_results_simp; rw [h_main_v1]; rfl,
    hB.step s27_ok (by decide)⟩

abbrev s28 : List (HloOp τ sig (Elt F)) :=
  [ ternary main_v174 main_v176 main_v1 main_v177 (select),
    unary main_v177 main_v178 (broadcastInDim S800000x1 ![0] bcast_S800000_S800000x1_0),
    binary main_v167 main_v178 main_v179 (fun x i => Host.gather gather_S50000x64_S800000x1_S800000x64_1_0_n_n_0_1_164 x i),
    unary main_v172 main_v180 (broadcastInDim S800000x64 ![0, 1] bcast_S800000x1_S800000x64_0_1),
    binary main_v180 main_v179 main_v181 (mulf),
    nullary main_cst_33 (constant S_ .f32 0x00000000#32),
    unary main_cst_33 main_v182 (broadcastInDim S50000x64 ![] bcast_S_S50000x64),
    unary main_v3 main_v183 (broadcastInDim S800000x1 ![0] bcast_S800000_S800000x1_0) ]
abbrev w28 : List (Ref sig .tc) := [main_v177, main_v178, main_v179, main_v180, main_v181, main_cst_33, main_v182, main_v183]
theorem s28_ok : Ok (F := F) s28 w28 :=
  ⟨⟨ternary_bufs_sub .., unary_bufs_sub .., binary_bufs_sub .., unary_bufs_sub .., binary_bufs_sub .., nullary_bufs_sub .., unary_bufs_sub .., unary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step28 (V : Valuation τ sig (Elt F))
    (h : V (Proc.devRef .tc main_v147) = ReadP.val_main_v147 (F := F) X.x0 X.x1 X.x2 X.x4 X.x5
      ∧ V (Proc.devRef .tc main_v167) = ReadP.val_main_v167 (F := F) X.x0 X.x1 X.x2 X.x4 X.x5
      ∧ V (Proc.devRef .tc main_v171) = ReadP.val_main_v171 (F := F) X.x0 X.x1 X.x2 X.x4 X.x5 X.x6
      ∧ V (Proc.devRef .tc main_v172) = ReadP.val_main_v172 (F := F) X.x1 X.x2
      ∧ V (Proc.devRef .tc main_v174) = ReadP.val_main_v174 (F := F) X.x1
      ∧ V (Proc.devRef .tc main_v176) = ReadP.val_main_v176 (F := F) X.x1
      ∧ BaseAt X V) :
    after s28 V (Proc.devRef .tc main_v147) = ReadP.val_main_v147 (F := F) X.x0 X.x1 X.x2 X.x4 X.x5
    ∧ after s28 V (Proc.devRef .tc main_v171) = ReadP.val_main_v171 (F := F) X.x0 X.x1 X.x2 X.x4 X.x5 X.x6
    ∧ after s28 V (Proc.devRef .tc main_v181) = ReadP.val_main_v181 (F := F) X.x0 X.x1 X.x2 X.x4 X.x5
    ∧ after s28 V (Proc.devRef .tc main_v182) = ReadP.val_main_v182 (F := F)
    ∧ after s28 V (Proc.devRef .tc main_v183) = ReadP.val_main_v183 (F := F) X.x1
    ∧ BaseAt X (after s28 V) := by
  obtain ⟨h_main_v147, h_main_v167, h_main_v171, h_main_v172, h_main_v174, h_main_v176, hB⟩ := h
  obtain ⟨hA, h_main_v1, h_main_v3, h_main_v27⟩ := id hB
  exact ⟨(s28_ok.keep (by decide)).trans h_main_v147,
    (s28_ok.keep (by decide)).trans h_main_v171,
    by after_results_simp; rw [h_main_v172, h_main_v167, h_main_v174, h_main_v176, h_main_v1]; rfl,
    by after_results_simp; rfl,
    by after_results_simp; rw [h_main_v3]; rfl,
    hB.step s28_ok (by decide)⟩

abbrev s29 : List (HloOp τ sig (Elt F)) :=
  [ ternary main_v182 main_v183 main_v181 main_v184 (fun x i u => Host.scatterAdd scatter_S50000x64_S800000x1_S800000x64_1_0_0_1 x i u),
    nullary main_cst_34 (constant S_ .f32 0x40000000#32),
    unary main_cst_34 main_v185 (broadcastInDim S50000x64 ![] bcast_S_S50000x64),
    binary main_v185 main_v184 main_v186 (mulf),
    binary main_v186 main_v147 main_v187 (subf),
    unary main_arg6 main_v188 (extractStridedSlice S1x64x64 ![4, 0, 0] · slices_S5x64x64_S1x64x64_4_0_0),
    reshape main_v188 main_v189 rfl shapeCasts_S1x64x64_S64x64,
    binary main_v187 main_v189 main_v190 (fun l r => Host.dotGeneral dot_S50000x64_S64x64_S50000x64_1_0_0_1_n_n none l r) ]
abbrev w29 : List (Ref sig .tc) := [main_v184, main_cst_34, main_v185, main_v186, main_v187, main_v188, main_v189, main_v190]
theorem s29_ok : Ok (F := F) s29 w29 :=
  ⟨⟨ternary_bufs_sub .., nullary_bufs_sub .., unary_bufs_sub .., binary_bufs_sub .., binary_bufs_sub .., unary_bufs_sub .., reshape_bufs_sub .., binary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step29 (V : Valuation τ sig (Elt F))
    (h : V (Proc.devRef .tc main_v147) = ReadP.val_main_v147 (F := F) X.x0 X.x1 X.x2 X.x4 X.x5
      ∧ V (Proc.devRef .tc main_v171) = ReadP.val_main_v171 (F := F) X.x0 X.x1 X.x2 X.x4 X.x5 X.x6
      ∧ V (Proc.devRef .tc main_v181) = ReadP.val_main_v181 (F := F) X.x0 X.x1 X.x2 X.x4 X.x5
      ∧ V (Proc.devRef .tc main_v182) = ReadP.val_main_v182 (F := F)
      ∧ V (Proc.devRef .tc main_v183) = ReadP.val_main_v183 (F := F) X.x1
      ∧ BaseAt X V) :
    after s29 V (Proc.devRef .tc main_v171) = ReadP.val_main_v171 (F := F) X.x0 X.x1 X.x2 X.x4 X.x5 X.x6
    ∧ after s29 V (Proc.devRef .tc main_v190) = ReadP.val_main_v190 (F := F) X.x0 X.x1 X.x2 X.x4 X.x5 X.x6
    ∧ BaseAt X (after s29 V) := by
  obtain ⟨h_main_v147, h_main_v171, h_main_v181, h_main_v182, h_main_v183, hB⟩ := h
  obtain ⟨hA, h_main_v1, h_main_v3, h_main_v27⟩ := id hB
  obtain ⟨a0, a1, a2, a3, a4, a5, a6, a7, a8, a9, a10, a11⟩ := id hA
  exact ⟨(s29_ok.keep (by decide)).trans h_main_v171,
    by after_results_simp; rw [h_main_v182, h_main_v183, h_main_v181, h_main_v147, a6]; rfl,
    hB.step s29_ok (by decide)⟩

abbrev s30 : List (HloOp τ sig (Elt F)) :=
  [ binary main_v171 main_v190 main_v191 (addf),
    unary main_arg7 main_v192 (broadcastInDim S1x64 ![1] bcast_S64_S1x64_1),
    unary main_v192 main_v193 (broadcastInDim S50000x64 ![0, 1] bcast_S1x64_S50000x64_0_1),
    binary main_v191 main_v193 main_v194 (addf),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v194) (TRef.of (T := ⟨S50000x64, .f32⟩) main_call2_v0) (TRef.of (T := ⟨S50000x64, .f32⟩) main_v195) maximumf ]
abbrev w30 : List (Ref sig .tc) := [main_v191, main_v192, main_v193, main_v194, main_call2_cst, main_call2_v0, main_v195]
theorem s30_ok : Ok (F := F) s30 w30 :=
  ⟨⟨binary_bufs_sub .., unary_bufs_sub .., unary_bufs_sub .., binary_bufs_sub .., nullary_bufs_sub .., unary_bufs_sub .., binary_bufs_sub ..⟩,
    ⟨rfl, rfl, rfl, rfl, rfl, rfl, rfl⟩,
    ⟨wsub (by decide), wsub (by decide), wsub (by decide), wsub (by decide), wsub (by decide), wsub (by decide), wsub (by decide)⟩⟩

set_option maxRecDepth 8192 in
theorem step30 (V : Valuation τ sig (Elt F))
    (h : V (Proc.devRef .tc main_v171) = ReadP.val_main_v171 (F := F) X.x0 X.x1 X.x2 X.x4 X.x5 X.x6
      ∧ V (Proc.devRef .tc main_v190) = ReadP.val_main_v190 (F := F) X.x0 X.x1 X.x2 X.x4 X.x5 X.x6
      ∧ BaseAt X V) :
    after s30 V (Proc.devRef .tc main_v195) = ReadP.val_main_v195 (F := F) X.x0 X.x1 X.x2 X.x4 X.x5 X.x6 X.x7
    ∧ BaseAt X (after s30 V) := by
  obtain ⟨h_main_v171, h_main_v190, hB⟩ := h
  obtain ⟨hA, h_main_v1, h_main_v3, h_main_v27⟩ := id hB
  obtain ⟨a0, a1, a2, a3, a4, a5, a6, a7, a8, a9, a10, a11⟩ := id hA
  exact ⟨by after_results_simp; rw [h_main_v171, h_main_v190, a7]; rfl,
    hB.step s30_ok (by decide)⟩

abbrev s31 : List (HloOp τ sig (Elt F)) :=
  [ unary main_arg8 main_v196 (extractStridedSlice S1x64x128 ![0, 0, 0] · slices_S5x64x128_S1x64x128_0_0_0),
    reshape main_v196 main_v197 rfl shapeCasts_S1x64x128_S64x128,
    binary main_v195 main_v197 main_v198 (fun l r => Host.dotGeneral dot_S50000x64_S64x128_S50000x128_1_0_0_1_n_n none l r),
    unary main_v27 main_v199 (broadcastInDim S800000x1 ![0] bcast_S800000_S800000x1_0),
    nullary main_c_35 (constantI S_ 32 0#32),
    unary main_c_35 main_v200 (broadcastInDim S800000 ![] bcast_S_S800000),
    binary main_v1 main_v200 main_v201 (cmpi .slt) ]
abbrev w31 : List (Ref sig .tc) := [main_v196, main_v197, main_v198, main_v199, main_c_35, main_v200, main_v201]
theorem s31_ok : Ok (F := F) s31 w31 :=
  ⟨⟨unary_bufs_sub .., reshape_bufs_sub .., binary_bufs_sub .., unary_bufs_sub .., nullary_bufs_sub .., unary_bufs_sub .., binary_bufs_sub ..⟩,
    ⟨rfl, rfl, rfl, rfl, rfl, rfl, rfl⟩,
    ⟨wsub (by decide), wsub (by decide), wsub (by decide), wsub (by decide), wsub (by decide), wsub (by decide), wsub (by decide)⟩⟩

set_option maxRecDepth 8192 in
theorem step31 (V : Valuation τ sig (Elt F))
    (h : V (Proc.devRef .tc main_v195) = ReadP.val_main_v195 (F := F) X.x0 X.x1 X.x2 X.x4 X.x5 X.x6 X.x7
      ∧ BaseAt X V) :
    after s31 V (Proc.devRef .tc main_v195) = ReadP.val_main_v195 (F := F) X.x0 X.x1 X.x2 X.x4 X.x5 X.x6 X.x7
    ∧ after s31 V (Proc.devRef .tc main_v198) = ReadP.val_main_v198 (F := F) X.x0 X.x1 X.x2 X.x4 X.x5 X.x6 X.x7 X.x8
    ∧ after s31 V (Proc.devRef .tc main_v199) = ReadP.val_main_v199 (F := F) X.x1 X.x2
    ∧ after s31 V (Proc.devRef .tc main_v201) = ReadP.val_main_v201 (F := F) X.x1
    ∧ BaseAt X (after s31 V) := by
  obtain ⟨h_main_v195, hB⟩ := h
  obtain ⟨hA, h_main_v1, h_main_v3, h_main_v27⟩ := id hB
  obtain ⟨a0, a1, a2, a3, a4, a5, a6, a7, a8, a9, a10, a11⟩ := id hA
  exact ⟨(s31_ok.keep (by decide)).trans h_main_v195,
    by after_results_simp; rw [h_main_v195, a8]; rfl,
    by after_results_simp; rw [h_main_v27]; rfl,
    by after_results_simp; rw [h_main_v1]; rfl,
    hB.step s31_ok (by decide)⟩

set_option maxRecDepth 8192 in
theorem main_part3_eq (c : Dev nD) : main_part3 (F := F) c = seq (s24 ++ (s25 ++ (s26 ++ (s27 ++ (s28 ++ (s29 ++ (s30 ++ (s31)))))))) := by chain_rfl

abbrev s32 : List (HloOp τ sig (Elt F)) :=
  [ nullary main_c_36 (constantI S_ 32 50000#32),
    unary main_c_36 main_v202 (broadcastInDim S800000 ![] bcast_S_S800000),
    binary main_v1 main_v202 main_v203 (addi),
    ternary main_v201 main_v203 main_v1 main_v204 (select),
    unary main_v204 main_v205 (broadcastInDim S800000x1 ![0] bcast_S800000_S800000x1_0),
    binary main_v195 main_v205 main_v206 (fun x i => Host.gather gather_S50000x64_S800000x1_S800000x64_1_0_n_n_0_1_164 x i),
    unary main_v199 main_v207 (broadcastInDim S800000x64 ![0, 1] bcast_S800000x1_S800000x64_0_1),
    binary main_v207 main_v206 main_v208 (mulf) ]
abbrev w32 : List (Ref sig .tc) := [main_c_36, main_v202, main_v203, main_v204, main_v205, main_v206, main_v207, main_v208]
theorem s32_ok : Ok (F := F) s32 w32 :=
  ⟨⟨nullary_bufs_sub .., unary_bufs_sub .., binary_bufs_sub .., ternary_bufs_sub .., unary_bufs_sub .., binary_bufs_sub .., unary_bufs_sub .., binary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step32 (V : Valuation τ sig (Elt F))
    (h : V (Proc.devRef .tc main_v195) = ReadP.val_main_v195 (F := F) X.x0 X.x1 X.x2 X.x4 X.x5 X.x6 X.x7
      ∧ V (Proc.devRef .tc main_v198) = ReadP.val_main_v198 (F := F) X.x0 X.x1 X.x2 X.x4 X.x5 X.x6 X.x7 X.x8
      ∧ V (Proc.devRef .tc main_v199) = ReadP.val_main_v199 (F := F) X.x1 X.x2
      ∧ V (Proc.devRef .tc main_v201) = ReadP.val_main_v201 (F := F) X.x1
      ∧ BaseAt X V) :
    after s32 V (Proc.devRef .tc main_v195) = ReadP.val_main_v195 (F := F) X.x0 X.x1 X.x2 X.x4 X.x5 X.x6 X.x7
    ∧ after s32 V (Proc.devRef .tc main_v198) = ReadP.val_main_v198 (F := F) X.x0 X.x1 X.x2 X.x4 X.x5 X.x6 X.x7 X.x8
    ∧ after s32 V (Proc.devRef .tc main_v208) = ReadP.val_main_v208 (F := F) X.x0 X.x1 X.x2 X.x4 X.x5 X.x6 X.x7
    ∧ BaseAt X (after s32 V) := by
  obtain ⟨h_main_v195, h_main_v198, h_main_v199, h_main_v201, hB⟩ := h
  obtain ⟨hA, h_main_v1, h_main_v3, h_main_v27⟩ := id hB
  exact ⟨(s32_ok.keep (by decide)).trans h_main_v195,
    (s32_ok.keep (by decide)).trans h_main_v198,
    by after_results_simp; rw [h_main_v199, h_main_v195, h_main_v201, h_main_v1]; rfl,
    hB.step s32_ok (by decide)⟩

abbrev s33 : List (HloOp τ sig (Elt F)) :=
  [ nullary main_cst_37 (constant S_ .f32 0x00000000#32),
    unary main_cst_37 main_v209 (broadcastInDim S50000x64 ![] bcast_S_S50000x64),
    unary main_v3 main_v210 (broadcastInDim S800000x1 ![0] bcast_S800000_S800000x1_0),
    ternary main_v209 main_v210 main_v208 main_v211 (fun x i u => Host.scatterAdd scatter_S50000x64_S800000x1_S800000x64_1_0_0_1 x i u),
    unary main_arg8 main_v212 (extractStridedSlice S1x64x128 ![1, 0, 0] · slices_S5x64x128_S1x64x128_1_0_0),
    reshape main_v212 main_v213 rfl shapeCasts_S1x64x128_S64x128,
    binary main_v211 main_v213 main_v214 (fun l r => Host.dotGeneral dot_S50000x64_S64x128_S50000x128_1_0_0_1_n_n none l r),
    binary main_v198 main_v214 main_v215 (addf) ]
abbrev w33 : List (Ref sig .tc) := [main_cst_37, main_v209, main_v210, main_v211, main_v212, main_v213, main_v214, main_v215]
theorem s33_ok : Ok (F := F) s33 w33 :=
  ⟨⟨nullary_bufs_sub .., unary_bufs_sub .., unary_bufs_sub .., ternary_bufs_sub .., unary_bufs_sub .., reshape_bufs_sub .., binary_bufs_sub .., binary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step33 (V : Valuation τ sig (Elt F))
    (h : V (Proc.devRef .tc main_v195) = ReadP.val_main_v195 (F := F) X.x0 X.x1 X.x2 X.x4 X.x5 X.x6 X.x7
      ∧ V (Proc.devRef .tc main_v198) = ReadP.val_main_v198 (F := F) X.x0 X.x1 X.x2 X.x4 X.x5 X.x6 X.x7 X.x8
      ∧ V (Proc.devRef .tc main_v208) = ReadP.val_main_v208 (F := F) X.x0 X.x1 X.x2 X.x4 X.x5 X.x6 X.x7
      ∧ BaseAt X V) :
    after s33 V (Proc.devRef .tc main_v195) = ReadP.val_main_v195 (F := F) X.x0 X.x1 X.x2 X.x4 X.x5 X.x6 X.x7
    ∧ after s33 V (Proc.devRef .tc main_v211) = ReadP.val_main_v211 (F := F) X.x0 X.x1 X.x2 X.x4 X.x5 X.x6 X.x7
    ∧ after s33 V (Proc.devRef .tc main_v215) = ReadP.val_main_v215 (F := F) X.x0 X.x1 X.x2 X.x4 X.x5 X.x6 X.x7 X.x8
    ∧ BaseAt X (after s33 V) := by
  obtain ⟨h_main_v195, h_main_v198, h_main_v208, hB⟩ := h
  obtain ⟨hA, h_main_v1, h_main_v3, h_main_v27⟩ := id hB
  obtain ⟨a0, a1, a2, a3, a4, a5, a6, a7, a8, a9, a10, a11⟩ := id hA
  exact ⟨(s33_ok.keep (by decide)).trans h_main_v195,
    by after_results_simp; rw [h_main_v3, h_main_v208]; rfl,
    by after_results_simp; rw [h_main_v198, h_main_v3, h_main_v208, a8]; rfl,
    hB.step s33_ok (by decide)⟩

abbrev s34 : List (HloOp τ sig (Elt F)) :=
  [ unary main_v27 main_v216 (broadcastInDim S800000x1 ![0] bcast_S800000_S800000x1_0),
    nullary main_c_38 (constantI S_ 32 0#32),
    unary main_c_38 main_v217 (broadcastInDim S800000 ![] bcast_S_S800000),
    binary main_v1 main_v217 main_v218 (cmpi .slt),
    nullary main_c_39 (constantI S_ 32 50000#32),
    unary main_c_39 main_v219 (broadcastInDim S800000 ![] bcast_S_S800000),
    binary main_v1 main_v219 main_v220 (addi),
    ternary main_v218 main_v220 main_v1 main_v221 (select) ]
abbrev w34 : List (Ref sig .tc) := [main_v216, main_c_38, main_v217, main_v218, main_c_39, main_v219, main_v220, main_v221]
theorem s34_ok : Ok (F := F) s34 w34 :=
  ⟨⟨unary_bufs_sub .., nullary_bufs_sub .., unary_bufs_sub .., binary_bufs_sub .., nullary_bufs_sub .., unary_bufs_sub .., binary_bufs_sub .., ternary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step34 (V : Valuation τ sig (Elt F))
    (h : V (Proc.devRef .tc main_v195) = ReadP.val_main_v195 (F := F) X.x0 X.x1 X.x2 X.x4 X.x5 X.x6 X.x7
      ∧ V (Proc.devRef .tc main_v211) = ReadP.val_main_v211 (F := F) X.x0 X.x1 X.x2 X.x4 X.x5 X.x6 X.x7
      ∧ V (Proc.devRef .tc main_v215) = ReadP.val_main_v215 (F := F) X.x0 X.x1 X.x2 X.x4 X.x5 X.x6 X.x7 X.x8
      ∧ BaseAt X V) :
    after s34 V (Proc.devRef .tc main_v195) = ReadP.val_main_v195 (F := F) X.x0 X.x1 X.x2 X.x4 X.x5 X.x6 X.x7
    ∧ after s34 V (Proc.devRef .tc main_v211) = ReadP.val_main_v211 (F := F) X.x0 X.x1 X.x2 X.x4 X.x5 X.x6 X.x7
    ∧ after s34 V (Proc.devRef .tc main_v215) = ReadP.val_main_v215 (F := F) X.x0 X.x1 X.x2 X.x4 X.x5 X.x6 X.x7 X.x8
    ∧ after s34 V (Proc.devRef .tc main_v216) = ReadP.val_main_v216 (F := F) X.x1 X.x2
    ∧ after s34 V (Proc.devRef .tc main_v221) = ReadP.val_main_v221 (F := F) X.x1
    ∧ BaseAt X (after s34 V) := by
  obtain ⟨h_main_v195, h_main_v211, h_main_v215, hB⟩ := h
  obtain ⟨hA, h_main_v1, h_main_v3, h_main_v27⟩ := id hB
  exact ⟨(s34_ok.keep (by decide)).trans h_main_v195,
    (s34_ok.keep (by decide)).trans h_main_v211,
    (s34_ok.keep (by decide)).trans h_main_v215,
    by after_results_simp; rw [h_main_v27]; rfl,
    by after_results_simp; rw [h_main_v1]; rfl,
    hB.step s34_ok (by decide)⟩

abbrev s35 : List (HloOp τ sig (Elt F)) :=
  [ unary main_v221 main_v222 (broadcastInDim S800000x1 ![0] bcast_S800000_S800000x1_0),
    binary main_v211 main_v222 main_v223 (fun x i => Host.gather gather_S50000x64_S800000x1_S800000x64_1_0_n_n_0_1_164 x i),
    unary main_v216 main_v224 (broadcastInDim S800000x64 ![0, 1] bcast_S800000x1_S800000x64_0_1),
    binary main_v224 main_v223 main_v225 (mulf),
    nullary main_cst_40 (constant S_ .f32 0x00000000#32),
    unary main_cst_40 main_v226 (broadcastInDim S50000x64 ![] bcast_S_S50000x64),
    unary main_v3 main_v227 (broadcastInDim S800000x1 ![0] bcast_S800000_S800000x1_0),
    ternary main_v226 main_v227 main_v225 main_v228 (fun x i u => Host.scatterAdd scatter_S50000x64_S800000x1_S800000x64_1_0_0_1 x i u) ]
abbrev w35 : List (Ref sig .tc) := [main_v222, main_v223, main_v224, main_v225, main_cst_40, main_v226, main_v227, main_v228]
theorem s35_ok : Ok (F := F) s35 w35 :=
  ⟨⟨unary_bufs_sub .., binary_bufs_sub .., unary_bufs_sub .., binary_bufs_sub .., nullary_bufs_sub .., unary_bufs_sub .., unary_bufs_sub .., ternary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step35 (V : Valuation τ sig (Elt F))
    (h : V (Proc.devRef .tc main_v195) = ReadP.val_main_v195 (F := F) X.x0 X.x1 X.x2 X.x4 X.x5 X.x6 X.x7
      ∧ V (Proc.devRef .tc main_v211) = ReadP.val_main_v211 (F := F) X.x0 X.x1 X.x2 X.x4 X.x5 X.x6 X.x7
      ∧ V (Proc.devRef .tc main_v215) = ReadP.val_main_v215 (F := F) X.x0 X.x1 X.x2 X.x4 X.x5 X.x6 X.x7 X.x8
      ∧ V (Proc.devRef .tc main_v216) = ReadP.val_main_v216 (F := F) X.x1 X.x2
      ∧ V (Proc.devRef .tc main_v221) = ReadP.val_main_v221 (F := F) X.x1
      ∧ BaseAt X V) :
    after s35 V (Proc.devRef .tc main_v195) = ReadP.val_main_v195 (F := F) X.x0 X.x1 X.x2 X.x4 X.x5 X.x6 X.x7
    ∧ after s35 V (Proc.devRef .tc main_v211) = ReadP.val_main_v211 (F := F) X.x0 X.x1 X.x2 X.x4 X.x5 X.x6 X.x7
    ∧ after s35 V (Proc.devRef .tc main_v215) = ReadP.val_main_v215 (F := F) X.x0 X.x1 X.x2 X.x4 X.x5 X.x6 X.x7 X.x8
    ∧ after s35 V (Proc.devRef .tc main_v228) = ReadP.val_main_v228 (F := F) X.x0 X.x1 X.x2 X.x4 X.x5 X.x6 X.x7
    ∧ BaseAt X (after s35 V) := by
  obtain ⟨h_main_v195, h_main_v211, h_main_v215, h_main_v216, h_main_v221, hB⟩ := h
  obtain ⟨hA, h_main_v1, h_main_v3, h_main_v27⟩ := id hB
  exact ⟨(s35_ok.keep (by decide)).trans h_main_v195,
    (s35_ok.keep (by decide)).trans h_main_v211,
    (s35_ok.keep (by decide)).trans h_main_v215,
    by after_results_simp; rw [h_main_v3, h_main_v216, h_main_v211, h_main_v221]; rfl,
    hB.step s35_ok (by decide)⟩

abbrev s36 : List (HloOp τ sig (Elt F)) :=
  [ nullary main_cst_41 (constant S_ .f32 0x40000000#32),
    unary main_cst_41 main_v229 (broadcastInDim S50000x64 ![] bcast_S_S50000x64),
    binary main_v229 main_v228 main_v230 (mulf),
    binary main_v230 main_v195 main_v231 (subf),
    unary main_arg8 main_v232 (extractStridedSlice S1x64x128 ![2, 0, 0] · slices_S5x64x128_S1x64x128_2_0_0),
    reshape main_v232 main_v233 rfl shapeCasts_S1x64x128_S64x128,
    binary main_v231 main_v233 main_v234 (fun l r => Host.dotGeneral dot_S50000x64_S64x128_S50000x128_1_0_0_1_n_n none l r) ]
abbrev w36 : List (Ref sig .tc) := [main_cst_41, main_v229, main_v230, main_v231, main_v232, main_v233, main_v234]
theorem s36_ok : Ok (F := F) s36 w36 :=
  ⟨⟨nullary_bufs_sub .., unary_bufs_sub .., binary_bufs_sub .., binary_bufs_sub .., unary_bufs_sub .., reshape_bufs_sub .., binary_bufs_sub ..⟩,
    ⟨rfl, rfl, rfl, rfl, rfl, rfl, rfl⟩,
    ⟨wsub (by decide), wsub (by decide), wsub (by decide), wsub (by decide), wsub (by decide), wsub (by decide), wsub (by decide)⟩⟩

set_option maxRecDepth 8192 in
theorem step36 (V : Valuation τ sig (Elt F))
    (h : V (Proc.devRef .tc main_v195) = ReadP.val_main_v195 (F := F) X.x0 X.x1 X.x2 X.x4 X.x5 X.x6 X.x7
      ∧ V (Proc.devRef .tc main_v211) = ReadP.val_main_v211 (F := F) X.x0 X.x1 X.x2 X.x4 X.x5 X.x6 X.x7
      ∧ V (Proc.devRef .tc main_v215) = ReadP.val_main_v215 (F := F) X.x0 X.x1 X.x2 X.x4 X.x5 X.x6 X.x7 X.x8
      ∧ V (Proc.devRef .tc main_v228) = ReadP.val_main_v228 (F := F) X.x0 X.x1 X.x2 X.x4 X.x5 X.x6 X.x7
      ∧ BaseAt X V) :
    after s36 V (Proc.devRef .tc main_v211) = ReadP.val_main_v211 (F := F) X.x0 X.x1 X.x2 X.x4 X.x5 X.x6 X.x7
    ∧ after s36 V (Proc.devRef .tc main_v215) = ReadP.val_main_v215 (F := F) X.x0 X.x1 X.x2 X.x4 X.x5 X.x6 X.x7 X.x8
    ∧ after s36 V (Proc.devRef .tc main_v231) = ReadP.val_main_v231 (F := F) X.x0 X.x1 X.x2 X.x4 X.x5 X.x6 X.x7
    ∧ after s36 V (Proc.devRef .tc main_v234) = ReadP.val_main_v234 (F := F) X.x0 X.x1 X.x2 X.x4 X.x5 X.x6 X.x7 X.x8
    ∧ BaseAt X (after s36 V) := by
  obtain ⟨h_main_v195, h_main_v211, h_main_v215, h_main_v228, hB⟩ := h
  obtain ⟨hA, h_main_v1, h_main_v3, h_main_v27⟩ := id hB
  obtain ⟨a0, a1, a2, a3, a4, a5, a6, a7, a8, a9, a10, a11⟩ := id hA
  exact ⟨(s36_ok.keep (by decide)).trans h_main_v211,
    (s36_ok.keep (by decide)).trans h_main_v215,
    by after_results_simp; rw [h_main_v228, h_main_v195]; rfl,
    by after_results_simp; rw [h_main_v228, h_main_v195, a8]; rfl,
    hB.step s36_ok (by decide)⟩

abbrev s37 : List (HloOp τ sig (Elt F)) :=
  [ binary main_v215 main_v234 main_v235 (addf),
    unary main_v27 main_v236 (broadcastInDim S800000x1 ![0] bcast_S800000_S800000x1_0),
    nullary main_c_42 (constantI S_ 32 0#32),
    unary main_c_42 main_v237 (broadcastInDim S800000 ![] bcast_S_S800000),
    binary main_v1 main_v237 main_v238 (cmpi .slt),
    nullary main_c_43 (constantI S_ 32 50000#32),
    unary main_c_43 main_v239 (broadcastInDim S800000 ![] bcast_S_S800000) ]
abbrev w37 : List (Ref sig .tc) := [main_v235, main_v236, main_c_42, main_v237, main_v238, main_c_43, main_v239]
theorem s37_ok : Ok (F := F) s37 w37 :=
  ⟨⟨binary_bufs_sub .., unary_bufs_sub .., nullary_bufs_sub .., unary_bufs_sub .., binary_bufs_sub .., nullary_bufs_sub .., unary_bufs_sub ..⟩,
    ⟨rfl, rfl, rfl, rfl, rfl, rfl, rfl⟩,
    ⟨wsub (by decide), wsub (by decide), wsub (by decide), wsub (by decide), wsub (by decide), wsub (by decide), wsub (by decide)⟩⟩

set_option maxRecDepth 8192 in
theorem step37 (V : Valuation τ sig (Elt F))
    (h : V (Proc.devRef .tc main_v211) = ReadP.val_main_v211 (F := F) X.x0 X.x1 X.x2 X.x4 X.x5 X.x6 X.x7
      ∧ V (Proc.devRef .tc main_v215) = ReadP.val_main_v215 (F := F) X.x0 X.x1 X.x2 X.x4 X.x5 X.x6 X.x7 X.x8
      ∧ V (Proc.devRef .tc main_v231) = ReadP.val_main_v231 (F := F) X.x0 X.x1 X.x2 X.x4 X.x5 X.x6 X.x7
      ∧ V (Proc.devRef .tc main_v234) = ReadP.val_main_v234 (F := F) X.x0 X.x1 X.x2 X.x4 X.x5 X.x6 X.x7 X.x8
      ∧ BaseAt X V) :
    after s37 V (Proc.devRef .tc main_v211) = ReadP.val_main_v211 (F := F) X.x0 X.x1 X.x2 X.x4 X.x5 X.x6 X.x7
    ∧ after s37 V (Proc.devRef .tc main_v231) = ReadP.val_main_v231 (F := F) X.x0 X.x1 X.x2 X.x4 X.x5 X.x6 X.x7
    ∧ after s37 V (Proc.devRef .tc main_v235) = ReadP.val_main_v235 (F := F) X.x0 X.x1 X.x2 X.x4 X.x5 X.x6 X.x7 X.x8
    ∧ after s37 V (Proc.devRef .tc main_v236) = ReadP.val_main_v236 (F := F) X.x1 X.x2
    ∧ after s37 V (Proc.devRef .tc main_v238) = ReadP.val_main_v238 (F := F) X.x1
    ∧ after s37 V (Proc.devRef .tc main_v239) = ReadP.val_main_v239 (F := F)
    ∧ BaseAt X (after s37 V) := by
  obtain ⟨h_main_v211, h_main_v215, h_main_v231, h_main_v234, hB⟩ := h
  obtain ⟨hA, h_main_v1, h_main_v3, h_main_v27⟩ := id hB
  exact ⟨(s37_ok.keep (by decide)).trans h_main_v211,
    (s37_ok.keep (by decide)).trans h_main_v231,
    by after_results_simp; rw [h_main_v215, h_main_v234]; rfl,
    by after_results_simp; rw [h_main_v27]; rfl,
    by after_results_simp; rw [h_main_v1]; rfl,
    by after_results_simp; rfl,
    hB.step s37_ok (by decide)⟩

abbrev s38 : List (HloOp τ sig (Elt F)) :=
  [ binary main_v1 main_v239 main_v240 (addi),
    ternary main_v238 main_v240 main_v1 main_v241 (select),
    unary main_v241 main_v242 (broadcastInDim S800000x1 ![0] bcast_S800000_S800000x1_0),
    binary main_v231 main_v242 main_v243 (fun x i => Host.gather gather_S50000x64_S800000x1_S800000x64_1_0_n_n_0_1_164 x i),
    unary main_v236 main_v244 (broadcastInDim S800000x64 ![0, 1] bcast_S800000x1_S800000x64_0_1),
    binary main_v244 main_v243 main_v245 (mulf),
    nullary main_cst_44 (constant S_ .f32 0x00000000#32) ]
abbrev w38 : List (Ref sig .tc) := [main_v240, main_v241, main_v242, main_v243, main_v244, main_v245, main_cst_44]
theorem s38_ok : Ok (F := F) s38 w38 :=
  ⟨⟨binary_bufs_sub .., ternary_bufs_sub .., unary_bufs_sub .., binary_bufs_sub .., unary_bufs_sub .., binary_bufs_sub .., nullary_bufs_sub ..⟩,
    ⟨rfl, rfl, rfl, rfl, rfl, rfl, rfl⟩,
    ⟨wsub (by decide), wsub (by decide), wsub (by decide), wsub (by decide), wsub (by decide), wsub (by decide), wsub (by decide)⟩⟩

set_option maxRecDepth 8192 in
theorem step38 (V : Valuation τ sig (Elt F))
    (h : V (Proc.devRef .tc main_v211) = ReadP.val_main_v211 (F := F) X.x0 X.x1 X.x2 X.x4 X.x5 X.x6 X.x7
      ∧ V (Proc.devRef .tc main_v231) = ReadP.val_main_v231 (F := F) X.x0 X.x1 X.x2 X.x4 X.x5 X.x6 X.x7
      ∧ V (Proc.devRef .tc main_v235) = ReadP.val_main_v235 (F := F) X.x0 X.x1 X.x2 X.x4 X.x5 X.x6 X.x7 X.x8
      ∧ V (Proc.devRef .tc main_v236) = ReadP.val_main_v236 (F := F) X.x1 X.x2
      ∧ V (Proc.devRef .tc main_v238) = ReadP.val_main_v238 (F := F) X.x1
      ∧ V (Proc.devRef .tc main_v239) = ReadP.val_main_v239 (F := F)
      ∧ BaseAt X V) :
    after s38 V (Proc.devRef .tc main_v211) = ReadP.val_main_v211 (F := F) X.x0 X.x1 X.x2 X.x4 X.x5 X.x6 X.x7
    ∧ after s38 V (Proc.devRef .tc main_v231) = ReadP.val_main_v231 (F := F) X.x0 X.x1 X.x2 X.x4 X.x5 X.x6 X.x7
    ∧ after s38 V (Proc.devRef .tc main_v235) = ReadP.val_main_v235 (F := F) X.x0 X.x1 X.x2 X.x4 X.x5 X.x6 X.x7 X.x8
    ∧ after s38 V (Proc.devRef .tc main_v245) = ReadP.val_main_v245 (F := F) X.x0 X.x1 X.x2 X.x4 X.x5 X.x6 X.x7
    ∧ after s38 V (Proc.devRef .tc main_cst_44) = ReadP.val_main_cst_44 (F := F)
    ∧ BaseAt X (after s38 V) := by
  obtain ⟨h_main_v211, h_main_v231, h_main_v235, h_main_v236, h_main_v238, h_main_v239, hB⟩ := h
  obtain ⟨hA, h_main_v1, h_main_v3, h_main_v27⟩ := id hB
  exact ⟨(s38_ok.keep (by decide)).trans h_main_v211,
    (s38_ok.keep (by decide)).trans h_main_v231,
    (s38_ok.keep (by decide)).trans h_main_v235,
    by after_results_simp; rw [h_main_v236, h_main_v231, h_main_v238, h_main_v1, h_main_v239]; rfl,
    by after_results_simp; rfl,
    hB.step s38_ok (by decide)⟩

abbrev s39 : List (HloOp τ sig (Elt F)) :=
  [ unary main_cst_44 main_v246 (broadcastInDim S50000x64 ![] bcast_S_S50000x64),
    unary main_v3 main_v247 (broadcastInDim S800000x1 ![0] bcast_S800000_S800000x1_0),
    ternary main_v246 main_v247 main_v245 main_v248 (fun x i u => Host.scatterAdd scatter_S50000x64_S800000x1_S800000x64_1_0_0_1 x i u),
    nullary main_cst_45 (constant S_ .f32 0x40000000#32),
    unary main_cst_45 main_v249 (broadcastInDim S50000x64 ![] bcast_S_S50000x64),
    binary main_v249 main_v248 main_v250 (mulf),
    binary main_v250 main_v211 main_v251 (subf) ]
abbrev w39 : List (Ref sig .tc) := [main_v246, main_v247, main_v248, main_cst_45, main_v249, main_v250, main_v251]
theorem s39_ok : Ok (F := F) s39 w39 :=
  ⟨⟨unary_bufs_sub .., unary_bufs_sub .., ternary_bufs_sub .., nullary_bufs_sub .., unary_bufs_sub .., binary_bufs_sub .., binary_bufs_sub ..⟩,
    ⟨rfl, rfl, rfl, rfl, rfl, rfl, rfl⟩,
    ⟨wsub (by decide), wsub (by decide), wsub (by decide), wsub (by decide), wsub (by decide), wsub (by decide), wsub (by decide)⟩⟩

set_option maxRecDepth 8192 in
theorem step39 (V : Valuation τ sig (Elt F))
    (h : V (Proc.devRef .tc main_v211) = ReadP.val_main_v211 (F := F) X.x0 X.x1 X.x2 X.x4 X.x5 X.x6 X.x7
      ∧ V (Proc.devRef .tc main_v231) = ReadP.val_main_v231 (F := F) X.x0 X.x1 X.x2 X.x4 X.x5 X.x6 X.x7
      ∧ V (Proc.devRef .tc main_v235) = ReadP.val_main_v235 (F := F) X.x0 X.x1 X.x2 X.x4 X.x5 X.x6 X.x7 X.x8
      ∧ V (Proc.devRef .tc main_v245) = ReadP.val_main_v245 (F := F) X.x0 X.x1 X.x2 X.x4 X.x5 X.x6 X.x7
      ∧ V (Proc.devRef .tc main_cst_44) = ReadP.val_main_cst_44 (F := F)
      ∧ BaseAt X V) :
    after s39 V (Proc.devRef .tc main_v231) = ReadP.val_main_v231 (F := F) X.x0 X.x1 X.x2 X.x4 X.x5 X.x6 X.x7
    ∧ after s39 V (Proc.devRef .tc main_v235) = ReadP.val_main_v235 (F := F) X.x0 X.x1 X.x2 X.x4 X.x5 X.x6 X.x7 X.x8
    ∧ after s39 V (Proc.devRef .tc main_v251) = ReadP.val_main_v251 (F := F) X.x0 X.x1 X.x2 X.x4 X.x5 X.x6 X.x7
    ∧ BaseAt X (after s39 V) := by
  obtain ⟨h_main_v211, h_main_v231, h_main_v235, h_main_v245, h_main_cst_44, hB⟩ := h
  obtain ⟨hA, h_main_v1, h_main_v3, h_main_v27⟩ := id hB
  exact ⟨(s39_ok.keep (by decide)).trans h_main_v231,
    (s39_ok.keep (by decide)).trans h_main_v235,
    by after_results_simp; rw [h_main_cst_44, h_main_v3, h_main_v245, h_main_v211]; rfl,
    hB.step s39_ok (by decide)⟩

set_option maxRecDepth 8192 in
theorem main_part4_eq (c : Dev nD) : main_part4 (F := F) c = seq (s32 ++ (s33 ++ (s34 ++ (s35 ++ (s36 ++ (s37 ++ (s38 ++ (s39)))))))) := by chain_rfl

abbrev s40 : List (HloOp τ sig (Elt F)) :=
  [ unary main_arg8 main_v252 (extractStridedSlice S1x64x128 ![3, 0, 0] · slices_S5x64x128_S1x64x128_3_0_0),
    reshape main_v252 main_v253 rfl shapeCasts_S1x64x128_S64x128,
    binary main_v251 main_v253 main_v254 (fun l r => Host.dotGeneral dot_S50000x64_S64x128_S50000x128_1_0_0_1_n_n none l r),
    binary main_v235 main_v254 main_v255 (addf),
    unary main_v27 main_v256 (broadcastInDim S800000x1 ![0] bcast_S800000_S800000x1_0),
    nullary main_c_46 (constantI S_ 32 0#32),
    unary main_c_46 main_v257 (broadcastInDim S800000 ![] bcast_S_S800000),
    binary main_v1 main_v257 main_v258 (cmpi .slt) ]
abbrev w40 : List (Ref sig .tc) := [main_v252, main_v253, main_v254, main_v255, main_v256, main_c_46, main_v257, main_v258]
theorem s40_ok : Ok (F := F) s40 w40 :=
  ⟨⟨unary_bufs_sub .., reshape_bufs_sub .., binary_bufs_sub .., binary_bufs_sub .., unary_bufs_sub .., nullary_bufs_sub .., unary_bufs_sub .., binary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step40 (V : Valuation τ sig (Elt F))
    (h : V (Proc.devRef .tc main_v231) = ReadP.val_main_v231 (F := F) X.x0 X.x1 X.x2 X.x4 X.x5 X.x6 X.x7
      ∧ V (Proc.devRef .tc main_v235) = ReadP.val_main_v235 (F := F) X.x0 X.x1 X.x2 X.x4 X.x5 X.x6 X.x7 X.x8
      ∧ V (Proc.devRef .tc main_v251) = ReadP.val_main_v251 (F := F) X.x0 X.x1 X.x2 X.x4 X.x5 X.x6 X.x7
      ∧ BaseAt X V) :
    after s40 V (Proc.devRef .tc main_v1) = ReadP.val_main_v1 (F := F) X.x1
    ∧ after s40 V (Proc.devRef .tc main_v3) = ReadP.val_main_v3 (F := F) X.x1
    ∧ after s40 V (Proc.devRef .tc main_v231) = ReadP.val_main_v231 (F := F) X.x0 X.x1 X.x2 X.x4 X.x5 X.x6 X.x7
    ∧ after s40 V (Proc.devRef .tc main_v251) = ReadP.val_main_v251 (F := F) X.x0 X.x1 X.x2 X.x4 X.x5 X.x6 X.x7
    ∧ after s40 V (Proc.devRef .tc main_v255) = ReadP.val_main_v255 (F := F) X.x0 X.x1 X.x2 X.x4 X.x5 X.x6 X.x7 X.x8
    ∧ after s40 V (Proc.devRef .tc main_v256) = ReadP.val_main_v256 (F := F) X.x1 X.x2
    ∧ after s40 V (Proc.devRef .tc main_v258) = ReadP.val_main_v258 (F := F) X.x1
    ∧ ArgsAt X (after s40 V) := by
  obtain ⟨h_main_v231, h_main_v235, h_main_v251, hB⟩ := h
  obtain ⟨hA, h_main_v1, h_main_v3, h_main_v27⟩ := id hB
  obtain ⟨a0, a1, a2, a3, a4, a5, a6, a7, a8, a9, a10, a11⟩ := id hA
  exact ⟨(s40_ok.keep (by decide)).trans h_main_v1,
    (s40_ok.keep (by decide)).trans h_main_v3,
    (s40_ok.keep (by decide)).trans h_main_v231,
    (s40_ok.keep (by decide)).trans h_main_v251,
    by after_results_simp; rw [h_main_v235, h_main_v251, a8]; rfl,
    by after_results_simp; rw [h_main_v27]; rfl,
    by after_results_simp; rw [h_main_v1]; rfl,
    hA.step s40_ok (by decide)⟩

abbrev s41 : List (HloOp τ sig (Elt F)) :=
  [ nullary main_c_47 (constantI S_ 32 50000#32),
    unary main_c_47 main_v259 (broadcastInDim S800000 ![] bcast_S_S800000),
    binary main_v1 main_v259 main_v260 (addi),
    ternary main_v258 main_v260 main_v1 main_v261 (select),
    unary main_v261 main_v262 (broadcastInDim S800000x1 ![0] bcast_S800000_S800000x1_0),
    binary main_v251 main_v262 main_v263 (fun x i => Host.gather gather_S50000x64_S800000x1_S800000x64_1_0_n_n_0_1_164 x i),
    unary main_v256 main_v264 (broadcastInDim S800000x64 ![0, 1] bcast_S800000x1_S800000x64_0_1),
    binary main_v264 main_v263 main_v265 (mulf) ]
abbrev w41 : List (Ref sig .tc) := [main_c_47, main_v259, main_v260, main_v261, main_v262, main_v263, main_v264, main_v265]
theorem s41_ok : Ok (F := F) s41 w41 :=
  ⟨⟨nullary_bufs_sub .., unary_bufs_sub .., binary_bufs_sub .., ternary_bufs_sub .., unary_bufs_sub .., binary_bufs_sub .., unary_bufs_sub .., binary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step41 (V : Valuation τ sig (Elt F))
    (h : V (Proc.devRef .tc main_v1) = ReadP.val_main_v1 (F := F) X.x1
      ∧ V (Proc.devRef .tc main_v3) = ReadP.val_main_v3 (F := F) X.x1
      ∧ V (Proc.devRef .tc main_v231) = ReadP.val_main_v231 (F := F) X.x0 X.x1 X.x2 X.x4 X.x5 X.x6 X.x7
      ∧ V (Proc.devRef .tc main_v251) = ReadP.val_main_v251 (F := F) X.x0 X.x1 X.x2 X.x4 X.x5 X.x6 X.x7
      ∧ V (Proc.devRef .tc main_v255) = ReadP.val_main_v255 (F := F) X.x0 X.x1 X.x2 X.x4 X.x5 X.x6 X.x7 X.x8
      ∧ V (Proc.devRef .tc main_v256) = ReadP.val_main_v256 (F := F) X.x1 X.x2
      ∧ V (Proc.devRef .tc main_v258) = ReadP.val_main_v258 (F := F) X.x1
      ∧ ArgsAt X V) :
    after s41 V (Proc.devRef .tc main_v3) = ReadP.val_main_v3 (F := F) X.x1
    ∧ after s41 V (Proc.devRef .tc main_v231) = ReadP.val_main_v231 (F := F) X.x0 X.x1 X.x2 X.x4 X.x5 X.x6 X.x7
    ∧ after s41 V (Proc.devRef .tc main_v255) = ReadP.val_main_v255 (F := F) X.x0 X.x1 X.x2 X.x4 X.x5 X.x6 X.x7 X.x8
    ∧ after s41 V (Proc.devRef .tc main_v265) = ReadP.val_main_v265 (F := F) X.x0 X.x1 X.x2 X.x4 X.x5 X.x6 X.x7
    ∧ ArgsAt X (after s41 V) := by
  obtain ⟨h_main_v1, h_main_v3, h_main_v231, h_main_v251, h_main_v255, h_main_v256, h_main_v258, hA⟩ := h
  exact ⟨(s41_ok.keep (by decide)).trans h_main_v3,
    (s41_ok.keep (by decide)).trans h_main_v231,
    (s41_ok.keep (by decide)).trans h_main_v255,
    by after_results_simp; rw [h_main_v256, h_main_v251, h_main_v258, h_main_v1]; rfl,
    hA.step s41_ok (by decide)⟩

abbrev s42 : List (HloOp τ sig (Elt F)) :=
  [ nullary main_cst_48 (constant S_ .f32 0x00000000#32),
    unary main_cst_48 main_v266 (broadcastInDim S50000x64 ![] bcast_S_S50000x64),
    unary main_v3 main_v267 (broadcastInDim S800000x1 ![0] bcast_S800000_S800000x1_0),
    ternary main_v266 main_v267 main_v265 main_v268 (fun x i u => Host.scatterAdd scatter_S50000x64_S800000x1_S800000x64_1_0_0_1 x i u),
    nullary main_cst_49 (constant S_ .f32 0x40000000#32),
    unary main_cst_49 main_v269 (broadcastInDim S50000x64 ![] bcast_S_S50000x64),
    binary main_v269 main_v268 main_v270 (mulf),
    binary main_v270 main_v231 main_v271 (subf) ]
abbrev w42 : List (Ref sig .tc) := [main_cst_48, main_v266, main_v267, main_v268, main_cst_49, main_v269, main_v270, main_v271]
theorem s42_ok : Ok (F := F) s42 w42 :=
  ⟨⟨nullary_bufs_sub .., unary_bufs_sub .., unary_bufs_sub .., ternary_bufs_sub .., nullary_bufs_sub .., unary_bufs_sub .., binary_bufs_sub .., binary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step42 (V : Valuation τ sig (Elt F))
    (h : V (Proc.devRef .tc main_v3) = ReadP.val_main_v3 (F := F) X.x1
      ∧ V (Proc.devRef .tc main_v231) = ReadP.val_main_v231 (F := F) X.x0 X.x1 X.x2 X.x4 X.x5 X.x6 X.x7
      ∧ V (Proc.devRef .tc main_v255) = ReadP.val_main_v255 (F := F) X.x0 X.x1 X.x2 X.x4 X.x5 X.x6 X.x7 X.x8
      ∧ V (Proc.devRef .tc main_v265) = ReadP.val_main_v265 (F := F) X.x0 X.x1 X.x2 X.x4 X.x5 X.x6 X.x7
      ∧ ArgsAt X V) :
    after s42 V (Proc.devRef .tc main_v255) = ReadP.val_main_v255 (F := F) X.x0 X.x1 X.x2 X.x4 X.x5 X.x6 X.x7 X.x8
    ∧ after s42 V (Proc.devRef .tc main_v271) = ReadP.val_main_v271 (F := F) X.x0 X.x1 X.x2 X.x4 X.x5 X.x6 X.x7
    ∧ ArgsAt X (after s42 V) := by
  obtain ⟨h_main_v3, h_main_v231, h_main_v255, h_main_v265, hA⟩ := h
  exact ⟨(s42_ok.keep (by decide)).trans h_main_v255,
    by after_results_simp; rw [h_main_v3, h_main_v265, h_main_v231]; rfl,
    hA.step s42_ok (by decide)⟩

abbrev s43 : List (HloOp τ sig (Elt F)) :=
  [ unary main_arg8 main_v272 (extractStridedSlice S1x64x128 ![4, 0, 0] · slices_S5x64x128_S1x64x128_4_0_0),
    reshape main_v272 main_v273 rfl shapeCasts_S1x64x128_S64x128,
    binary main_v271 main_v273 main_v274 (fun l r => Host.dotGeneral dot_S50000x64_S64x128_S50000x128_1_0_0_1_n_n none l r),
    binary main_v255 main_v274 main_v275 (addf),
    unary main_arg9 main_v276 (broadcastInDim S1x128 ![1] bcast_S128_S1x128_1),
    unary main_v276 main_v277 (broadcastInDim S50000x128 ![0, 1] bcast_S1x128_S50000x128_0_1),
    binary main_v275 main_v277 main_v278 (addf),
    TRef.nullary (TRef.of (T := ⟨S_, .f32⟩) main_call3_cst) (constant S_ .f32 0x00000000#32) ]
abbrev w43 : List (Ref sig .tc) := [main_v272, main_v273, main_v274, main_v275, main_v276, main_v277, main_v278, main_call3_cst]
theorem s43_ok : Ok (F := F) s43 w43 :=
  ⟨⟨unary_bufs_sub .., reshape_bufs_sub .., binary_bufs_sub .., binary_bufs_sub .., unary_bufs_sub .., unary_bufs_sub .., binary_bufs_sub .., nullary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step43 (V : Valuation τ sig (Elt F))
    (h : V (Proc.devRef .tc main_v255) = ReadP.val_main_v255 (F := F) X.x0 X.x1 X.x2 X.x4 X.x5 X.x6 X.x7 X.x8
      ∧ V (Proc.devRef .tc main_v271) = ReadP.val_main_v271 (F := F) X.x0 X.x1 X.x2 X.x4 X.x5 X.x6 X.x7
      ∧ ArgsAt X V) :
    after s43 V (Proc.devRef .tc main_v278) = ReadP.val_main_v278 (F := F) X.x0 X.x1 X.x2 X.x4 X.x5 X.x6 X.x7 X.x8 X.x9
    ∧ after s43 V (Proc.devRef .tc main_call3_cst) = ReadP.val_main_call3_cst (F := F)
    ∧ ArgsAt X (after s43 V) := by
  obtain ⟨h_main_v255, h_main_v271, hA⟩ := h
  obtain ⟨a0, a1, a2, a3, a4, a5, a6, a7, a8, a9, a10, a11⟩ := id hA
  exact ⟨by after_results_simp; rw [h_main_v255, h_main_v271, a8, a9]; rfl,
    by after_results_simp; rfl,
    hA.step s43_ok (by decide)⟩

abbrev s44 : List (HloOp τ sig (Elt F)) :=
  [ TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v278) (TRef.of (T := ⟨S50000x128, .f32⟩) main_call3_v0) (TRef.of (T := ⟨S50000x128, .f32⟩) main_v279) maximumf,
    nullary main_cst_50 (constant S_ .f32 0x00000000#32),
    unary main_cst_50 main_v280 (broadcastInDim S64x128 ![] bcast_S_S64x128),
    unary main_arg3 main_v281 (broadcastInDim S50000x1 ![0] bcast_S50000_S50000x1_0),
    ternary main_v280 main_v281 main_v279 main_v282 (fun x i u => Host.scatterAdd scatter_S64x128_S50000x1_S50000x128_1_0_0_1 x i u),
    nullary main_cst_51 (constant S_ .f32 0x3F800000#32),
    unary main_cst_51 main_v283 (broadcastInDim S50000 ![] bcast_S_S50000) ]
abbrev w44 : List (Ref sig .tc) := [main_call3_v0, main_v279, main_cst_50, main_v280, main_v281, main_v282, main_cst_51, main_v283]
theorem s44_ok : Ok (F := F) s44 w44 :=
  ⟨⟨unary_bufs_sub .., binary_bufs_sub .., nullary_bufs_sub .., unary_bufs_sub .., unary_bufs_sub .., ternary_bufs_sub .., nullary_bufs_sub .., unary_bufs_sub ..⟩,
    ⟨rfl, rfl, rfl, rfl, rfl, rfl, rfl, rfl⟩,
    ⟨wsub (by decide), wsub (by decide), wsub (by decide), wsub (by decide), wsub (by decide), wsub (by decide), wsub (by decide), wsub (by decide)⟩⟩

set_option maxRecDepth 8192 in
theorem step44 (V : Valuation τ sig (Elt F))
    (h : V (Proc.devRef .tc main_v278) = ReadP.val_main_v278 (F := F) X.x0 X.x1 X.x2 X.x4 X.x5 X.x6 X.x7 X.x8 X.x9
      ∧ V (Proc.devRef .tc main_call3_cst) = ReadP.val_main_call3_cst (F := F)
      ∧ ArgsAt X V) :
    after s44 V (Proc.devRef .tc main_v282) = ReadP.val_main_v282 (F := F) X.x0 X.x1 X.x2 X.x3 X.x4 X.x5 X.x6 X.x7 X.x8 X.x9
    ∧ after s44 V (Proc.devRef .tc main_v283) = ReadP.val_main_v283 (F := F)
    ∧ ArgsAt X (after s44 V) := by
  obtain ⟨h_main_v278, h_main_call3_cst, hA⟩ := h
  obtain ⟨a0, a1, a2, a3, a4, a5, a6, a7, a8, a9, a10, a11⟩ := id hA
  exact ⟨by after_results_simp; rw [a3, h_main_v278, h_main_call3_cst]; rfl,
    by after_results_simp; rfl,
    hA.step s44_ok (by decide)⟩

abbrev s45 : List (HloOp τ sig (Elt F)) :=
  [ nullary main_cst_52 (constant S_ .f32 0x00000000#32),
    unary main_cst_52 main_v284 (broadcastInDim S64 ![] bcast_S_S64),
    unary main_arg3 main_v285 (broadcastInDim S50000x1 ![0] bcast_S50000_S50000x1_0),
    ternary main_v284 main_v285 main_v283 main_v286 (fun x i u => Host.scatterAdd scatter_S64_S50000x1_S50000_n_0_0_1 x i u),
    nullary main_cst_53 (constant S_ .f32 0x3F800000#32),
    unary main_cst_53 main_v287 (broadcastInDim S64 ![] bcast_S_S64),
    binary main_v286 main_v287 main_v288 (maximumf) ]
abbrev w45 : List (Ref sig .tc) := [main_cst_52, main_v284, main_v285, main_v286, main_cst_53, main_v287, main_v288]
theorem s45_ok : Ok (F := F) s45 w45 :=
  ⟨⟨nullary_bufs_sub .., unary_bufs_sub .., unary_bufs_sub .., ternary_bufs_sub .., nullary_bufs_sub .., unary_bufs_sub .., binary_bufs_sub ..⟩,
    ⟨rfl, rfl, rfl, rfl, rfl, rfl, rfl⟩,
    ⟨wsub (by decide), wsub (by decide), wsub (by decide), wsub (by decide), wsub (by decide), wsub (by decide), wsub (by decide)⟩⟩

set_option maxRecDepth 8192 in
theorem step45 (V : Valuation τ sig (Elt F))
    (h : V (Proc.devRef .tc main_v282) = ReadP.val_main_v282 (F := F) X.x0 X.x1 X.x2 X.x3 X.x4 X.x5 X.x6 X.x7 X.x8 X.x9
      ∧ V (Proc.devRef .tc main_v283) = ReadP.val_main_v283 (F := F)
      ∧ ArgsAt X V) :
    after s45 V (Proc.devRef .tc main_v282) = ReadP.val_main_v282 (F := F) X.x0 X.x1 X.x2 X.x3 X.x4 X.x5 X.x6 X.x7 X.x8 X.x9
    ∧ after s45 V (Proc.devRef .tc main_v288) = ReadP.val_main_v288 (F := F) X.x3
    ∧ ArgsAt X (after s45 V) := by
  obtain ⟨h_main_v282, h_main_v283, hA⟩ := h
  obtain ⟨a0, a1, a2, a3, a4, a5, a6, a7, a8, a9, a10, a11⟩ := id hA
  exact ⟨(s45_ok.keep (by decide)).trans h_main_v282,
    by after_results_simp; rw [a3, h_main_v283]; rfl,
    hA.step s45_ok (by decide)⟩

abbrev s46 : List (HloOp τ sig (Elt F)) :=
  [ unary main_v288 main_v289 (broadcastInDim S64x1 ![0] bcast_S64_S64x1_0),
    unary main_v289 main_v290 (broadcastInDim S64x128 ![0, 1] bcast_S64x1_S64x128_0_1),
    binary main_v282 main_v290 main_v291 (Host.divf),
    binary main_v291 main_arg10 main_v292 (fun l r => Host.dotGeneral dot_S64x128_S128x2_S64x2_1_0_0_1_n_n none l r),
    unary main_arg11 main_v293 (broadcastInDim S1x2 ![1] bcast_S2_S1x2_1),
    unary main_v293 main_v294 (broadcastInDim S64x2 ![0, 1] bcast_S1x2_S64x2_0_1),
    binary main_v292 main_v294 main_v295 (addf) ]
abbrev w46 : List (Ref sig .tc) := [main_v289, main_v290, main_v291, main_v292, main_v293, main_v294, main_v295]
theorem s46_ok : Ok (F := F) s46 w46 :=
  ⟨⟨unary_bufs_sub .., unary_bufs_sub .., binary_bufs_sub .., binary_bufs_sub .., unary_bufs_sub .., unary_bufs_sub .., binary_bufs_sub ..⟩,
    ⟨rfl, rfl, rfl, rfl, rfl, rfl, rfl⟩,
    ⟨wsub (by decide), wsub (by decide), wsub (by decide), wsub (by decide), wsub (by decide), wsub (by decide), wsub (by decide)⟩⟩

set_option maxRecDepth 8192 in
theorem step46 (V : Valuation τ sig (Elt F))
    (h : V (Proc.devRef .tc main_v282) = ReadP.val_main_v282 (F := F) X.x0 X.x1 X.x2 X.x3 X.x4 X.x5 X.x6 X.x7 X.x8 X.x9
      ∧ V (Proc.devRef .tc main_v288) = ReadP.val_main_v288 (F := F) X.x3
      ∧ ArgsAt X V) :
    after s46 V (Proc.devRef .tc main_v291) = ReadP.val_main_v291 (F := F) X.x0 X.x1 X.x2 X.x3 X.x4 X.x5 X.x6 X.x7 X.x8 X.x9
    ∧ after s46 V (Proc.devRef .tc main_v295) = ReadP.val_main_v295 (F := F) X.x0 X.x1 X.x2 X.x3 X.x4 X.x5 X.x6 X.x7 X.x8 X.x9 X.x10 X.x11
    ∧ ArgsAt X (after s46 V) := by
  obtain ⟨h_main_v282, h_main_v288, hA⟩ := h
  obtain ⟨a0, a1, a2, a3, a4, a5, a6, a7, a8, a9, a10, a11⟩ := id hA
  exact ⟨by after_results_simp; rw [h_main_v282, h_main_v288]; rfl,
    by after_results_simp; rw [h_main_v282, h_main_v288, a10, a11]; rfl,
    hA.step s46_ok (by decide)⟩

set_option maxRecDepth 8192 in
theorem main_part5_eq (c : Dev nD) : main_part5 (F := F) c = seq (s40 ++ (s41 ++ (s42 ++ (s43 ++ (s44 ++ (s45 ++ (s46))))))) := by chain_rfl

abbrev allOps : List (HloOp τ sig (Elt F)) :=
  s0 ++ (s1 ++ (s2 ++ (s3 ++ (s4 ++ (s5 ++ (s6 ++ (s7 ++ (s8 ++ (s9 ++ (s10 ++ (s11 ++ (s12 ++ (s13 ++ (s14 ++ (s15 ++ (s16 ++ (s17 ++ (s18 ++ (s19 ++ (s20 ++ (s21 ++ (s22 ++ (s23 ++ (s24 ++ (s25 ++ (s26 ++ (s27 ++ (s28 ++ (s29 ++ (s30 ++ (s31 ++ (s32 ++ (s33 ++ (s34 ++ (s35 ++ (s36 ++ (s37 ++ (s38 ++ (s39 ++ (s40 ++ (s41 ++ (s42 ++ (s43 ++ (s44 ++ (s45 ++ (s46))))))))))))))))))))))))))))))))))))))))))))))

theorem main_eq (c : Dev nD) : main (F := F) c = seq allOps := by
  have e : main (F := F) c = (main_part0 c >>= fun _ => main_part1 c >>= fun _ => main_part2 c >>= fun _ =>
      main_part3 c >>= fun _ => main_part4 c >>= fun _ => main_part5 c) := rfl
  rw [e, main_part0_eq, main_part1_eq, main_part2_eq, main_part3_eq, main_part4_eq, main_part5_eq]
  simp only [allOps, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem allOps_line : Line (F := F) allOps :=
  s0_ok.line.append (s1_ok.line.append (s2_ok.line.append (s3_ok.line.append (s4_ok.line.append (s5_ok.line.append (s6_ok.line.append (s7_ok.line.append (s8_ok.line.append (s9_ok.line.append (s10_ok.line.append (s11_ok.line.append (s12_ok.line.append (s13_ok.line.append (s14_ok.line.append (s15_ok.line.append (s16_ok.line.append (s17_ok.line.append (s18_ok.line.append (s19_ok.line.append (s20_ok.line.append (s21_ok.line.append (s22_ok.line.append (s23_ok.line.append (s24_ok.line.append (s25_ok.line.append (s26_ok.line.append (s27_ok.line.append (s28_ok.line.append (s29_ok.line.append (s30_ok.line.append (s31_ok.line.append (s32_ok.line.append (s33_ok.line.append (s34_ok.line.append (s35_ok.line.append (s36_ok.line.append (s37_ok.line.append (s38_ok.line.append (s39_ok.line.append (s40_ok.line.append (s41_ok.line.append (s42_ok.line.append (s43_ok.line.append (s44_ok.line.append (s45_ok.line.append (s46_ok.line))))))))))))))))))))))))))))))))))))))))))))))

set_option maxRecDepth 8192 in
/-- Each stretch hands the next the stages still to be read; chained from contents holding `X` at the arguments. -/
theorem vals_all (V : Valuation τ sig (Elt F)) (hA : ArgsAt X V) :
    after allOps V (Proc.devRef .tc main_v291) = ReadP.val_main_v291 (F := F) X.x0 X.x1 X.x2 X.x3 X.x4 X.x5 X.x6 X.x7 X.x8 X.x9
    ∧ after allOps V (Proc.devRef .tc main_v295) = ReadP.val_main_v295 (F := F) X.x0 X.x1 X.x2 X.x3 X.x4 X.x5 X.x6 X.x7 X.x8 X.x9 X.x10 X.x11
    ∧ ArgsAt X (after allOps V) := by
  simp only [allOps, after_append]
  exact step46 X _ (step45 X _ (step44 X _ (step43 X _ (step42 X _ (step41 X _ (step40 X _ (step39 X _ (step38 X _ (step37 X _ (step36 X _ (step35 X _ (step34 X _ (step33 X _ (step32 X _ (step31 X _ (step30 X _ (step29 X _ (step28 X _ (step27 X _ (step26 X _ (step25 X _ (step24 X _ (step23 X _ (step22 X _ (step21 X _ (step20 X _ (step19 X _ (step18 X _ (step17 X _ (step16 X _ (step15 X _ (step14 X _ (step13 X _ (step12 X _ (step11 X _ (step10 X _ (step9 X _ (step8 X _ (step7 X _ (step6 X _ (step5 X _ (step4 X _ (step3 X _ (step2 X _ (step1 X _ (step0 X _ hA))))))))))))))))))))))))))))))))))))))))))))))

theorem run (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_v295) = ReadP.val_main_v295 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v291) = ReadP.val_main_v291 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => by
      obtain ⟨k_main_v291, k_main_v295, k0, k1, k2, k3, k4, k5, k6, k7, k8, k9, k10, k11⟩ :=
        vals_all ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11)⟩ (launchContents m c) ⟨rfl, rfl, rfl, rfl, rfl, rfl, rfl, rfl, rfl, rfl, rfl, rfl⟩
      exact ⟨(h c main_v295).trans k_main_v295, (h c main_v291).trans k_main_v291,
        (h c main_arg0).trans k0, (h c main_arg1).trans k1, (h c main_arg2).trans k2, (h c main_arg3).trans k3, (h c main_arg4).trans k4, (h c main_arg5).trans k5, (h c main_arg6).trans k6, (h c main_arg7).trans k7, (h c main_arg8).trans k8, (h c main_arg9).trans k9, (h c main_arg10).trans k10, (h c main_arg11).trans k11⟩)
    (run_seq scopedRefs_eq scopedSems_eq defs main (fun _ => allOps) main_eq (fun _ => allOps_line.1) m g
      (fun _ => List.forall_iff_forall_mem.mp allOps_line.2))

end Cert.ReferenceIdeal.RefRun

end
-- ==== Proof.RefDense.lean ====
import proofs.«410163_j48198122996027_1_alg».proof.Proof.RefRead
import proofs.«410163_j48198122996027_1_alg».proof.Proof.KI.Spec
import proofs.«410163_j48198122996027_1_alg».proof.Proof.Gen.KernelIdeal

noncomputable section

open scoped BigOperators

namespace Cert.ReferenceIdeal.RefDense

open Cert.ReferenceIdeal Cert.ReferenceIdeal.Gen Cert.ReferenceIdeal.ReadP Idealize.ShloMosaic Idealize.ShloMosaic.ValueIdx
open Cert.KernelIdeal.Hand (dense64 dense128)

theorem idx1_ext {n : Nat} {p q : (⟨1, ![n]⟩ : Shape).Idx} (h0 : (p 0).val = (q 0).val) : p = q := by
  funext a; match a with | ⟨0, _⟩ => exact Fin.ext h0

theorem idx2_ext {n0 n1 : Nat} {p q : (⟨2, ![n0, n1]⟩ : Shape).Idx} (h0 : (p 0).val = (q 0).val)
    (h1 : (p 1).val = (q 1).val) : p = q := by
  funext a; match a with | ⟨0, _⟩ => exact Fin.ext h0 | ⟨1, _⟩ => exact Fin.ext h1

theorem idx3_ext {n0 n1 n2 : Nat} {p q : (⟨3, ![n0, n1, n2]⟩ : Shape).Idx} (h0 : (p 0).val = (q 0).val)
    (h1 : (p 1).val = (q 1).val) (h2 : (p 2).val = (q 2).val) : p = q := by
  funext a; match a with | ⟨0, _⟩ => exact Fin.ext h0 | ⟨1, _⟩ => exact Fin.ext h1 | ⟨2, _⟩ => exact Fin.ext h2

theorem slab64_row (k j : Fin 64) : (k.val * 64 + j.val) / 64 % 64 = k.val := by
  have := k.isLt; have := j.isLt; omega

theorem slab64_col (k j : Fin 64) : (k.val * 64 + j.val) % 64 = j.val := by
  have := k.isLt; have := j.isLt; omega

theorem slab128_row (k : Fin 64) (j : Fin 128) : (k.val * 128 + j.val) / 128 % 64 = k.val := by
  have := k.isLt; have := j.isLt; omega

theorem slab128_col (k : Fin 64) (j : Fin 128) : (k.val * 128 + j.val) % 128 = j.val := by
  have := k.isLt; have := j.isLt; omega

theorem bias64 (b : Vec Ideal S64 .f32) (j : Fin 64) :
    shapeCast Cert.KernelIdeal.S1x64 b Cert.KernelIdeal.Gen.shapeCasts_S64_S1x64 (ix2 0 j) = b (ix1 j) := by
  refine shapeCast_apply b _ (ix2 0 j) (ix1 j) ?_
  rw [Shape.rowMajor_val_two, Shape.rowMajor_val_one]
  show j.val = (0 : Fin 1).val * 64 + j.val
  simp

theorem bias128 (b : Vec Ideal S128 .f32) (j : Fin 128) :
    shapeCast Cert.KernelIdeal.S1x128 b Cert.KernelIdeal.Gen.shapeCasts_S128_S1x128 (ix2 0 j) = b (ix1 j) := by
  refine shapeCast_apply b _ (ix2 0 j) (ix1 j) ?_
  rw [Shape.rowMajor_val_two, Shape.rowMajor_val_one]
  show j.val = (0 : Fin 1).val * 128 + j.val
  simp

variable (x0 : Vec Ideal S50000x64 .f32) (x1 : Vec Ideal S2x800000 .i32) (x2 : Vec Ideal S800000 .f32)
  (x4 : Vec Ideal S5x64x64 .f32) (x5 : Vec Ideal S64 .f32) (x6 : Vec Ideal S5x64x64 .f32) (x7 : Vec Ideal S64 .f32)
  (x8 : Vec Ideal S5x64x128 .f32) (x9 : Vec Ideal S128 .f32)

theorem term_of {H : Nat} {sM : Shape} {d : Vec Ideal ⟨2, ![50000, H]⟩ .f32} {L : Vec Ideal S50000x64 .f32}
    {M : sM.Idx → EReal} {W : Vec Ideal ⟨3, ![5, 64, H]⟩ .f32} {s : Fin 5}
    {li : (⟨2, ![50000, H]⟩ : Shape).Idx → Fin 64 → S50000x64.Idx}
    {ri : (⟨2, ![50000, H]⟩ : Shape).Idx → Fin 64 → sM.Idx} {wi : sM.Idx → (⟨3, ![5, 64, H]⟩ : Shape).Idx}
    (hd : ∀ i, d i = ∑ k : Fin 64, L (li i k) * M (ri i k)) (hM : ∀ m, M m = W (wi m))
    (hl : ∀ i k, li i k = ix2 (i 0) k) (hw : ∀ i k, wi (ri i k) = ix3 s k (i 1))
    (i : (⟨2, ![50000, H]⟩ : Shape).Idx) :
    d i = ∑ k : Fin 64, L (ix2 (i 0) k) * W (ix3 s k (i 1)) := by
  rw [hd]
  refine Finset.sum_congr rfl fun k _ => ?_
  rw [hM, hl, hw]
  rfl

theorem term30 (i : S50000x64.Idx) :
    val_main_v30 (F := Ideal) x0 x4 i = ∑ k : Fin 64, x0 (ix2 (i 0) k) * x4 (ix3 0 k (i 1)) :=
  term_of (val_main_v30_apply x0 x4) (fun m => (val_main_v29_apply x4 m).trans (val_main_v28_apply x4 _))
    (fun _ _ => idx2_ext rfl rfl) (fun i k => idx3_ext rfl (slab64_row k (i 1)) (slab64_col k (i 1))) i

theorem term46 (i : S50000x64.Idx) :
    val_main_v46 (F := Ideal) x0 x1 x2 x4 i
      = ∑ k : Fin 64, val_main_v43 (F := Ideal) x0 x1 x2 (ix2 (i 0) k) * x4 (ix3 1 k (i 1)) :=
  term_of (val_main_v46_apply x0 x1 x2 x4) (fun m => (val_main_v45_apply x4 m).trans (val_main_v44_apply x4 _))
    (fun _ _ => idx2_ext rfl rfl) (fun i k => idx3_ext rfl (slab64_row k (i 1)) (slab64_col k (i 1))) i

theorem term66 (i : S50000x64.Idx) :
    val_main_v66 (F := Ideal) x0 x1 x2 x4 i
      = ∑ k : Fin 64, val_main_v63 (F := Ideal) x0 x1 x2 (ix2 (i 0) k) * x4 (ix3 2 k (i 1)) :=
  term_of (val_main_v66_apply x0 x1 x2 x4) (fun m => (val_main_v65_apply x4 m).trans (val_main_v64_apply x4 _))
    (fun _ _ => idx2_ext rfl rfl) (fun i k => idx3_ext rfl (slab64_row k (i 1)) (slab64_col k (i 1))) i

theorem term86 (i : S50000x64.Idx) :
    val_main_v86 (F := Ideal) x0 x1 x2 x4 i
      = ∑ k : Fin 64, val_main_v83 (F := Ideal) x0 x1 x2 (ix2 (i 0) k) * x4 (ix3 3 k (i 1)) :=
  term_of (val_main_v86_apply x0 x1 x2 x4) (fun m => (val_main_v85_apply x4 m).trans (val_main_v84_apply x4 _))
    (fun _ _ => idx2_ext rfl rfl) (fun i k => idx3_ext rfl (slab64_row k (i 1)) (slab64_col k (i 1))) i

theorem term106 (i : S50000x64.Idx) :
    val_main_v106 (F := Ideal) x0 x1 x2 x4 i
      = ∑ k : Fin 64, val_main_v103 (F := Ideal) x0 x1 x2 (ix2 (i 0) k) * x4 (ix3 4 k (i 1)) :=
  term_of (val_main_v106_apply x0 x1 x2 x4) (fun m => (val_main_v105_apply x4 m).trans (val_main_v104_apply x4 _))
    (fun _ _ => idx2_ext rfl rfl) (fun i k => idx3_ext rfl (slab64_row k (i 1)) (slab64_col k (i 1))) i

theorem term114 (i : S50000x64.Idx) :
    val_main_v114 (F := Ideal) x0 x1 x2 x4 x5 x6 i
      = ∑ k : Fin 64, val_main_v111 (F := Ideal) x0 x1 x2 x4 x5 (ix2 (i 0) k) * x6 (ix3 0 k (i 1)) :=
  term_of (val_main_v114_apply x0 x1 x2 x4 x5 x6) (fun m => (val_main_v113_apply x6 m).trans (val_main_v112_apply x6 _))
    (fun _ _ => idx2_ext rfl rfl) (fun i k => idx3_ext rfl (slab64_row k (i 1)) (slab64_col k (i 1))) i

theorem term130 (i : S50000x64.Idx) :
    val_main_v130 (F := Ideal) x0 x1 x2 x4 x5 x6 i
      = ∑ k : Fin 64, val_main_v127 (F := Ideal) x0 x1 x2 x4 x5 (ix2 (i 0) k) * x6 (ix3 1 k (i 1)) :=
  term_of (val_main_v130_apply x0 x1 x2 x4 x5 x6) (fun m => (val_main_v129_apply x6 m).trans (val_main_v128_apply x6 _))
    (fun _ _ => idx2_ext rfl rfl) (fun i k => idx3_ext rfl (slab64_row k (i 1)) (slab64_col k (i 1))) i

theorem term150 (i : S50000x64.Idx) :
    val_main_v150 (F := Ideal) x0 x1 x2 x4 x5 x6 i
      = ∑ k : Fin 64, val_main_v147 (F := Ideal) x0 x1 x2 x4 x5 (ix2 (i 0) k) * x6 (ix3 2 k (i 1)) :=
  term_of (val_main_v150_apply x0 x1 x2 x4 x5 x6) (fun m => (val_main_v149_apply x6 m).trans (val_main_v148_apply x6 _))
    (fun _ _ => idx2_ext rfl rfl) (fun i k => idx3_ext rfl (slab64_row k (i 1)) (slab64_col k (i 1))) i

theorem term170 (i : S50000x64.Idx) :
    val_main_v170 (F := Ideal) x0 x1 x2 x4 x5 x6 i
      = ∑ k : Fin 64, val_main_v167 (F := Ideal) x0 x1 x2 x4 x5 (ix2 (i 0) k) * x6 (ix3 3 k (i 1)) :=
  term_of (val_main_v170_apply x0 x1 x2 x4 x5 x6) (fun m => (val_main_v169_apply x6 m).trans (val_main_v168_apply x6 _))
    (fun _ _ => idx2_ext rfl rfl) (fun i k => idx3_ext rfl (slab64_row k (i 1)) (slab64_col k (i 1))) i

theorem term190 (i : S50000x64.Idx) :
    val_main_v190 (F := Ideal) x0 x1 x2 x4 x5 x6 i
      = ∑ k : Fin 64, val_main_v187 (F := Ideal) x0 x1 x2 x4 x5 (ix2 (i 0) k) * x6 (ix3 4 k (i 1)) :=
  term_of (val_main_v190_apply x0 x1 x2 x4 x5 x6) (fun m => (val_main_v189_apply x6 m).trans (val_main_v188_apply x6 _))
    (fun _ _ => idx2_ext rfl rfl) (fun i k => idx3_ext rfl (slab64_row k (i 1)) (slab64_col k (i 1))) i

theorem term198 (i : S50000x128.Idx) :
    val_main_v198 (F := Ideal) x0 x1 x2 x4 x5 x6 x7 x8 i
      = ∑ k : Fin 64, val_main_v195 (F := Ideal) x0 x1 x2 x4 x5 x6 x7 (ix2 (i 0) k) * x8 (ix3 0 k (i 1)) :=
  term_of (val_main_v198_apply x0 x1 x2 x4 x5 x6 x7 x8)
    (fun m => (val_main_v197_apply x8 m).trans (val_main_v196_apply x8 _))
    (fun _ _ => idx2_ext rfl rfl) (fun i k => idx3_ext rfl (slab128_row k (i 1)) (slab128_col k (i 1))) i

theorem term214 (i : S50000x128.Idx) :
    val_main_v214 (F := Ideal) x0 x1 x2 x4 x5 x6 x7 x8 i
      = ∑ k : Fin 64, val_main_v211 (F := Ideal) x0 x1 x2 x4 x5 x6 x7 (ix2 (i 0) k) * x8 (ix3 1 k (i 1)) :=
  term_of (val_main_v214_apply x0 x1 x2 x4 x5 x6 x7 x8)
    (fun m => (val_main_v213_apply x8 m).trans (val_main_v212_apply x8 _))
    (fun _ _ => idx2_ext rfl rfl) (fun i k => idx3_ext rfl (slab128_row k (i 1)) (slab128_col k (i 1))) i

theorem term234 (i : S50000x128.Idx) :
    val_main_v234 (F := Ideal) x0 x1 x2 x4 x5 x6 x7 x8 i
      = ∑ k : Fin 64, val_main_v231 (F := Ideal) x0 x1 x2 x4 x5 x6 x7 (ix2 (i 0) k) * x8 (ix3 2 k (i 1)) :=
  term_of (val_main_v234_apply x0 x1 x2 x4 x5 x6 x7 x8)
    (fun m => (val_main_v233_apply x8 m).trans (val_main_v232_apply x8 _))
    (fun _ _ => idx2_ext rfl rfl) (fun i k => idx3_ext rfl (slab128_row k (i 1)) (slab128_col k (i 1))) i

theorem term254 (i : S50000x128.Idx) :
    val_main_v254 (F := Ideal) x0 x1 x2 x4 x5 x6 x7 x8 i
      = ∑ k : Fin 64, val_main_v251 (F := Ideal) x0 x1 x2 x4 x5 x6 x7 (ix2 (i 0) k) * x8 (ix3 3 k (i 1)) :=
  term_of (val_main_v254_apply x0 x1 x2 x4 x5 x6 x7 x8)
    (fun m => (val_main_v253_apply x8 m).trans (val_main_v252_apply x8 _))
    (fun _ _ => idx2_ext rfl rfl) (fun i k => idx3_ext rfl (slab128_row k (i 1)) (slab128_col k (i 1))) i

theorem term274 (i : S50000x128.Idx) :
    val_main_v274 (F := Ideal) x0 x1 x2 x4 x5 x6 x7 x8 i
      = ∑ k : Fin 64, val_main_v271 (F := Ideal) x0 x1 x2 x4 x5 x6 x7 (ix2 (i 0) k) * x8 (ix3 4 k (i 1)) :=
  term_of (val_main_v274_apply x0 x1 x2 x4 x5 x6 x7 x8)
    (fun m => (val_main_v273_apply x8 m).trans (val_main_v272_apply x8 _))
    (fun _ _ => idx2_ext rfl rfl) (fun i k => idx3_ext rfl (slab128_row k (i 1)) (slab128_col k (i 1))) i

theorem layer1 :
    val_main_v111 (F := Ideal) x0 x1 x2 x4 x5
      = dense64 x0 (val_main_v43 (F := Ideal) x0 x1 x2) (val_main_v63 (F := Ideal) x0 x1 x2)
          (val_main_v83 (F := Ideal) x0 x1 x2) (val_main_v103 (F := Ideal) x0 x1 x2) x4
          (shapeCast Cert.KernelIdeal.S1x64 x5 Cert.KernelIdeal.Gen.shapeCasts_S64_S1x64) := by
  funext i
  have hb : x5 (idx_main_v108 (idx_main_v109 i))
      = shapeCast Cert.KernelIdeal.S1x64 x5 Cert.KernelIdeal.Gen.shapeCasts_S64_S1x64 (ix2 0 (i 1)) :=
    (congrArg x5 (idx1_ext rfl : idx_main_v108 (idx_main_v109 i) = ix1 (i 1))).trans (bias64 x5 (i 1)).symm
  rw [val_main_v111_apply, val_main_v110_apply, val_main_v107_apply, val_main_v87_apply, val_main_v67_apply,
    val_main_v47_apply, term30, term46, term66, term86, term106, val_main_v109_apply, val_main_v108_apply,
    val_main_call1_v0_apply, val_main_call1_cst_apply, hb]
  exact congrArg (max _) Ideal.ofBits_zero_f32

theorem layer2 :
    val_main_v195 (F := Ideal) x0 x1 x2 x4 x5 x6 x7
      = dense64 (val_main_v111 (F := Ideal) x0 x1 x2 x4 x5) (val_main_v127 (F := Ideal) x0 x1 x2 x4 x5)
          (val_main_v147 (F := Ideal) x0 x1 x2 x4 x5) (val_main_v167 (F := Ideal) x0 x1 x2 x4 x5)
          (val_main_v187 (F := Ideal) x0 x1 x2 x4 x5) x6
          (shapeCast Cert.KernelIdeal.S1x64 x7 Cert.KernelIdeal.Gen.shapeCasts_S64_S1x64) := by
  funext i
  have hb : x7 (idx_main_v192 (idx_main_v193 i))
      = shapeCast Cert.KernelIdeal.S1x64 x7 Cert.KernelIdeal.Gen.shapeCasts_S64_S1x64 (ix2 0 (i 1)) :=
    (congrArg x7 (idx1_ext rfl : idx_main_v192 (idx_main_v193 i) = ix1 (i 1))).trans (bias64 x7 (i 1)).symm
  rw [val_main_v195_apply, val_main_v194_apply, val_main_v191_apply, val_main_v171_apply, val_main_v151_apply,
    val_main_v131_apply, term114, term130, term150, term170, term190, val_main_v193_apply, val_main_v192_apply,
    val_main_call2_v0_apply, val_main_call2_cst_apply, hb]
  exact congrArg (max _) Ideal.ofBits_zero_f32

theorem layer3 :
    val_main_v279 (F := Ideal) x0 x1 x2 x4 x5 x6 x7 x8 x9
      = dense128 (val_main_v195 (F := Ideal) x0 x1 x2 x4 x5 x6 x7) (val_main_v211 (F := Ideal) x0 x1 x2 x4 x5 x6 x7)
          (val_main_v231 (F := Ideal) x0 x1 x2 x4 x5 x6 x7) (val_main_v251 (F := Ideal) x0 x1 x2 x4 x5 x6 x7)
          (val_main_v271 (F := Ideal) x0 x1 x2 x4 x5 x6 x7) x8
          (shapeCast Cert.KernelIdeal.S1x128 x9 Cert.KernelIdeal.Gen.shapeCasts_S128_S1x128) := by
  funext i
  have hb : x9 (idx_main_v276 (idx_main_v277 i))
      = shapeCast Cert.KernelIdeal.S1x128 x9 Cert.KernelIdeal.Gen.shapeCasts_S128_S1x128 (ix2 0 (i 1)) :=
    (congrArg x9 (idx1_ext rfl : idx_main_v276 (idx_main_v277 i) = ix1 (i 1))).trans (bias128 x9 (i 1)).symm
  rw [val_main_v279_apply, val_main_v278_apply, val_main_v275_apply, val_main_v255_apply, val_main_v235_apply,
    val_main_v215_apply, term198, term214, term234, term254, term274, val_main_v277_apply, val_main_v276_apply,
    val_main_call3_v0_apply, val_main_call3_cst_apply, hb]
  exact congrArg (max _) Ideal.ofBits_zero_f32

end Cert.ReferenceIdeal.RefDense

end
-- ==== Proof.RefCheb.lean ====
import proofs.«410163_j48198122996027_1_alg».proof.Proof.RefRead
import proofs.«410163_j48198122996027_1_alg».proof.Proof.KI.HostSpec

noncomputable section

namespace Cert.ReferenceIdeal.RefCheb

open Cert.ReferenceIdeal Cert.ReferenceIdeal.ReadP Idealize.ShloMosaic
open Cert.KernelIdeal.Hand

variable {F : FTy → Type} [FloatOps F]
variable (x0 : Vec F S50000x64 .f32) (x1 : Vec F S2x800000 .i32) (x2 : Vec F S800000 .f32)
  (x4 : Vec F S5x64x64 .f32) (x5 : Vec F S64 .f32) (x6 : Vec F S5x64x64 .f32) (x7 : Vec F S64 .f32)
  (x9 : Vec F S128 .f32)

theorem src_eq : val_main_v1 (F := F) x1 = srcT x1 := rfl

theorem dst_eq : val_main_v3 (F := F) x1 = dstT x1 := rfl

theorem deg_eq : val_main_v6 (F := F) x1 x2 = degT (val_main_v1 (F := F) x1) x2 := rfl

theorem dinv_eq : val_main_v10 (F := F) x1 x2 = dinvT (val_main_v6 (F := F) x1 x2) := rfl

theorem norm_stage : val_main_v27 (F := F) x1 x2
    = normT (val_main_v1 (F := F) x1) (val_main_v3 (F := F) x1) x2 := rfl

theorem norm_eq : val_main_v27 (F := F) x1 x2 = normT (srcT x1) (dstT x1) x2 := by
  rewrite [norm_stage, src_eq, dst_eq]
  rfl

theorem l1_s1 : val_main_v43 (F := F) x0 x1 x2
    = cheb1T (val_main_v1 (F := F) x1) (val_main_v3 (F := F) x1) (val_main_v27 (F := F) x1 x2) x0 := rfl
theorem l1_s2 : val_main_v63 (F := F) x0 x1 x2
    = chebStepT (val_main_v1 (F := F) x1) (val_main_v3 (F := F) x1) (val_main_v27 (F := F) x1 x2)
        (val_main_v43 (F := F) x0 x1 x2) x0 := rfl
theorem l1_s3 : val_main_v83 (F := F) x0 x1 x2
    = chebStepT (val_main_v1 (F := F) x1) (val_main_v3 (F := F) x1) (val_main_v27 (F := F) x1 x2)
        (val_main_v63 (F := F) x0 x1 x2) (val_main_v43 (F := F) x0 x1 x2) := rfl
theorem l1_s4 : val_main_v103 (F := F) x0 x1 x2
    = chebStepT (val_main_v1 (F := F) x1) (val_main_v3 (F := F) x1) (val_main_v27 (F := F) x1 x2)
        (val_main_v83 (F := F) x0 x1 x2) (val_main_v63 (F := F) x0 x1 x2) := rfl

theorem l1_T1 : val_main_v43 (F := F) x0 x1 x2
    = cheb1T (srcT x1) (dstT x1) (normT (srcT x1) (dstT x1) x2) x0 := by
  rewrite [l1_s1, norm_eq, src_eq, dst_eq]
  rfl

theorem l1_T2 : val_main_v63 (F := F) x0 x1 x2
    = cheb2T (srcT x1) (dstT x1) (normT (srcT x1) (dstT x1) x2) x0 := by
  rewrite [l1_s2, l1_T1, norm_eq, src_eq, dst_eq]
  rfl

theorem l1_T3 : val_main_v83 (F := F) x0 x1 x2
    = cheb3T (srcT x1) (dstT x1) (normT (srcT x1) (dstT x1) x2) x0 := by
  rewrite [l1_s3, l1_T2, l1_T1, norm_eq, src_eq, dst_eq]
  rfl

theorem l1_T4 : val_main_v103 (F := F) x0 x1 x2
    = cheb4T (srcT x1) (dstT x1) (normT (srcT x1) (dstT x1) x2) x0 := by
  rewrite [l1_s4, l1_T3, l1_T2, norm_eq, src_eq, dst_eq]
  rfl

theorem l2_s1 : val_main_v127 (F := F) x0 x1 x2 x4 x5
    = cheb1T (val_main_v1 (F := F) x1) (val_main_v3 (F := F) x1) (val_main_v27 (F := F) x1 x2)
        (val_main_v111 (F := F) x0 x1 x2 x4 x5) := rfl
theorem l2_s2 : val_main_v147 (F := F) x0 x1 x2 x4 x5
    = chebStepT (val_main_v1 (F := F) x1) (val_main_v3 (F := F) x1) (val_main_v27 (F := F) x1 x2)
        (val_main_v127 (F := F) x0 x1 x2 x4 x5) (val_main_v111 (F := F) x0 x1 x2 x4 x5) := rfl
theorem l2_s3 : val_main_v167 (F := F) x0 x1 x2 x4 x5
    = chebStepT (val_main_v1 (F := F) x1) (val_main_v3 (F := F) x1) (val_main_v27 (F := F) x1 x2)
        (val_main_v147 (F := F) x0 x1 x2 x4 x5) (val_main_v127 (F := F) x0 x1 x2 x4 x5) := rfl
theorem l2_s4 : val_main_v187 (F := F) x0 x1 x2 x4 x5
    = chebStepT (val_main_v1 (F := F) x1) (val_main_v3 (F := F) x1) (val_main_v27 (F := F) x1 x2)
        (val_main_v167 (F := F) x0 x1 x2 x4 x5) (val_main_v147 (F := F) x0 x1 x2 x4 x5) := rfl

theorem l2_T1 : val_main_v127 (F := F) x0 x1 x2 x4 x5
    = cheb1T (srcT x1) (dstT x1) (normT (srcT x1) (dstT x1) x2) (val_main_v111 (F := F) x0 x1 x2 x4 x5) := by
  rewrite [l2_s1, norm_eq, src_eq, dst_eq]
  rfl

theorem l2_T2 : val_main_v147 (F := F) x0 x1 x2 x4 x5
    = cheb2T (srcT x1) (dstT x1) (normT (srcT x1) (dstT x1) x2) (val_main_v111 (F := F) x0 x1 x2 x4 x5) := by
  rewrite [l2_s2, l2_T1, norm_eq, src_eq, dst_eq]
  rfl

theorem l2_T3 : val_main_v167 (F := F) x0 x1 x2 x4 x5
    = cheb3T (srcT x1) (dstT x1) (normT (srcT x1) (dstT x1) x2) (val_main_v111 (F := F) x0 x1 x2 x4 x5) := by
  rewrite [l2_s3, l2_T2, l2_T1, norm_eq, src_eq, dst_eq]
  rfl

theorem l2_T4 : val_main_v187 (F := F) x0 x1 x2 x4 x5
    = cheb4T (srcT x1) (dstT x1) (normT (srcT x1) (dstT x1) x2) (val_main_v111 (F := F) x0 x1 x2 x4 x5) := by
  rewrite [l2_s4, l2_T3, l2_T2, norm_eq, src_eq, dst_eq]
  rfl

theorem l3_s1 : val_main_v211 (F := F) x0 x1 x2 x4 x5 x6 x7
    = cheb1T (val_main_v1 (F := F) x1) (val_main_v3 (F := F) x1) (val_main_v27 (F := F) x1 x2)
        (val_main_v195 (F := F) x0 x1 x2 x4 x5 x6 x7) := rfl
theorem l3_s2 : val_main_v231 (F := F) x0 x1 x2 x4 x5 x6 x7
    = chebStepT (val_main_v1 (F := F) x1) (val_main_v3 (F := F) x1) (val_main_v27 (F := F) x1 x2)
        (val_main_v211 (F := F) x0 x1 x2 x4 x5 x6 x7) (val_main_v195 (F := F) x0 x1 x2 x4 x5 x6 x7) := rfl
theorem l3_s3 : val_main_v251 (F := F) x0 x1 x2 x4 x5 x6 x7
    = chebStepT (val_main_v1 (F := F) x1) (val_main_v3 (F := F) x1) (val_main_v27 (F := F) x1 x2)
        (val_main_v231 (F := F) x0 x1 x2 x4 x5 x6 x7) (val_main_v211 (F := F) x0 x1 x2 x4 x5 x6 x7) := rfl
theorem l3_s4 : val_main_v271 (F := F) x0 x1 x2 x4 x5 x6 x7
    = chebStepT (val_main_v1 (F := F) x1) (val_main_v3 (F := F) x1) (val_main_v27 (F := F) x1 x2)
        (val_main_v251 (F := F) x0 x1 x2 x4 x5 x6 x7) (val_main_v231 (F := F) x0 x1 x2 x4 x5 x6 x7) := rfl

theorem l3_T1 : val_main_v211 (F := F) x0 x1 x2 x4 x5 x6 x7
    = cheb1T (srcT x1) (dstT x1) (normT (srcT x1) (dstT x1) x2) (val_main_v195 (F := F) x0 x1 x2 x4 x5 x6 x7) := by
  rewrite [l3_s1, norm_eq, src_eq, dst_eq]
  rfl

theorem l3_T2 : val_main_v231 (F := F) x0 x1 x2 x4 x5 x6 x7
    = cheb2T (srcT x1) (dstT x1) (normT (srcT x1) (dstT x1) x2) (val_main_v195 (F := F) x0 x1 x2 x4 x5 x6 x7) := by
  rewrite [l3_s2, l3_T1, norm_eq, src_eq, dst_eq]
  rfl

theorem l3_T3 : val_main_v251 (F := F) x0 x1 x2 x4 x5 x6 x7
    = cheb3T (srcT x1) (dstT x1) (normT (srcT x1) (dstT x1) x2) (val_main_v195 (F := F) x0 x1 x2 x4 x5 x6 x7) := by
  rewrite [l3_s3, l3_T2, l3_T1, norm_eq, src_eq, dst_eq]
  rfl

theorem l3_T4 : val_main_v271 (F := F) x0 x1 x2 x4 x5 x6 x7
    = cheb4T (srcT x1) (dstT x1) (normT (srcT x1) (dstT x1) x2) (val_main_v195 (F := F) x0 x1 x2 x4 x5 x6 x7) := by
  rewrite [l3_s4, l3_T3, l3_T2, norm_eq, src_eq, dst_eq]
  rfl

theorem bias64_eq : shapeCast Cert.KernelIdeal.S1x64 x5 Cert.KernelIdeal.Gen.shapeCasts_S64_S1x64 = biasRow64T x5 := rfl

theorem bias128_eq :
    shapeCast Cert.KernelIdeal.S1x128 x9 Cert.KernelIdeal.Gen.shapeCasts_S128_S1x128 = biasRow128T x9 := rfl

end Cert.ReferenceIdeal.RefCheb

end
-- ==== Proof.RefPool.lean ====
import proofs.«410163_j48198122996027_1_alg».proof.Proof.RefRead
import Idealize.ShloMosaic.Lib.IdealHost

noncomputable section

open scoped BigOperators

namespace Cert.ReferenceIdeal.RefPool

open Cert.ReferenceIdeal Cert.ReferenceIdeal.Gen Cert.ReferenceIdeal.ReadP Idealize.ShloMosaic Idealize.ShloMosaic.ValueIdx

theorem idx1_ext {n : Nat} {p q : (⟨1, ![n]⟩ : Shape).Idx} (h0 : (p 0).val = (q 0).val) : p = q := by
  funext a; match a with | ⟨0, _⟩ => exact Fin.ext h0

theorem idx2_ext {n0 n1 : Nat} {p q : (⟨2, ![n0, n1]⟩ : Shape).Idx} (h0 : (p 0).val = (q 0).val)
    (h1 : (p 1).val = (q 1).val) : p = q := by
  funext a; match a with | ⟨0, _⟩ => exact Fin.ext h0 | ⟨1, _⟩ => exact Fin.ext h1

variable (x0 : Vec Ideal S50000x64 .f32) (x1 : Vec Ideal S2x800000 .i32) (x2 : Vec Ideal S800000 .f32)
  (x3 : Vec Ideal S50000 .i32) (x4 : Vec Ideal S5x64x64 .f32) (x5 : Vec Ideal S64 .f32) (x6 : Vec Ideal S5x64x64 .f32)
  (x7 : Vec Ideal S64 .f32) (x8 : Vec Ideal S5x64x128 .f32) (x9 : Vec Ideal S128 .f32) (x10 : Vec Ideal S128x2 .f32)
  (x11 : Vec Ideal S2 .f32)

theorem means :
    val_main_v291 (F := Ideal) x0 x1 x2 x3 x4 x5 x6 x7 x8 x9
      = fun i => Ideal.div (val_main_v282 (F := Ideal) x0 x1 x2 x3 x4 x5 x6 x7 x8 x9 i)
          (max (val_main_v286 (F := Ideal) x3 (ix1 (i 0))) 1) := by
  funext i
  have hi : idx_main_v289 (idx_main_v290 i) = ix1 (i 0) := idx1_ext rfl
  rw [val_main_v291_apply, val_main_v290_apply, val_main_v289_apply, val_main_v288_apply, val_main_v287_apply,
    val_main_cst_53_apply, hi]
  exact congrArg (fun c => Ideal.div (val_main_v282 (F := Ideal) x0 x1 x2 x3 x4 x5 x6 x7 x8 x9 i)
    (max (val_main_v286 (F := Ideal) x3 (ix1 (i 0))) c)) Ideal.ofBits_one_f32

theorem out (g : Fin 64) (k : Fin 2) :
    val_main_v295 (F := Ideal) x0 x1 x2 x3 x4 x5 x6 x7 x8 x9 x10 x11 (ix2 g k)
      = (∑ f : Fin 128, val_main_v291 (F := Ideal) x0 x1 x2 x3 x4 x5 x6 x7 x8 x9 (ix2 g f) * x10 (ix2 f k))
          + x11 (ix1 k) := by
  have hi : idx_main_v293 (idx_main_v294 (ix2 g k)) = ix1 k := idx1_ext rfl
  rw [val_main_v295_apply, val_main_v292_apply, val_main_v294_apply, val_main_v293_apply, hi]
  refine congrArg (· + x11 (ix1 k)) (Finset.sum_congr rfl fun f _ => ?_)
  have hl : lidx_main_v292 (ix2 g k) f = ix2 g f := idx2_ext rfl rfl
  have hr : ridx_main_v292 (ix2 g k) f = ix2 f k := idx2_ext rfl rfl
  rw [hl, hr]

end Cert.ReferenceIdeal.RefPool

end
-- ==== Proof.LibSegSum.lean ====
import Idealize.ShloMosaic.PureOps.Ideal.Laws
import Idealize.ShloMosaic.Lib.ValueIdx
import Idealize.ShloMosaic.Lib.ValueIdxRank1
import Idealize.ShloMosaic.Lib.IdealHost
import Idealize.ShloMosaic.Lib.StableHlo.Predicate

open Idealize.ShloMosaic Idealize.ShloMosaic.ValueIdx
open scoped BigOperators

namespace Cert.SegSum

section Rows

variable {G N D w : Nat}

abbrev rowDims (G N D : Nat) (wf : ScatterDims.WF ⟨2, ![G, D]⟩ ⟨2, ![N, 1]⟩ ⟨2, ![N, D]⟩ [1] [0] [0] 1) :
    ScatterDims ⟨2, ![G, D]⟩ ⟨2, ![N, 1]⟩ ⟨2, ![N, D]⟩ where
  updateWindowDims := [1]
  insertedWindowDims := [0]
  scatterDimsToOperandDims := [0]
  indexVectorDim := 1
  wf := wf

variable (wf : ScatterDims.WF ⟨2, ![G, D]⟩ ⟨2, ![N, 1]⟩ ⟨2, ![N, D]⟩ [1] [0] [0] 1)

theorem rowDims_start0 (n : Fin N) (f' : Fin D) (idx : IVec ⟨2, ![N, 1]⟩ w) :
    (rowDims G N D wf).start (ix2 n f') idx 0 = (idx (ix2 n (0 : Fin 1))).toInt := by
  unfold ScatterDims.start
  rw [dif_pos (show (0 : Fin 2) ∈ [(0 : Fin 2)] from List.mem_singleton.mpr rfl)]
  congr 2
  funext b
  refine Fin.ext ?_
  match b with
  | ⟨0, _⟩ => rfl
  | ⟨1, _⟩ => rfl

theorem rowDims_start1 (j : (⟨2, ![N, D]⟩ : Shape).Idx) (idx : IVec ⟨2, ![N, 1]⟩ w) :
    (rowDims G N D wf).start j idx 1 = 0 := by
  unfold ScatterDims.start
  rw [dif_neg (show ¬ (1 : Fin 2) ∈ [(0 : Fin 2)] by decide)]

theorem rowDims_window0 (j : (⟨2, ![N, D]⟩ : Shape).Idx) : (rowDims G N D wf).window j 0 = 0 := by
  unfold ScatterDims.window
  have hk : (rowDims G N D wf).sKept = [(1 : Fin 2)] := rfl
  rw [dif_neg (show ¬ (0 : Fin 2) ∈ (rowDims G N D wf).sKept by
    rw [hk]; exact fun h => absurd (Fin.val_eq_of_eq (List.mem_singleton.mp h)) Nat.zero_ne_one)]

theorem rowDims_window1 (n : Fin N) (f' : Fin D) : (rowDims G N D wf).window (ix2 n f') 1 = f'.val := by
  unfold ScatterDims.window
  have hk : (rowDims G N D wf).sKept = [(1 : Fin 2)] := rfl
  rw [dif_pos (show (1 : Fin 2) ∈ (rowDims G N D wf).sKept by rw [hk]; exact List.mem_singleton.mpr rfl)]
  rfl

theorem rowDims_resultIdx?_eq_some (n : Fin N) (f' : Fin D) (g : Fin G) (f : Fin D) (idx : IVec ⟨2, ![N, 1]⟩ w) :
    (rowDims G N D wf).resultIdx? (ix2 n f') idx = some (ix2 g f) ↔
      (idx (ix2 n (0 : Fin 1))).toInt = (g.val : ℤ) ∧ f' = f := by
  unfold ScatterDims.resultIdx?
  constructor
  · intro h
    split at h
    · rename_i hb
      have he := Option.some.inj h
      have h0 : ((rowDims G N D wf).start (ix2 n f') idx 0 + (rowDims G N D wf).window (ix2 n f') 0).toNat = g.val :=
        congrArg (fun i : (⟨2, ![G, D]⟩ : Shape).Idx => (i 0).val) he
      have h1 : ((rowDims G N D wf).start (ix2 n f') idx 1 + (rowDims G N D wf).window (ix2 n f') 1).toNat = f.val :=
        congrArg (fun i : (⟨2, ![G, D]⟩ : Shape).Idx => (i 1).val) he
      have hb0 := (hb 0).1
      rw [rowDims_start0, rowDims_window0] at h0 hb0
      rw [rowDims_start1, rowDims_window1] at h1
      exact ⟨by omega, Fin.ext (by omega)⟩
    · exact absurd h (by simp)
  · rintro ⟨hg, rfl⟩
    have hall : ∀ a, 0 ≤ (rowDims G N D wf).start (ix2 n f') idx a + (rowDims G N D wf).window (ix2 n f') a ∧
        (rowDims G N D wf).start (ix2 n f') idx a + (rowDims G N D wf).window (ix2 n f') a <
          (⟨2, ![G, D]⟩ : Shape).size a := by
      refine Fin.forall_fin_two.mpr ⟨?_, ?_⟩
      · rw [rowDims_start0, rowDims_window0, hg]
        have : g.val < G := g.isLt
        show 0 ≤ (g.val : ℤ) + ((0 : ℕ) : ℤ) ∧ (g.val : ℤ) + ((0 : ℕ) : ℤ) < (G : ℤ)
        omega
      · rw [rowDims_start1, rowDims_window1]
        have : f'.val < D := f'.isLt
        show 0 ≤ (0 : ℤ) + (f'.val : ℤ) ∧ (0 : ℤ) + (f'.val : ℤ) < (D : ℤ)
        omega
    rw [dif_pos hall]
    congr 1
    funext a
    revert a
    refine Fin.forall_fin_two.mpr ⟨?_, ?_⟩
    · refine Fin.ext ?_
      show ((rowDims G N D wf).start (ix2 n f') idx 0 + (rowDims G N D wf).window (ix2 n f') 0).toNat = g.val
      rw [rowDims_start0, rowDims_window0, hg]
      omega
    · refine Fin.ext ?_
      show ((rowDims G N D wf).start (ix2 n f') idx 1 + (rowDims G N D wf).window (ix2 n f') 1).toNat = f'.val
      rw [rowDims_start1, rowDims_window1]
      omega

theorem scatterAdd_rows (φ : FTy) (x : (⟨2, ![G, D]⟩ : Shape).Idx → EReal) (idx : IVec ⟨2, ![N, 1]⟩ w)
    (upd : (⟨2, ![N, D]⟩ : Shape).Idx → EReal) (g : Fin G) (f : Fin D) :
    Host.scatterAdd (F := Ideal) (φ := φ) (rowDims G N D wf) x idx upd (ix2 g f) =
      x (ix2 g f) + ∑ n : Fin N, (if (idx (ix2 n (0 : Fin 1))).toInt = (g.val : ℤ) then upd (ix2 n f) else 0) := by
  show x (ix2 g f) + ∑ j ∈ Finset.univ.filter
      (fun j => (rowDims G N D wf).resultIdx? j idx = some (ix2 g f)), upd j = _
  congr 1
  rw [Finset.sum_filter, sum_idx2]
  refine Finset.sum_congr rfl fun n _ => ?_
  simp only [rowDims_resultIdx?_eq_some]
  by_cases hA : (idx (ix2 n (0 : Fin 1))).toInt = (g.val : ℤ)
  · simp [hA]
  · simp [hA]

end Rows

section Counts

variable {G N w : Nat}

abbrev cntDims (G N : Nat) (wf : ScatterDims.WF ⟨1, ![G]⟩ ⟨2, ![N, 1]⟩ ⟨1, ![N]⟩ [] [0] [0] 1) :
    ScatterDims ⟨1, ![G]⟩ ⟨2, ![N, 1]⟩ ⟨1, ![N]⟩ where
  updateWindowDims := []
  insertedWindowDims := [0]
  scatterDimsToOperandDims := [0]
  indexVectorDim := 1
  wf := wf

variable (wf : ScatterDims.WF ⟨1, ![G]⟩ ⟨2, ![N, 1]⟩ ⟨1, ![N]⟩ [] [0] [0] 1)

theorem cntDims_start0 (n : Fin N) (idx : IVec ⟨2, ![N, 1]⟩ w) :
    (cntDims G N wf).start (ix1 n) idx 0 = (idx (ix2 n (0 : Fin 1))).toInt := by
  unfold ScatterDims.start
  rw [dif_pos (show (0 : Fin 1) ∈ [(0 : Fin 1)] from List.mem_singleton.mpr rfl)]
  congr 2
  funext b
  refine Fin.ext ?_
  match b with
  | ⟨0, _⟩ => rfl
  | ⟨1, _⟩ => rfl

theorem cntDims_window0 (j : (⟨1, ![N]⟩ : Shape).Idx) : (cntDims G N wf).window j 0 = 0 := by
  unfold ScatterDims.window
  have hk : (cntDims G N wf).sKept = [] := rfl
  rw [dif_neg (show ¬ (0 : Fin 1) ∈ (cntDims G N wf).sKept by rw [hk]; exact List.not_mem_nil)]

theorem cntDims_resultIdx?_eq_some (n : Fin N) (g : Fin G) (idx : IVec ⟨2, ![N, 1]⟩ w) :
    (cntDims G N wf).resultIdx? (ix1 n) idx = some (ix1 g) ↔ (idx (ix2 n (0 : Fin 1))).toInt = (g.val : ℤ) := by
  unfold ScatterDims.resultIdx?
  constructor
  · intro h
    split at h
    · rename_i hb
      have he := Option.some.inj h
      have h0 : ((cntDims G N wf).start (ix1 n) idx 0 + (cntDims G N wf).window (ix1 n) 0).toNat = g.val :=
        congrArg (fun i : (⟨1, ![G]⟩ : Shape).Idx => (i 0).val) he
      have hb0 := (hb 0).1
      rw [cntDims_start0, cntDims_window0] at h0 hb0
      omega
    · exact absurd h (by simp)
  · intro hg
    have hall : ∀ a, 0 ≤ (cntDims G N wf).start (ix1 n) idx a + (cntDims G N wf).window (ix1 n) a ∧
        (cntDims G N wf).start (ix1 n) idx a + (cntDims G N wf).window (ix1 n) a <
          (⟨1, ![G]⟩ : Shape).size a := by
      refine Fin.forall_fin_one.mpr ?_
      rw [cntDims_start0, cntDims_window0, hg]
      have : g.val < G := g.isLt
      show 0 ≤ (g.val : ℤ) + ((0 : ℕ) : ℤ) ∧ (g.val : ℤ) + ((0 : ℕ) : ℤ) < (G : ℤ)
      omega
    rw [dif_pos hall]
    congr 1
    funext a
    revert a
    refine Fin.forall_fin_one.mpr ?_
    refine Fin.ext ?_
    show ((cntDims G N wf).start (ix1 n) idx 0 + (cntDims G N wf).window (ix1 n) 0).toNat = g.val
    rw [cntDims_start0, cntDims_window0, hg]
    omega

theorem scatterAdd_counts (φ : FTy) (x : (⟨1, ![G]⟩ : Shape).Idx → EReal) (idx : IVec ⟨2, ![N, 1]⟩ w)
    (upd : (⟨1, ![N]⟩ : Shape).Idx → EReal) (g : Fin G) :
    Host.scatterAdd (F := Ideal) (φ := φ) (cntDims G N wf) x idx upd (ix1 g) =
      x (ix1 g) + ∑ n : Fin N, (if (idx (ix2 n (0 : Fin 1))).toInt = (g.val : ℤ) then upd (ix1 n) else 0) := by
  show x (ix1 g) + ∑ j ∈ Finset.univ.filter
      (fun j => (cntDims G N wf).resultIdx? j idx = some (ix1 g)), upd j = _
  congr 1
  rw [Finset.sum_filter, ← Equiv.sum_comp (idxEquiv1 (n := N)).symm]
  refine Finset.sum_congr rfl fun n _ => ?_
  show (if (cntDims G N wf).resultIdx? (ix1 n) idx = some (ix1 g) then upd (ix1 n) else 0) = _
  simp only [cntDims_resultIdx?_eq_some]

end Counts

section OneHot

open Idealize.ShloMosaic.StableHlo.Predicate

variable {G N : Nat}

theorem word_eq_ofNat_iff (a : BitVec 32) (g : ℕ) (hg : g < 2 ^ 31) : a = BitVec.ofNat 32 g ↔ a.toInt = (g : ℤ) := by
  constructor
  · rintro rfl
    exact toInt_ofNat_small g hg
  · intro h
    apply BitVec.eq_of_toInt_eq
    rw [h, toInt_ofNat_small g hg]

theorem oneHot_apply (φ : FTy) (hG : G ≤ 2 ^ 31)
    (h₁ : (⟨1, ![N]⟩ : Shape).BroadcastsInDim ⟨2, ![N, 1]⟩ ![0])
    (h₂ : (⟨2, ![N, 1]⟩ : Shape).BroadcastsInDim ⟨2, ![N, G]⟩ ![0, 1])
    (h₃ : (⟨1, ![G]⟩ : Shape).BroadcastsInDim ⟨2, ![1, G]⟩ ![1])
    (h₄ : (⟨2, ![1, G]⟩ : Shape).BroadcastsInDim ⟨2, ![N, G]⟩ ![0, 1])
    (batch : IVec ⟨1, ![N]⟩ 32) (n : Fin N) (g : Fin G) :
    (uitofp φ (cmpi .eq
        (broadcastInDim ⟨2, ![N, G]⟩ ![0, 1] h₂ (broadcastInDim ⟨2, ![N, 1]⟩ ![0] h₁ batch))
        (broadcastInDim ⟨2, ![N, G]⟩ ![0, 1] h₄ (broadcastInDim ⟨2, ![1, G]⟩ ![1] h₃ (iotaInDim ⟨1, ![G]⟩ 32 0)))) :
      FVec Ideal ⟨2, ![N, G]⟩ φ) (ix2 n g) = if (batch (ix1 n)).toInt = (g.val : ℤ) then 1 else 0 := by
  have e : (ix2 n g : (⟨2, ![N, G]⟩ : Shape).Idx) = ij n g := by
    funext a
    match a with
    | ⟨0, _⟩ => rfl
    | ⟨1, _⟩ => rfl
  have e1 : (Shape.Idx.ofFin n : (⟨1, ![N]⟩ : Shape).Idx) = ix1 n := by
    funext a
    match a with
    | ⟨0, _⟩ => rfl
  have hg : g.val < 2 ^ 31 := by have := g.isLt; omega
  show (((IntOp.cmpi .eq
      (broadcastInDim ⟨2, ![N, G]⟩ ![0, 1] h₂ (broadcastInDim ⟨2, ![N, 1]⟩ ![0] h₁ batch) (ix2 n g))
      (broadcastInDim ⟨2, ![N, G]⟩ ![0, 1] h₄ (broadcastInDim ⟨2, ![1, G]⟩ ![1] h₃ (iotaInDim ⟨1, ![G]⟩ 32 0))
        (ix2 n g))).toNat : ℝ) : EReal) = _
  rw [e, bcast_rows, bcast_cols, iota_apply, e1]
  by_cases hc : (batch (ix1 n)).toInt = (g.val : ℤ)
  · rw [if_pos hc, cmpi_eq_iff.mpr ((word_eq_ofNat_iff _ _ hg).mpr hc)]
    simp
  · rw [if_neg hc, eq_zero_of_ne_one fun h => hc ((word_eq_ofNat_iff _ _ hg).mp (cmpi_eq_iff.mp h))]
    simp

end OneHot

section Pool

variable {G N D w : Nat}

theorem reduceRows_drop_eq (h' : (⟨2, ![N, G]⟩ : Shape).ReducesTo [0] ⟨1, ![G]⟩) (n : Fin N) (g' g : Fin G) :
    h'.drop (ix2 n g') = ix1 g ↔ g' = g := by
  constructor
  · intro h
    exact Fin.ext (congrArg (fun i : (⟨1, ![G]⟩ : Shape).Idx => (i 0).val) h)
  · rintro rfl
    funext a
    revert a
    refine Fin.forall_fin_one.mpr ?_
    exact Fin.ext rfl

theorem hostReduceAdd_rows (φ : FTy) {u : Shape} (h' : (⟨2, ![N, G]⟩ : Shape).ReducesTo [0] ⟨1, ![G]⟩)
    (hu : 0 < u.numel) (x : FVec Ideal ⟨2, ![N, G]⟩ φ) (init : u.Idx → Ideal φ) (g : Fin G) :
    Host.reduceAdd x init h' hu (ix1 g) = init (Shape.Idx.first hu) + ∑ n : Fin N, x (ix2 n g) := by
  rw [hostReduceAdd_apply]
  unfold Ideal.hostReduceAdd
  congr 1
  rw [Finset.sum_filter, sum_idx2]
  refine Finset.sum_congr rfl fun n _ => ?_
  simp only [reduceRows_drop_eq]
  simp

theorem sum_oneHot_mul (oh : (⟨2, ![N, G]⟩ : Shape).Idx → EReal) (h : (⟨2, ![N, D]⟩ : Shape).Idx → EReal)
    (lab : Fin N → ℤ) (hoh : ∀ n g, oh (ix2 n g) = if lab n = (g.val : ℤ) then 1 else 0) (g : Fin G) (f : Fin D) :
    ∑ n : Fin N, oh (ix2 n g) * h (ix2 n f) = ∑ n : Fin N, (if lab n = (g.val : ℤ) then h (ix2 n f) else 0) := by
  refine Finset.sum_congr rfl fun n _ => ?_
  rw [hoh, ite_mul, one_mul, zero_mul]

theorem oneHot_counts (φ : FTy) {u : Shape} (h' : (⟨2, ![N, G]⟩ : Shape).ReducesTo [0] ⟨1, ![G]⟩) (hu : 0 < u.numel)
    (oh : FVec Ideal ⟨2, ![N, G]⟩ φ) (init : u.Idx → Ideal φ) (lab : Fin N → ℤ)
    (hoh : ∀ n g, oh (ix2 n g) = if lab n = (g.val : ℤ) then 1 else 0) (g : Fin G) :
    Host.reduceAdd oh init h' hu (ix1 g) =
      init (Shape.Idx.first hu) + ∑ n : Fin N, (if lab n = (g.val : ℤ) then (1 : EReal) else 0) := by
  rw [hostReduceAdd_rows]
  congr 1
  exact Finset.sum_congr rfl fun n _ => hoh n g

theorem oneHot_pool_eq_scatterAdd (φ : FTy)
    (wf : ScatterDims.WF ⟨2, ![G, D]⟩ ⟨2, ![N, 1]⟩ ⟨2, ![N, D]⟩ [1] [0] [0] 1)
    (oh : (⟨2, ![N, G]⟩ : Shape).Idx → EReal) (x : (⟨2, ![G, D]⟩ : Shape).Idx → EReal) (idx : IVec ⟨2, ![N, 1]⟩ w)
    (h : (⟨2, ![N, D]⟩ : Shape).Idx → EReal)
    (hoh : ∀ n g, oh (ix2 n g) = if (idx (ix2 n (0 : Fin 1))).toInt = (g.val : ℤ) then 1 else 0)
    (g : Fin G) (f : Fin D) :
    x (ix2 g f) + ∑ n : Fin N, oh (ix2 n g) * h (ix2 n f) =
      Host.scatterAdd (F := Ideal) (φ := φ) (rowDims G N D wf) x idx h (ix2 g f) := by
  rw [scatterAdd_rows, sum_oneHot_mul oh h (fun n => (idx (ix2 n (0 : Fin 1))).toInt) hoh]

theorem oneHot_counts_eq_scatterAdd (φ : FTy) {u : Shape} (h' : (⟨2, ![N, G]⟩ : Shape).ReducesTo [0] ⟨1, ![G]⟩)
    (hu : 0 < u.numel) (wf : ScatterDims.WF ⟨1, ![G]⟩ ⟨2, ![N, 1]⟩ ⟨1, ![N]⟩ [] [0] [0] 1)
    (oh : FVec Ideal ⟨2, ![N, G]⟩ φ) (init : u.Idx → Ideal φ) (x : (⟨1, ![G]⟩ : Shape).Idx → EReal)
    (idx : IVec ⟨2, ![N, 1]⟩ w) (upd : (⟨1, ![N]⟩ : Shape).Idx → EReal)
    (hoh : ∀ n g, oh (ix2 n g) = if (idx (ix2 n (0 : Fin 1))).toInt = (g.val : ℤ) then 1 else 0)
    (hupd : ∀ n, upd (ix1 n) = 1) (g : Fin G) (hinit : init (Shape.Idx.first hu) = x (ix1 g)) :
    Host.reduceAdd oh init h' hu (ix1 g) =
      Host.scatterAdd (F := Ideal) (φ := φ) (cntDims G N wf) x idx upd (ix1 g) := by
  rw [scatterAdd_counts, oneHot_counts φ h' hu oh init (fun n => (idx (ix2 n (0 : Fin 1))).toInt) hoh, hinit]
  simp only [hupd]

end Pool

end Cert.SegSum
-- ==== Proof.SegSum.lean ====
import proofs.«410163_j48198122996027_1_alg».proof.Proof.LibSegSum
import proofs.«410163_j48198122996027_1_alg».proof.KernelIdeal
import proofs.«410163_j48198122996027_1_alg».proof.ReferenceIdeal

open Idealize.ShloMosaic Idealize.ShloMosaic.ValueIdx
open scoped BigOperators

namespace Cert.SegSum

section Reference

open Cert.ReferenceIdeal in

theorem ref_scatter_rows [Cert.ReferenceIdeal.Facts₀] (x : S64x128.Idx → EReal) (idx : IVec S50000x1 32)
    (upd : S50000x128.Idx → EReal) (g : Fin 64) (f : Fin 128) :
    Host.scatterAdd (F := Ideal) (φ := .f32) scatter_S64x128_S50000x1_S50000x128_1_0_0_1 x idx upd (ix2 g f) =
      x (ix2 g f) + ∑ n : Fin 50000, (if (idx (ix2 n (0 : Fin 1))).toInt = (g.val : ℤ) then upd (ix2 n f) else 0) :=
  scatterAdd_rows Facts₀.scatter_S64x128_S50000x1_S50000x128_1_0_0_1_wf .f32 x idx upd g f

open Cert.ReferenceIdeal in

theorem ref_scatter_counts [Cert.ReferenceIdeal.Facts₀] (x : S64.Idx → EReal) (idx : IVec S50000x1 32)
    (upd : S50000.Idx → EReal) (g : Fin 64) :
    Host.scatterAdd (F := Ideal) (φ := .f32) scatter_S64_S50000x1_S50000_n_0_0_1 x idx upd (ix1 g) =
      x (ix1 g) + ∑ n : Fin 50000, (if (idx (ix2 n (0 : Fin 1))).toInt = (g.val : ℤ) then upd (ix1 n) else 0) :=
  scatterAdd_counts Facts₀.scatter_S64_S50000x1_S50000_n_0_0_1_wf .f32 x idx upd g

end Reference

section Kernel

open Cert.KernelIdeal in

theorem kernel_oneHot_apply [Cert.KernelIdeal.Facts₀] (batch : IVec S50000 32) (n : Fin 50000) (g : Fin 64) :
    (uitofp .f32 (cmpi .eq
        (broadcastInDim S50000x64 ![0, 1] Facts₀.bcast_S50000x1_S50000x64_0_1
          (broadcastInDim S50000x1 ![0] Facts₀.bcast_S50000_S50000x1_0 batch))
        (broadcastInDim S50000x64 ![0, 1] Facts₀.bcast_S1x64_S50000x64_0_1
          (broadcastInDim S1x64 ![1] Facts₀.bcast_S64_S1x64_1 (iotaInDim S64 32 0)))) :
      FVec Ideal S50000x64 .f32) (ix2 n g) = if (batch (ix1 n)).toInt = (g.val : ℤ) then 1 else 0 :=
  oneHot_apply .f32 (by norm_num) _ _ _ _ batch n g

open Cert.KernelIdeal in

theorem kernel_reduce_rows [Cert.KernelIdeal.Facts₀] (x : FVec Ideal S50000x64 .f32) (init : S_.Idx → EReal)
    (g : Fin 64) :
    Host.reduceAdd x init Facts₀.reducesTo_S50000x64_S64_d0 Facts₀.h_S_ (ix1 g) =
      init (Shape.Idx.first Facts₀.h_S_) + ∑ n : Fin 50000, x (ix2 n g) :=
  hostReduceAdd_rows .f32 _ _ x init g

end Kernel

end Cert.SegSum
-- ==== Proof.PoolEq.lean ====
import proofs.«410163_j48198122996027_1_alg».proof.Proof.RefRead
import proofs.«410163_j48198122996027_1_alg».proof.Proof.KI.Spec
import proofs.«410163_j48198122996027_1_alg».proof.Proof.SegSum
import Idealize.ShloMosaic.Lib.Pipeline.Value

open Idealize.ShloMosaic Idealize.ShloMosaic.ValueIdx Cert.SegSum
open scoped BigOperators

namespace Cert.PoolEq

open Cert.ReferenceIdeal Cert.ReferenceIdeal.ReadP in

theorem ref_ids_rows_apply (x3 : IVec S50000 32) (n : Fin 50000) :
    val_main_v281 (F := Ideal) x3 (ix2 n (0 : Fin 1)) = x3 (ix1 n) := by
  rw [val_main_v281_apply]
  congr 1
  funext a
  match a with
  | ⟨0, _⟩ => rfl

open Cert.ReferenceIdeal Cert.ReferenceIdeal.ReadP in

theorem ref_ids_counts_apply (x3 : IVec S50000 32) (n : Fin 50000) :
    val_main_v285 (F := Ideal) x3 (ix2 n (0 : Fin 1)) = x3 (ix1 n) := by
  rw [val_main_v285_apply]
  congr 1
  funext a
  match a with
  | ⟨0, _⟩ => rfl

open Cert.ReferenceIdeal Cert.ReferenceIdeal.ReadP in

theorem sums_eq (x3 : IVec S50000 32) (h : FVec Ideal S50000x128 .f32) (oh : FVec Ideal S50000x64 .f32)
    (hoh : ∀ (n : Fin 50000) (g : Fin 64), oh (ix2 n g) = if (x3 (ix1 n)).toInt = (g.val : ℤ) then 1 else 0) :
    Host.scatterAdd (F := Ideal) (φ := .f32) scatter_S64x128_S50000x1_S50000x128_1_0_0_1
      (val_main_v280 (F := Ideal)) (val_main_v281 (F := Ideal) x3) h = Cert.KernelIdeal.Hand.poolSum oh h := by
  funext i
  obtain ⟨g, f, rfl⟩ : ∃ g f, i = ix2 g f := ⟨i 0, i 1, eq_ix2 i⟩
  rw [ref_scatter_rows]
  show _ = ∑ n : Fin 50000, oh (ix2 n g) * h (ix2 n f)
  rw [sum_oneHot_mul oh h (fun n => (x3 (ix1 n)).toInt) hoh g f, val_main_v280_apply, val_main_cst_50_apply]
  show Ideal.ofBits .f32 0x00000000#32 + _ = _
  rw [Ideal.ofBits_zero_f32, zero_add]
  refine Finset.sum_congr rfl fun n _ => ?_
  rw [ref_ids_rows_apply]

open Cert.ReferenceIdeal Cert.ReferenceIdeal.ReadP in

theorem counts_eq (x3 : IVec S50000 32) (oh : FVec Ideal S50000x64 .f32)
    (hoh : ∀ (n : Fin 50000) (g : Fin 64), oh (ix2 n g) = if (x3 (ix1 n)).toInt = (g.val : ℤ) then 1 else 0)
    (cnt : FVec Ideal S64x1 .f32) (hcnt : ∀ g : Fin 64, cnt (ix2 g (0 : Fin 1)) = ∑ n : Fin 50000, oh (ix2 n g)) :
    ∀ g : Fin 64, val_main_v286 (F := Ideal) x3 (ix1 g) = cnt (ix2 g (0 : Fin 1)) := by
  intro g
  unfold val_main_v286
  rw [ref_scatter_counts, hcnt, val_main_v284_apply, val_main_cst_52_apply]
  show Ideal.ofBits .f32 0x00000000#32 + _ = _
  rw [Ideal.ofBits_zero_f32, zero_add]
  refine Finset.sum_congr rfl fun n _ => ?_
  rw [hoh, ref_ids_counts_apply, val_main_v283_apply, val_main_cst_51_apply]
  show (if _ then Ideal.ofBits .f32 0x3F800000#32 else 0) = _
  rw [Ideal.ofBits_one_f32]

open Cert.KernelIdeal in

theorem kernel_counts_apply [Cert.KernelIdeal.Facts₀] (x : FVec Ideal S50000x64 .f32) (g : Fin 64) :
    shapeCast S64x1 (Host.reduceAdd x (constant (F := Ideal) S_ .f32 0x00000000#32)
        Facts₀.reducesTo_S50000x64_S64_d0 Facts₀.h_S_) Facts₀.shapeCasts_S64_S64x1 (ix2 g (0 : Fin 1)) =
      ∑ n : Fin 50000, x (ix2 n g) := by
  rw [shapeCast_apply _ _ _ (ix1 g) (by
    rw [Shape.rowMajor_val_one, Shape.rowMajor_val_two]
    show g.val = g.val * 1 + 0
    omega), kernel_reduce_rows]
  show Ideal.ofBits .f32 0x00000000#32 + _ = _
  rw [Ideal.ofBits_zero_f32, zero_add]

end Cert.PoolEq
-- ==== Proof.RefValue.lean ====
import proofs.«410163_j48198122996027_1_alg».proof.Proof.RefRead
import proofs.«410163_j48198122996027_1_alg».proof.Proof.RefDense
import proofs.«410163_j48198122996027_1_alg».proof.Proof.RefCheb
import proofs.«410163_j48198122996027_1_alg».proof.Proof.RefPool
import proofs.«410163_j48198122996027_1_alg».proof.Proof.SegSum
import proofs.«410163_j48198122996027_1_alg».proof.Proof.PoolEq
import proofs.«410163_j48198122996027_1_alg».proof.Proof.KI.Net
import Idealize.ShloMosaic.Lib.Pipeline.Value

noncomputable section

open scoped BigOperators

namespace Cert.ReferenceIdeal.RefValue

open Cert.ReferenceIdeal Cert.ReferenceIdeal.ReadP Idealize.ShloMosaic Idealize.ShloMosaic.ValueIdx
open Cert.KernelIdeal.Hand

variable (x0 : Vec Ideal S50000x64 .f32) (x1 : Vec Ideal S2x800000 .i32) (x2 : Vec Ideal S800000 .f32)
  (x3 : Vec Ideal S50000 .i32) (x4 : Vec Ideal S5x64x64 .f32) (x5 : Vec Ideal S64 .f32) (x6 : Vec Ideal S5x64x64 .f32)
  (x7 : Vec Ideal S64 .f32) (x8 : Vec Ideal S5x64x128 .f32) (x9 : Vec Ideal S128 .f32) (x10 : Vec Ideal S128x2 .f32)
  (x11 : Vec Ideal S2 .f32)

theorem feat1_eq : val_main_v111 (F := Ideal) x0 x1 x2 x4 x5 = layer64 x1 x2 x0 x4 x5 := by
  rw [RefDense.layer1, RefCheb.l1_T1, RefCheb.l1_T2, RefCheb.l1_T3, RefCheb.l1_T4, RefCheb.bias64_eq]
  rfl

theorem feat2_eq : val_main_v195 (F := Ideal) x0 x1 x2 x4 x5 x6 x7 = layer64 x1 x2 (layer64 x1 x2 x0 x4 x5) x6 x7 := by
  rw [RefDense.layer2, RefCheb.l2_T1, RefCheb.l2_T2, RefCheb.l2_T3, RefCheb.l2_T4, RefCheb.bias64_eq, feat1_eq]
  rfl

theorem feat3_eq : val_main_v279 (F := Ideal) x0 x1 x2 x4 x5 x6 x7 x8 x9 = feat3 x0 x1 x2 x4 x5 x6 x7 x8 x9 := by
  rw [RefDense.layer3, RefCheb.l3_T1, RefCheb.l3_T2, RefCheb.l3_T3, RefCheb.l3_T4, RefCheb.bias128_eq, feat2_eq]
  rfl

theorem onehot_spec (n : Fin 50000) (g : Fin 64) :
    onehotT (F := Ideal) x3 (ix2 n g) = if (x3 (ix1 n)).toInt = (g.val : ℤ) then 1 else 0 := by
  unfold onehotT
  exact Cert.SegSum.kernel_oneHot_apply x3 n g

theorem counts_colsum (g : Fin 64) :
    countsT (F := Ideal) x3 (ix2 g (0 : Fin 1)) = ∑ n : Fin 50000, onehotT (F := Ideal) x3 (ix2 n g) := by
  unfold countsT
  exact Cert.PoolEq.kernel_counts_apply (onehotT (F := Ideal) x3) g

theorem sums_eq : val_main_v282 (F := Ideal) x0 x1 x2 x3 x4 x5 x6 x7 x8 x9
    = poolSum (onehotT x3) (feat3 x0 x1 x2 x4 x5 x6 x7 x8 x9) := by
  unfold val_main_v282
  rw [feat3_eq]
  exact Cert.PoolEq.sums_eq x3 _ (onehotT x3) (onehot_spec x3)

theorem counts_eq (g : Fin 64) : val_main_v286 (F := Ideal) x3 (ix1 g) = countsT (F := Ideal) x3 (ix2 g (0 : Fin 1)) :=
  Cert.PoolEq.counts_eq x3 (onehotT x3) (onehot_spec x3) (countsT x3) (counts_colsum x3) g

theorem hg_eq : val_main_v291 (F := Ideal) x0 x1 x2 x3 x4 x5 x6 x7 x8 x9 = netHg x0 x1 x2 x3 x4 x5 x6 x7 x8 x9 := by
  rw [RefPool.means]
  funext i
  obtain ⟨g, f, rfl⟩ : ∃ (g : Fin 64) (f : Fin 128), i = ix2 g f := ⟨i 0, i 1, eq_ix2 i⟩
  show Ideal.div (val_main_v282 (F := Ideal) x0 x1 x2 x3 x4 x5 x6 x7 x8 x9 (ix2 g f))
      (max (val_main_v286 (F := Ideal) x3 (ix1 g)) 1) = _
  rw [sums_eq, counts_eq]
  rfl

theorem bias2 (b : Vec Ideal S2 .f32) (k : Fin 2) : biasRow2T (F := Ideal) b (ix2 0 k) = b (ix1 k) := by
  unfold biasRow2T
  refine shapeCast_apply b _ (ix2 0 k) (ix1 k) ?_
  rw [Shape.rowMajor_val_two, Shape.rowMajor_val_one]
  show k.val = (0 : Fin 1).val * 2 + k.val
  simp

theorem out_eq : val_main_v295 (F := Ideal) x0 x1 x2 x3 x4 x5 x6 x7 x8 x9 x10 x11
    = netOut x0 x1 x2 x3 x4 x5 x6 x7 x8 x9 x10 x11 := by
  funext i
  obtain ⟨g, k, rfl⟩ : ∃ (g : Fin 64) (k : Fin 2), i = ix2 g k := ⟨i 0, i 1, eq_ix2 i⟩
  rw [RefPool.out, hg_eq]
  show _ = (∑ f : Fin 128, netHg x0 x1 x2 x3 x4 x5 x6 x7 x8 x9 (ix2 g f) * x10 (ix2 f k)) + biasRow2T (F := Ideal) x11 (ix2 0 k)
  rw [bias2]

end Cert.ReferenceIdeal.RefValue

end
-- ==== Proof.lean ====
import proofs.«410163_j48198122996027_1_alg».proof.Defs
import proofs.«410163_j48198122996027_1_alg».proof.Proof.Gen.Kernel
import proofs.«410163_j48198122996027_1_alg».proof.Proof.Gen.KernelIdeal
import proofs.«410163_j48198122996027_1_alg».proof.Proof.Gen.ReferenceIdeal
import proofs.«410163_j48198122996027_1_alg».proof.Proof.Gen.Pre_finite_inputs
import proofs.«410163_j48198122996027_1_alg».proof.Proof.K.Frame
import proofs.«410163_j48198122996027_1_alg».proof.Proof.KI.Frame
import proofs.«410163_j48198122996027_1_alg».proof.Proof.KI.KernelValue
import proofs.«410163_j48198122996027_1_alg».proof.Proof.RefRun
import proofs.«410163_j48198122996027_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.RefRun.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Hand.netOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.KernelIdeal.Hand.netHg (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.Hand.run_main (F := Ideal) m ρ)
    exact ⟨(h c _ (Cert.KernelIdeal.Hand.mem_uc Cert.KernelIdeal.main_v227_0 (by decide))).trans (Cert.KernelIdeal.Hand.res_out m ρ c),
      (h c _ (Cert.KernelIdeal.Hand.mem_uc Cert.KernelIdeal.main_v227_1 (by decide))).trans (Cert.KernelIdeal.Hand.res_hg m ρ c),
      Cert.KernelIdeal.Hand.arg_kept m ρ r.2 c (h c) Cert.KernelIdeal.main_arg0 (by decide) (by decide),
      Cert.KernelIdeal.Hand.arg_kept m ρ r.2 c (h c) Cert.KernelIdeal.main_arg1 (by decide) (by decide),
      Cert.KernelIdeal.Hand.arg_kept m ρ r.2 c (h c) Cert.KernelIdeal.main_arg2 (by decide) (by decide),
      Cert.KernelIdeal.Hand.arg_kept m ρ r.2 c (h c) Cert.KernelIdeal.main_arg3 (by decide) (by decide),
      Cert.KernelIdeal.Hand.arg_kept m ρ r.2 c (h c) Cert.KernelIdeal.main_arg4 (by decide) (by decide),
      Cert.KernelIdeal.Hand.arg_kept m ρ r.2 c (h c) Cert.KernelIdeal.main_arg5 (by decide) (by decide),
      Cert.KernelIdeal.Hand.arg_kept m ρ r.2 c (h c) Cert.KernelIdeal.main_arg6 (by decide) (by decide),
      Cert.KernelIdeal.Hand.arg_kept m ρ r.2 c (h c) Cert.KernelIdeal.main_arg7 (by decide) (by decide),
      Cert.KernelIdeal.Hand.arg_kept m ρ r.2 c (h c) Cert.KernelIdeal.main_arg8 (by decide) (by decide),
      Cert.KernelIdeal.Hand.arg_kept m ρ r.2 c (h c) Cert.KernelIdeal.main_arg9 (by decide) (by decide),
      Cert.KernelIdeal.Hand.arg_kept m ρ r.2 c (h c) Cert.KernelIdeal.main_arg10 (by decide) (by decide),
      Cert.KernelIdeal.Hand.arg_kept m ρ r.2 c (h c) Cert.KernelIdeal.main_arg11 (by decide) (by decide)⟩
  · refine (θ_run Cert.ReferenceIdeal.defs _ _).mono (fun r h c => ?_) (Cert.ReferenceIdeal.RefRun.run (F := Ideal) m' ρ')
    obtain ⟨h0, h1, h2, h3, h4, h5, h6, h7, h8, h9, h10, h11⟩ := hagree c
    refine ⟨?_, ?_, (h c).2.2⟩
    · rw [(h c).1, Cert.ReferenceIdeal.RefValue.out_eq, h0, h1, h2, h3, h4, h5, h6, h7, h8, h9, h10, h11]
    · rw [(h c).2.1, Cert.ReferenceIdeal.RefValue.hg_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
